-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v362) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v253) = v3 c
          ∧ r.2.mem ((c.tc : Thread Cert.ReferenceIdeal.nD Cert.ReferenceIdeal.τ).loc Cert.ReferenceIdeal.main_v359) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x21x256x512 : Shape := ⟨4, ![4, 21, 256, 512]⟩
abbrev S_ : Shape := ⟨0, ![]⟩

class Facts : Prop where
  bcast_S_S4x21x256x512 : S_.BroadcastsInDim S4x21x256x512 (![] : Fin 0 → Fin S4x21x256x512.rank)
  reducesTo_S4x21x256x512_S_d0_1_2_3 : S4x21x256x512.ReducesTo [0, 1, 2, 3] S_
  h_S_ : 0 < S_.numel

variable [Facts]

def fn_part1 {F : FTy → Type} [FloatOps F] (main_v13 : IVec S_ 1) (main_v16 : IVec S4x21x256x512 1) : IVec S_ 1 :=
  let main_c_5 : IVec S_ 1 := constantI S_ 1 1#1
  let main_v17 : IVec S_ 1 := (fun x v => Host.reduce IntOp.andi x v reducesTo_S4x21x256x512_S_d0_1_2_3 h_S_) main_v16 main_c_5
  let main_v18 : IVec S_ 1 := andi main_v13 main_v17
  main_v18

def fn {F : FTy → Type} [FloatOps F] (main_arg0 : FVec F S4x21x256x512 .f32) (main_arg1 : FVec F S4x21x256x512 .f32) (main_arg2 : FVec F S4x21x256x512 .f32) (main_arg3 : FVec F S4x21x256x512 .f32) : IVec S_ 1 :=
  let main_v0 : FVec F S4x21x256x512 .f32 := Host.absf main_arg0
  let main_cst : FVec F S_ .f32 := constant S_ .f32 0x7F800000#32
  let main_v1 : FVec F S4x21x256x512 .f32 := broadcastInDim S4x21x256x512 ![] bcast_S_S4x21x256x512 main_cst
  let main_v2 : IVec S4x21x256x512 1 := cmpf .olt main_v0 main_v1
  let main_c : IVec S_ 1 := constantI S_ 1 1#1
  let main_v3 : IVec S_ 1 := (fun x v => Host.reduce IntOp.andi x v reducesTo_S4x21x256x512_S_d0_1_2_3 h_S_) main_v2 main_c
  let main_v4 : FVec F S4x21x256x512 .f32 := Host.absf main_arg1
  let main_cst_0 : FVec F S_ .f32 := constant S_ .f32 0x7F800000#32
  let main_v5 : FVec F S4x21x256x512 .f32 := broadcastInDim S4x21x256x512 ![] bcast_S_S4x21x256x512 main_cst_0
  let main_v6 : IVec S4x21x256x512 1 := cmpf .olt main_v4 main_v5
  let main_c_1 : IVec S_ 1 := constantI S_ 1 1#1
  let main_v7 : IVec S_ 1 := (fun x v => Host.reduce IntOp.andi x v reducesTo_S4x21x256x512_S_d0_1_2_3 h_S_) main_v6 main_c_1
  let main_v8 : IVec S_ 1 := andi main_v3 main_v7
  let main_v9 : FVec F S4x21x256x512 .f32 := Host.absf main_arg2
  let main_cst_2 : FVec F S_ .f32 := constant S_ .f32 0x7F800000#32
  let main_v10 : FVec F S4x21x256x512 .f32 := broadcastInDim S4x21x256x512 ![] bcast_S_S4x21x256x512 main_cst_2
  let main_v11 : IVec S4x21x256x512 1 := cmpf .olt main_v9 main_v10
  let main_c_3 : IVec S_ 1 := constantI S_ 1 1#1
  let main_v12 : IVec S_ 1 := (fun x v => Host.reduce IntOp.andi x v reducesTo_S4x21x256x512_S_d0_1_2_3 h_S_) main_v11 main_c_3
  let main_v13 : IVec S_ 1 := andi main_v8 main_v12
  let main_v14 : FVec F S4x21x256x512 .f32 := Host.absf main_arg3
  let main_cst_4 : FVec F S_ .f32 := constant S_ .f32 0x7F800000#32
  let main_v15 : FVec F S4x21x256x512 .f32 := broadcastInDim S4x21x256x512 ![] bcast_S_S4x21x256x512 main_cst_4
  let main_v16 : IVec S4x21x256x512 1 := cmpf .olt main_v14 main_v15
  fn_part1 (F := F) main_v13 main_v16
-- ==== Kernel.lean ====
abbrev S4x21x256x512 : Shape := ⟨4, ![4, 21, 256, 512]⟩
abbrev S1x1 : Shape := ⟨2, ![1, 1]⟩
abbrev S1x1x256x512 : Shape := ⟨4, ![1, 1, 256, 512]⟩
abbrev S256x512 : Shape := ⟨2, ![256, 512]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 15
  | .vmem => 28
  | .smem => 0
  | _ => 0

abbrev bufTy : (tb : Table) → Fin (tcTables nBuf tb) → BufTy
  | .hbm, ⟨0, _⟩ => ⟨S4x21x256x512, .f32⟩
  | .hbm, ⟨1, _⟩ => ⟨S4x21x256x512, .f32⟩
  | .hbm, ⟨2, _⟩ => ⟨S4x21x256x512, .f32⟩
  | .hbm, ⟨3, _⟩ => ⟨S4x21x256x512, .f32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1x256x512, .f32⟩
  | .local _ .vmem, ⟨1, _⟩ => ⟨S1x1x256x512, .f32⟩
  | .local _ .vmem, ⟨2, _⟩ => ⟨S1x1x256x512, .f32⟩
  | .local _ .vmem, ⟨3, _⟩ => ⟨S1x1x256x512, .f32⟩
  | .local _ .vmem, ⟨4, _⟩ => ⟨S1x1x256x512, .f32⟩
  | .local _ .vmem, ⟨5, _⟩ => ⟨S1x1x256x512, .f32⟩
  | .local _ .vmem, ⟨6, _⟩ => ⟨S1x1x256x512, .f32⟩
  | .local _ .vmem, ⟨7, _⟩ => ⟨S1x1x256x512, .f32⟩
  | .local _ .vmem, ⟨8, _⟩ => ⟨S1x1x256x512, .f32⟩
  | .local _ .vmem, ⟨9, _⟩ => ⟨S1x1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x1x256x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1x1x256x512, .f32⟩
  | .local _ .vmem, ⟨18, _⟩ => ⟨S1x1x256x512, .f32⟩
  | .local _ .vmem, ⟨19, _⟩ => ⟨S1x1x256x512, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | _, _ => ⟨S4x21x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨2, ![4, 19], ![false, false]⟩

def k0_cond2 (i : grid0.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c18_i32 : BitVec 32 := 18#32
  let v4 : BitVec 1 := Scalar.cmpi .eq arg1 c18_i32
  let v5 : BitVec 1 := Scalar.andi v3 v4
  let v406 : BitVec 32 := Scalar.extui v5
  let c0_i32_206 : BitVec 32 := 0#32
  let v407 : BitVec 1 := Scalar.cmpi .ne v406 c0_i32_206
  v407

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  rotates_S256x512_d1 : S256x512.Rotates 1 none
  rotates_S256x512_d0 : S256x512.Rotates 0 none
  reduces_S256x512_S256 : S256x512.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x512.size a ≤ S4x21x256x512.size a
  hwx0_0 : ∀ i : grid0.Coords, EltTy.bits .f32 = 32 ∨ (Rect.block (s := S4x21x256x512) S1x1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x512.size a ≤ S4x21x256x512.size a
  hwx0_1 : ∀ i : grid0.Coords, EltTy.bits .f32 = 32 ∨ (Rect.block (s := S4x21x256x512) S1x1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x512.size a ≤ S4x21x256x512.size a
  hwx0_2 : ∀ i : grid0.Coords, EltTy.bits .f32 = 32 ∨ (Rect.block (s := S4x21x256x512) S1x1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x512.size a ≤ S4x21x256x512.size a
  hwx0_3 : ∀ i : grid0.Coords, EltTy.bits .f32 = 32 ∨ (Rect.block (s := S4x21x256x512) S1x1x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x512.size a ≤ S4x21x256x512.size a
  hwx0_4 : ∀ i : grid0.Coords, EltTy.bits .f32 = 32 ∨ (Rect.block (s := S4x21x256x512) S1x1x256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x512.size a ≤ S4x21x256x512.size a
  hwx0_5 : ∀ i : grid0.Coords, EltTy.bits .f32 = 32 ∨ (Rect.block (s := S4x21x256x512) S1x1x256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x512.size a ≤ S4x21x256x512.size a
  hwx0_6 : ∀ i : grid0.Coords, EltTy.bits .f32 = 32 ∨ (Rect.block (s := S4x21x256x512) S1x1x256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256x512.size a ≤ S4x21x256x512.size a
  hwx0_7 : ∀ i : grid0.Coords, EltTy.bits .f32 = 32 ∨ (Rect.block (s := S4x21x256x512) S1x1x256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256x512.size a ≤ S4x21x256x512.size a
  hwx0_8 : ∀ i : grid0.Coords, EltTy.bits .f32 = 32 ∨ (Rect.block (s := S4x21x256x512) S1x1x256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256x512.size a ≤ S4x21x256x512.size a
  hwx0_9 : ∀ i : grid0.Coords, EltTy.bits .f32 = 32 ∨ (Rect.block (s := S4x21x256x512) S1x1x256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)

variable [Facts₀]

abbrev win0_0 : Pipeline.Window sig grid0 :=
  Pipeline.Window.ofSpec (Memref.whole main_arg0) S1x1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1x256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x1x256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1x1x256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S1x1x256x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S1x1x256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S1x1x256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1x1.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1x1.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S1x1.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_3) S1x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4x21x256x512 : Shape := ⟨4, ![4, 21, 256, 512]⟩
abbrev S4x19x256x512 : Shape := ⟨4, ![4, 19, 256, 512]⟩
abbrev S4x19x256x511 : Shape := ⟨4, ![4, 19, 256, 511]⟩
abbrev S4x19x256x1 : Shape := ⟨4, ![4, 19, 256, 1]⟩
abbrev S_ : Shape := ⟨0, ![]⟩
abbrev S4x19x255x512 : Shape := ⟨4, ![4, 19, 255, 512]⟩
abbrev S4x19x1x512 : Shape := ⟨4, ![4, 19, 1, 512]⟩
abbrev S4x19x256x510 : Shape := ⟨4, ![4, 19, 256, 510]⟩
abbrev S4x19x256x2 : Shape := ⟨4, ![4, 19, 256, 2]⟩
abbrev S4x19x254x512 : Shape := ⟨4, ![4, 19, 254, 512]⟩
abbrev S4x19x2x512 : Shape := ⟨4, ![4, 19, 2, 512]⟩

abbrev nBuf : Space → Nat
  | .hbm => 579
  | .vmem => 0
  | .smem => 0
  | _ => 0

abbrev hbmTy0_0 (i : Nat) : BufTy := match i % 128 with
  | 0 => ⟨S4x21x256x512, .f32⟩
  | 1 => ⟨S4x21x256x512, .f32⟩
  | 2 => ⟨S4x21x256x512, .f32⟩
  | 3 => ⟨S4x21x256x512, .f32⟩
  | 4 => ⟨S4x19x256x512, .f32⟩
  | 5 => ⟨S4x19x256x512, .f32⟩
  | 6 => ⟨S4x19x256x512, .f32⟩
  | 7 => ⟨S4x19x256x512, .f32⟩
  | 8 => ⟨S4x19x256x511, .f32⟩
  | 9 => ⟨S4x19x256x1, .f32⟩
  | 10 => ⟨S4x19x256x512, .f32⟩
  | 11 => ⟨S4x19x256x512, .f32⟩
  | 12 => ⟨S_, .f32⟩
  | 13 => ⟨S4x19x256x512, .f32⟩
  | 14 => ⟨S4x19x256x512, .f32⟩
  | 15 => ⟨S4x19x256x1, .f32⟩
  | 16 => ⟨S4x19x256x511, .f32⟩
  | 17 => ⟨S4x19x256x512, .f32⟩
  | 18 => ⟨S4x19x256x512, .f32⟩
  | 19 => ⟨S_, .f32⟩
  | 20 => ⟨S4x19x256x512, .f32⟩
  | 21 => ⟨S4x19x256x512, .f32⟩
  | 22 => ⟨S4x19x255x512, .f32⟩
  | 23 => ⟨S4x19x1x512, .f32⟩
  | 24 => ⟨S4x19x256x512, .f32⟩
  | 25 => ⟨S4x19x256x512, .f32⟩
  | 26 => ⟨S_, .f32⟩
  | 27 => ⟨S4x19x256x512, .f32⟩
  | 28 => ⟨S4x19x256x512, .f32⟩
  | 29 => ⟨S4x19x1x512, .f32⟩
  | 30 => ⟨S4x19x255x512, .f32⟩
  | 31 => ⟨S4x19x256x512, .f32⟩
  | 32 => ⟨S4x19x256x512, .f32⟩
  | 33 => ⟨S_, .f32⟩
  | 34 => ⟨S4x19x256x512, .f32⟩
  | 35 => ⟨S4x19x256x512, .f32⟩
  | 36 => ⟨S4x19x256x512, .f32⟩
  | 37 => ⟨S_, .f32⟩
  | 38 => ⟨S4x19x256x512, .f32⟩
  | 39 => ⟨S4x19x256x512, .f32⟩
  | 40 => ⟨S4x19x256x512, .f32⟩
  | 41 => ⟨S_, .f32⟩
  | 42 => ⟨S4x19x256x512, .f32⟩
  | 43 => ⟨S4x19x256x512, .f32⟩
  | 44 => ⟨S4x19x256x512, .f32⟩
  | 45 => ⟨S4x19x256x512, .f32⟩
  | 46 => ⟨S_, .f32⟩
  | 47 => ⟨S_, .f32⟩
  | 48 => ⟨S_, .f32⟩
  | 49 => ⟨S_, .f32⟩
  | 50 => ⟨S4x19x256x512, .f32⟩
  | 51 => ⟨S4x19x256x512, .f32⟩
  | 52 => ⟨S4x19x256x512, .f32⟩
  | 53 => ⟨S_, .f32⟩
  | 54 => ⟨S4x19x256x512, .f32⟩
  | 55 => ⟨S4x19x256x512, .f32⟩
  | 56 => ⟨S4x19x256x511, .f32⟩
  | 57 => ⟨S4x19x256x1, .f32⟩
  | 58 => ⟨S4x19x256x512, .f32⟩
  | 59 => ⟨S4x19x256x1, .f32⟩
  | 60 => ⟨S4x19x256x511, .f32⟩
  | 61 => ⟨S4x19x256x512, .f32⟩
  | 62 => ⟨S4x19x256x512, .f32⟩
  | 63 => ⟨S_, .f32⟩
  | 64 => ⟨S4x19x256x512, .f32⟩
  | 65 => ⟨S4x19x256x512, .f32⟩
  | 66 => ⟨S_, .f32⟩
  | 67 => ⟨S4x19x256x512, .f32⟩
  | 68 => ⟨S4x19x256x512, .i1⟩
  | 69 => ⟨S_, .f32⟩
  | 70 => ⟨S4x19x256x512, .f32⟩
  | 71 => ⟨S4x19x256x512, .f32⟩
  | 72 => ⟨S4x19x256x1, .f32⟩
  | 73 => ⟨S4x19x256x511, .f32⟩
  | 74 => ⟨S4x19x256x512, .f32⟩
  | 75 => ⟨S_, .f32⟩
  | 76 => ⟨S4x19x256x512, .f32⟩
  | 77 => ⟨S4x19x256x512, .f32⟩
  | 78 => ⟨S4x19x256x512, .f32⟩
  | 79 => ⟨S4x19x256x511, .f32⟩
  | 80 => ⟨S4x19x256x1, .f32⟩
  | 81 => ⟨S4x19x256x512, .f32⟩
  | 82 => ⟨S_, .f32⟩
  | 83 => ⟨S4x19x256x512, .f32⟩
  | 84 => ⟨S4x19x256x512, .f32⟩
  | 85 => ⟨S4x19x256x510, .f32⟩
  | 86 => ⟨S4x19x256x2, .f32⟩
  | 87 => ⟨S4x19x256x512, .f32⟩
  | 88 => ⟨S_, .f32⟩
  | 89 => ⟨S4x19x256x512, .f32⟩
  | 90 => ⟨S4x19x256x512, .f32⟩
  | 91 => ⟨S4x19x256x512, .f32⟩
  | 92 => ⟨S4x19x256x512, .f32⟩
  | 93 => ⟨S_, .f32⟩
  | 94 => ⟨S4x19x256x512, .f32⟩
  | 95 => ⟨S4x19x256x512, .i1⟩
  | 96 => ⟨S4x19x256x1, .f32⟩
  | 97 => ⟨S4x19x256x511, .f32⟩
  | 98 => ⟨S4x19x256x512, .f32⟩
  | 99 => ⟨S_, .f32⟩
  | 100 => ⟨S4x19x256x512, .f32⟩
  | 101 => ⟨S4x19x256x512, .f32⟩
  | 102 => ⟨S4x19x256x2, .f32⟩
  | 103 => ⟨S4x19x256x510, .f32⟩
  | 104 => ⟨S4x19x256x512, .f32⟩
  | 105 => ⟨S_, .f32⟩
  | 106 => ⟨S4x19x256x512, .f32⟩
  | 107 => ⟨S4x19x256x512, .f32⟩
  | 108 => ⟨S4x19x256x512, .f32⟩
  | 109 => ⟨S_, .f32⟩
  | 110 => ⟨S4x19x256x512, .f32⟩
  | 111 => ⟨S4x19x256x512, .f32⟩
  | 112 => ⟨S4x19x256x511, .f32⟩
  | 113 => ⟨S4x19x256x1, .f32⟩
  | 114 => ⟨S4x19x256x512, .f32⟩
  | 115 => ⟨S_, .f32⟩
  | 116 => ⟨S4x19x256x512, .f32⟩
  | 117 => ⟨S4x19x256x512, .f32⟩
  | 118 => ⟨S4x19x256x512, .f32⟩
  | 119 => ⟨S4x19x256x512, .f32⟩
  | 120 => ⟨S_, .f32⟩
  | 121 => ⟨S4x19x256x512, .f32⟩
  | 122 => ⟨S4x19x256x512, .i1⟩
  | 123 => ⟨S_, .f32⟩
  | 124 => ⟨S4x19x256x512, .f32⟩
  | 125 => ⟨S4x19x256x512, .f32⟩
  | 126 => ⟨S4x19x1x512, .f32⟩
  | 127 => ⟨S4x19x255x512, .f32⟩
  | _ => ⟨S4x21x256x512, .f32⟩

abbrev hbmTy0_1 (i : Nat) : BufTy := match i % 128 with
  | 0 => ⟨S4x19x256x512, .f32⟩
  | 1 => ⟨S_, .f32⟩
  | 2 => ⟨S4x19x256x512, .f32⟩
  | 3 => ⟨S4x19x256x512, .f32⟩
  | 4 => ⟨S4x19x256x512, .f32⟩
  | 5 => ⟨S4x19x255x512, .f32⟩
  | 6 => ⟨S4x19x1x512, .f32⟩
  | 7 => ⟨S4x19x256x512, .f32⟩
  | 8 => ⟨S_, .f32⟩
  | 9 => ⟨S4x19x256x512, .f32⟩
  | 10 => ⟨S4x19x256x512, .f32⟩
  | 11 => ⟨S4x19x254x512, .f32⟩
  | 12 => ⟨S4x19x2x512, .f32⟩
  | 13 => ⟨S4x19x256x512, .f32⟩
  | 14 => ⟨S_, .f32⟩
  | 15 => ⟨S4x19x256x512, .f32⟩
  | 16 => ⟨S4x19x256x512, .f32⟩
  | 17 => ⟨S4x19x256x512, .f32⟩
  | 18 => ⟨S4x19x256x512, .f32⟩
  | 19 => ⟨S_, .f32⟩
  | 20 => ⟨S4x19x256x512, .f32⟩
  | 21 => ⟨S4x19x256x512, .i1⟩
  | 22 => ⟨S4x19x1x512, .f32⟩
  | 23 => ⟨S4x19x255x512, .f32⟩
  | 24 => ⟨S4x19x256x512, .f32⟩
  | 25 => ⟨S_, .f32⟩
  | 26 => ⟨S4x19x256x512, .f32⟩
  | 27 => ⟨S4x19x256x512, .f32⟩
  | 28 => ⟨S4x19x2x512, .f32⟩
  | 29 => ⟨S4x19x254x512, .f32⟩
  | 30 => ⟨S4x19x256x512, .f32⟩
  | 31 => ⟨S_, .f32⟩
  | 32 => ⟨S4x19x256x512, .f32⟩
  | 33 => ⟨S4x19x256x512, .f32⟩
  | 34 => ⟨S4x19x256x512, .f32⟩
  | 35 => ⟨S_, .f32⟩
  | 36 => ⟨S4x19x256x512, .f32⟩
  | 37 => ⟨S4x19x256x512, .f32⟩
  | 38 => ⟨S4x19x255x512, .f32⟩
  | 39 => ⟨S4x19x1x512, .f32⟩
  | 40 => ⟨S4x19x256x512, .f32⟩
  | 41 => ⟨S_, .f32⟩
  | 42 => ⟨S4x19x256x512, .f32⟩
  | 43 => ⟨S4x19x256x512, .f32⟩
  | 44 => ⟨S4x19x256x512, .f32⟩
  | 45 => ⟨S4x19x256x512, .f32⟩
  | 46 => ⟨S4x19x256x512, .f32⟩
  | 47 => ⟨S4x19x256x512, .f32⟩
  | 48 => ⟨S4x19x256x512, .f32⟩
  | 49 => ⟨S_, .f32⟩
  | 50 => ⟨S4x19x256x512, .f32⟩
  | 51 => ⟨S4x19x256x512, .f32⟩
  | 52 => ⟨S4x19x256x512, .f32⟩
  | 53 => ⟨S4x19x256x512, .f32⟩
  | 54 => ⟨S4x19x256x512, .f32⟩
  | 55 => ⟨S_, .f32⟩
  | 56 => ⟨S4x19x256x512, .f32⟩
  | 57 => ⟨S4x19x256x512, .f32⟩
  | 58 => ⟨S4x19x256x512, .f32⟩
  | 59 => ⟨S4x19x256x512, .f32⟩
  | 60 => ⟨S4x19x256x512, .f32⟩
  | 61 => ⟨S4x19x256x511, .f32⟩
  | 62 => ⟨S4x19x256x1, .f32⟩
  | 63 => ⟨S4x19x256x512, .f32⟩
  | 64 => ⟨S_, .f32⟩
  | 65 => ⟨S4x19x256x512, .f32⟩
  | 66 => ⟨S4x19x256x512, .f32⟩
  | 67 => ⟨S4x19x256x512, .f32⟩
  | 68 => ⟨S4x19x256x1, .f32⟩
  | 69 => ⟨S4x19x256x511, .f32⟩
  | 70 => ⟨S4x19x256x512, .f32⟩
  | 71 => ⟨S4x19x256x512, .f32⟩
  | 72 => ⟨S_, .f32⟩
  | 73 => ⟨S4x19x256x512, .f32⟩
  | 74 => ⟨S4x19x256x512, .f32⟩
  | 75 => ⟨S4x19x255x512, .f32⟩
  | 76 => ⟨S4x19x1x512, .f32⟩
  | 77 => ⟨S4x19x256x512, .f32⟩
  | 78 => ⟨S_, .f32⟩
  | 79 => ⟨S4x19x256x512, .f32⟩
  | 80 => ⟨S4x19x256x512, .f32⟩
  | 81 => ⟨S4x19x256x512, .f32⟩
  | 82 => ⟨S4x19x1x512, .f32⟩
  | 83 => ⟨S4x19x255x512, .f32⟩
  | 84 => ⟨S4x19x256x512, .f32⟩
  | 85 => ⟨S4x19x256x512, .f32⟩
  | 86 => ⟨S_, .f32⟩
  | 87 => ⟨S4x19x256x512, .f32⟩
  | 88 => ⟨S4x19x256x512, .f32⟩
  | 89 => ⟨S4x19x256x512, .f32⟩
  | 90 => ⟨S_, .f32⟩
  | 91 => ⟨S4x19x256x512, .f32⟩
  | 92 => ⟨S4x19x256x512, .f32⟩
  | 93 => ⟨S4x19x256x512, .f32⟩
  | 94 => ⟨S4x19x256x512, .f32⟩
  | 95 => ⟨S4x19x256x512, .f32⟩
  | 96 => ⟨S4x19x256x512, .f32⟩
  | 97 => ⟨S_, .f32⟩
  | 98 => ⟨S_, .f32⟩
  | 99 => ⟨S_, .f32⟩
  | 100 => ⟨S_, .f32⟩
  | 101 => ⟨S4x19x256x512, .f32⟩
  | 102 => ⟨S4x19x256x512, .f32⟩
  | 103 => ⟨S4x19x256x512, .f32⟩
  | 104 => ⟨S_, .f32⟩
  | 105 => ⟨S4x19x256x512, .f32⟩
  | 106 => ⟨S4x19x256x512, .f32⟩
  | 107 => ⟨S4x19x255x512, .f32⟩
  | 108 => ⟨S4x19x1x512, .f32⟩
  | 109 => ⟨S4x19x256x512, .f32⟩
  | 110 => ⟨S4x19x1x512, .f32⟩
  | 111 => ⟨S4x19x255x512, .f32⟩
  | 112 => ⟨S4x19x256x512, .f32⟩
  | 113 => ⟨S4x19x256x512, .f32⟩
  | 114 => ⟨S_, .f32⟩
  | 115 => ⟨S4x19x256x512, .f32⟩
  | 116 => ⟨S4x19x256x512, .f32⟩
  | 117 => ⟨S_, .f32⟩
  | 118 => ⟨S4x19x256x512, .f32⟩
  | 119 => ⟨S4x19x256x512, .i1⟩
  | 120 => ⟨S_, .f32⟩
  | 121 => ⟨S4x19x256x512, .f32⟩
  | 122 => ⟨S4x19x256x512, .f32⟩
  | 123 => ⟨S4x19x256x1, .f32⟩
  | 124 => ⟨S4x19x256x511, .f32⟩
  | 125 => ⟨S4x19x256x512, .f32⟩
  | 126 => ⟨S_, .f32⟩
  | 127 => ⟨S4x19x256x512, .f32⟩
  | _ => ⟨S4x21x256x512, .f32⟩

abbrev hbmTy0_2 (i : Nat) : BufTy := match i % 128 with
  | 0 => ⟨S4x19x256x512, .f32⟩
  | 1 => ⟨S4x19x256x512, .f32⟩
  | 2 => ⟨S4x19x256x511, .f32⟩
  | 3 => ⟨S4x19x256x1, .f32⟩
  | 4 => ⟨S4x19x256x512, .f32⟩
  | 5 => ⟨S_, .f32⟩
  | 6 => ⟨S4x19x256x512, .f32⟩
  | 7 => ⟨S4x19x256x512, .f32⟩
  | 8 => ⟨S4x19x256x510, .f32⟩
  | 9 => ⟨S4x19x256x2, .f32⟩
  | 10 => ⟨S4x19x256x512, .f32⟩
  | 11 => ⟨S_, .f32⟩
  | 12 => ⟨S4x19x256x512, .f32⟩
  | 13 => ⟨S4x19x256x512, .f32⟩
  | 14 => ⟨S4x19x256x512, .f32⟩
  | 15 => ⟨S4x19x256x512, .f32⟩
  | 16 => ⟨S_, .f32⟩
  | 17 => ⟨S4x19x256x512, .f32⟩
  | 18 => ⟨S4x19x256x512, .i1⟩
  | 19 => ⟨S4x19x256x1, .f32⟩
  | 20 => ⟨S4x19x256x511, .f32⟩
  | 21 => ⟨S4x19x256x512, .f32⟩
  | 22 => ⟨S_, .f32⟩
  | 23 => ⟨S4x19x256x512, .f32⟩
  | 24 => ⟨S4x19x256x512, .f32⟩
  | 25 => ⟨S4x19x256x2, .f32⟩
  | 26 => ⟨S4x19x256x510, .f32⟩
  | 27 => ⟨S4x19x256x512, .f32⟩
  | 28 => ⟨S_, .f32⟩
  | 29 => ⟨S4x19x256x512, .f32⟩
  | 30 => ⟨S4x19x256x512, .f32⟩
  | 31 => ⟨S4x19x256x512, .f32⟩
  | 32 => ⟨S_, .f32⟩
  | 33 => ⟨S4x19x256x512, .f32⟩
  | 34 => ⟨S4x19x256x512, .f32⟩
  | 35 => ⟨S4x19x256x511, .f32⟩
  | 36 => ⟨S4x19x256x1, .f32⟩
  | 37 => ⟨S4x19x256x512, .f32⟩
  | 38 => ⟨S_, .f32⟩
  | 39 => ⟨S4x19x256x512, .f32⟩
  | 40 => ⟨S4x19x256x512, .f32⟩
  | 41 => ⟨S4x19x256x512, .f32⟩
  | 42 => ⟨S4x19x256x512, .f32⟩
  | 43 => ⟨S_, .f32⟩
  | 44 => ⟨S4x19x256x512, .f32⟩
  | 45 => ⟨S4x19x256x512, .i1⟩
  | 46 => ⟨S_, .f32⟩
  | 47 => ⟨S4x19x256x512, .f32⟩
  | 48 => ⟨S4x19x256x512, .f32⟩
  | 49 => ⟨S4x19x1x512, .f32⟩
  | 50 => ⟨S4x19x255x512, .f32⟩
  | 51 => ⟨S4x19x256x512, .f32⟩
  | 52 => ⟨S_, .f32⟩
  | 53 => ⟨S4x19x256x512, .f32⟩
  | 54 => ⟨S4x19x256x512, .f32⟩
  | 55 => ⟨S4x19x256x512, .f32⟩
  | 56 => ⟨S4x19x255x512, .f32⟩
  | 57 => ⟨S4x19x1x512, .f32⟩
  | 58 => ⟨S4x19x256x512, .f32⟩
  | 59 => ⟨S_, .f32⟩
  | 60 => ⟨S4x19x256x512, .f32⟩
  | 61 => ⟨S4x19x256x512, .f32⟩
  | 62 => ⟨S4x19x254x512, .f32⟩
  | 63 => ⟨S4x19x2x512, .f32⟩
  | 64 => ⟨S4x19x256x512, .f32⟩
  | 65 => ⟨S_, .f32⟩
  | 66 => ⟨S4x19x256x512, .f32⟩
  | 67 => ⟨S4x19x256x512, .f32⟩
  | 68 => ⟨S4x19x256x512, .f32⟩
  | 69 => ⟨S4x19x256x512, .f32⟩
  | 70 => ⟨S_, .f32⟩
  | 71 => ⟨S4x19x256x512, .f32⟩
  | 72 => ⟨S4x19x256x512, .i1⟩
  | 73 => ⟨S4x19x1x512, .f32⟩
  | 74 => ⟨S4x19x255x512, .f32⟩
  | 75 => ⟨S4x19x256x512, .f32⟩
  | 76 => ⟨S_, .f32⟩
  | 77 => ⟨S4x19x256x512, .f32⟩
  | 78 => ⟨S4x19x256x512, .f32⟩
  | 79 => ⟨S4x19x2x512, .f32⟩
  | 80 => ⟨S4x19x254x512, .f32⟩
  | 81 => ⟨S4x19x256x512, .f32⟩
  | 82 => ⟨S_, .f32⟩
  | 83 => ⟨S4x19x256x512, .f32⟩
  | 84 => ⟨S4x19x256x512, .f32⟩
  | 85 => ⟨S4x19x256x512, .f32⟩
  | 86 => ⟨S_, .f32⟩
  | 87 => ⟨S4x19x256x512, .f32⟩
  | 88 => ⟨S4x19x256x512, .f32⟩
  | 89 => ⟨S4x19x255x512, .f32⟩
  | 90 => ⟨S4x19x1x512, .f32⟩
  | 91 => ⟨S4x19x256x512, .f32⟩
  | 92 => ⟨S_, .f32⟩
  | 93 => ⟨S4x19x256x512, .f32⟩
  | 94 => ⟨S4x19x256x512, .f32⟩
  | 95 => ⟨S4x19x256x512, .f32⟩
  | 96 => ⟨S4x19x256x512, .f32⟩
  | 97 => ⟨S4x19x256x512, .f32⟩
  | 98 => ⟨S4x19x256x512, .f32⟩
  | 99 => ⟨S4x19x256x512, .f32⟩
  | 100 => ⟨S_, .f32⟩
  | 101 => ⟨S4x19x256x512, .f32⟩
  | 102 => ⟨S4x19x256x512, .f32⟩
  | 103 => ⟨S4x19x256x512, .f32⟩
  | 104 => ⟨S4x19x256x512, .f32⟩
  | 105 => ⟨S4x19x256x512, .f32⟩
  | 106 => ⟨S_, .f32⟩
  | 107 => ⟨S4x19x256x512, .f32⟩
  | 108 => ⟨S4x19x256x512, .f32⟩
  | 109 => ⟨S4x19x256x512, .f32⟩
  | 110 => ⟨S4x19x256x512, .f32⟩
  | 111 => ⟨S4x19x256x512, .f32⟩
  | 112 => ⟨S4x19x256x511, .f32⟩
  | 113 => ⟨S4x19x256x1, .f32⟩
  | 114 => ⟨S4x19x256x512, .f32⟩
  | 115 => ⟨S_, .f32⟩
  | 116 => ⟨S4x19x256x512, .f32⟩
  | 117 => ⟨S4x19x256x512, .f32⟩
  | 118 => ⟨S4x19x256x512, .f32⟩
  | 119 => ⟨S4x19x256x1, .f32⟩
  | 120 => ⟨S4x19x256x511, .f32⟩
  | 121 => ⟨S4x19x256x512, .f32⟩
  | 122 => ⟨S4x19x256x512, .f32⟩
  | 123 => ⟨S_, .f32⟩
  | 124 => ⟨S4x19x256x512, .f32⟩
  | 125 => ⟨S4x19x256x512, .f32⟩
  | 126 => ⟨S4x19x255x512, .f32⟩
  | 127 => ⟨S4x19x1x512, .f32⟩
  | _ => ⟨S4x21x256x512, .f32⟩

abbrev hbmTy0_3 (i : Nat) : BufTy := match i % 128 with
  | 0 => ⟨S4x19x256x512, .f32⟩
  | 1 => ⟨S_, .f32⟩
  | 2 => ⟨S4x19x256x512, .f32⟩
  | 3 => ⟨S4x19x256x512, .f32⟩
  | 4 => ⟨S4x19x256x512, .f32⟩
  | 5 => ⟨S4x19x1x512, .f32⟩
  | 6 => ⟨S4x19x255x512, .f32⟩
  | 7 => ⟨S4x19x256x512, .f32⟩
  | 8 => ⟨S4x19x256x512, .f32⟩
  | 9 => ⟨S_, .f32⟩
  | 10 => ⟨S4x19x256x512, .f32⟩
  | 11 => ⟨S4x19x256x512, .f32⟩
  | 12 => ⟨S4x19x256x512, .f32⟩
  | 13 => ⟨S_, .f32⟩
  | 14 => ⟨S4x19x256x512, .f32⟩
  | 15 => ⟨S4x19x256x512, .f32⟩
  | 16 => ⟨S4x19x256x512, .f32⟩
  | 17 => ⟨S4x19x256x512, .f32⟩
  | 18 => ⟨S4x19x256x512, .f32⟩
  | 19 => ⟨S4x19x256x512, .f32⟩
  | 20 => ⟨S_, .f32⟩
  | 21 => ⟨S_, .f32⟩
  | 22 => ⟨S_, .f32⟩
  | 23 => ⟨S_, .f32⟩
  | 24 => ⟨S4x19x256x512, .f32⟩
  | 25 => ⟨S4x19x256x512, .f32⟩
  | 26 => ⟨S4x19x256x512, .f32⟩
  | 27 => ⟨S_, .f32⟩
  | 28 => ⟨S4x19x256x512, .f32⟩
  | 29 => ⟨S4x19x256x512, .f32⟩
  | 30 => ⟨S_, .f32⟩
  | 31 => ⟨S4x19x256x512, .f32⟩
  | 32 => ⟨S4x19x256x512, .i1⟩
  | 33 => ⟨S_, .f32⟩
  | 34 => ⟨S4x19x256x512, .f32⟩
  | 35 => ⟨S4x19x256x512, .f32⟩
  | 36 => ⟨S4x19x256x1, .f32⟩
  | 37 => ⟨S4x19x256x511, .f32⟩
  | 38 => ⟨S4x19x256x512, .f32⟩
  | 39 => ⟨S_, .f32⟩
  | 40 => ⟨S4x19x256x512, .f32⟩
  | 41 => ⟨S4x19x256x512, .f32⟩
  | 42 => ⟨S4x19x256x512, .f32⟩
  | 43 => ⟨S4x19x256x511, .f32⟩
  | 44 => ⟨S4x19x256x1, .f32⟩
  | 45 => ⟨S4x19x256x512, .f32⟩
  | 46 => ⟨S_, .f32⟩
  | 47 => ⟨S4x19x256x512, .f32⟩
  | 48 => ⟨S4x19x256x512, .f32⟩
  | 49 => ⟨S4x19x256x510, .f32⟩
  | 50 => ⟨S4x19x256x2, .f32⟩
  | 51 => ⟨S4x19x256x512, .f32⟩
  | 52 => ⟨S_, .f32⟩
  | 53 => ⟨S4x19x256x512, .f32⟩
  | 54 => ⟨S4x19x256x512, .f32⟩
  | 55 => ⟨S4x19x256x512, .f32⟩
  | 56 => ⟨S4x19x256x512, .f32⟩
  | 57 => ⟨S_, .f32⟩
  | 58 => ⟨S4x19x256x512, .f32⟩
  | 59 => ⟨S4x19x256x512, .i1⟩
  | 60 => ⟨S4x19x256x1, .f32⟩
  | 61 => ⟨S4x19x256x511, .f32⟩
  | 62 => ⟨S4x19x256x512, .f32⟩
  | 63 => ⟨S_, .f32⟩
  | 64 => ⟨S4x19x256x512, .f32⟩
  | 65 => ⟨S4x19x256x512, .f32⟩
  | 66 => ⟨S4x19x256x2, .f32⟩
  | 67 => ⟨S4x19x256x510, .f32⟩
  | 68 => ⟨S4x19x256x512, .f32⟩
  | 69 => ⟨S_, .f32⟩
  | 70 => ⟨S4x19x256x512, .f32⟩
  | 71 => ⟨S4x19x256x512, .f32⟩
  | 72 => ⟨S4x19x256x512, .f32⟩
  | 73 => ⟨S_, .f32⟩
  | 74 => ⟨S4x19x256x512, .f32⟩
  | 75 => ⟨S4x19x256x512, .f32⟩
  | 76 => ⟨S4x19x256x511, .f32⟩
  | 77 => ⟨S4x19x256x1, .f32⟩
  | 78 => ⟨S4x19x256x512, .f32⟩
  | 79 => ⟨S_, .f32⟩
  | 80 => ⟨S4x19x256x512, .f32⟩
  | 81 => ⟨S4x19x256x512, .f32⟩
  | 82 => ⟨S4x19x256x512, .f32⟩
  | 83 => ⟨S4x19x256x512, .f32⟩
  | 84 => ⟨S_, .f32⟩
  | 85 => ⟨S4x19x256x512, .f32⟩
  | 86 => ⟨S4x19x256x512, .i1⟩
  | 87 => ⟨S_, .f32⟩
  | 88 => ⟨S4x19x256x512, .f32⟩
  | 89 => ⟨S4x19x256x512, .f32⟩
  | 90 => ⟨S4x19x1x512, .f32⟩
  | 91 => ⟨S4x19x255x512, .f32⟩
  | 92 => ⟨S4x19x256x512, .f32⟩
  | 93 => ⟨S_, .f32⟩
  | 94 => ⟨S4x19x256x512, .f32⟩
  | 95 => ⟨S4x19x256x512, .f32⟩
  | 96 => ⟨S4x19x256x512, .f32⟩
  | 97 => ⟨S4x19x255x512, .f32⟩
  | 98 => ⟨S4x19x1x512, .f32⟩
  | 99 => ⟨S4x19x256x512, .f32⟩
  | 100 => ⟨S_, .f32⟩
  | 101 => ⟨S4x19x256x512, .f32⟩
  | 102 => ⟨S4x19x256x512, .f32⟩
  | 103 => ⟨S4x19x254x512, .f32⟩
  | 104 => ⟨S4x19x2x512, .f32⟩
  | 105 => ⟨S4x19x256x512, .f32⟩
  | 106 => ⟨S_, .f32⟩
  | 107 => ⟨S4x19x256x512, .f32⟩
  | 108 => ⟨S4x19x256x512, .f32⟩
  | 109 => ⟨S4x19x256x512, .f32⟩
  | 110 => ⟨S4x19x256x512, .f32⟩
  | 111 => ⟨S_, .f32⟩
  | 112 => ⟨S4x19x256x512, .f32⟩
  | 113 => ⟨S4x19x256x512, .i1⟩
  | 114 => ⟨S4x19x1x512, .f32⟩
  | 115 => ⟨S4x19x255x512, .f32⟩
  | 116 => ⟨S4x19x256x512, .f32⟩
  | 117 => ⟨S_, .f32⟩
  | 118 => ⟨S4x19x256x512, .f32⟩
  | 119 => ⟨S4x19x256x512, .f32⟩
  | 120 => ⟨S4x19x2x512, .f32⟩
  | 121 => ⟨S4x19x254x512, .f32⟩
  | 122 => ⟨S4x19x256x512, .f32⟩
  | 123 => ⟨S_, .f32⟩
  | 124 => ⟨S4x19x256x512, .f32⟩
  | 125 => ⟨S4x19x256x512, .f32⟩
  | 126 => ⟨S4x19x256x512, .f32⟩
  | 127 => ⟨S_, .f32⟩
  | _ => ⟨S4x21x256x512, .f32⟩

abbrev hbmTy0_4 (i : Nat) : BufTy := match i % 128 with
  | 0 => ⟨S4x19x256x512, .f32⟩
  | 1 => ⟨S4x19x256x512, .f32⟩
  | 2 => ⟨S4x19x255x512, .f32⟩
  | 3 => ⟨S4x19x1x512, .f32⟩
  | 4 => ⟨S4x19x256x512, .f32⟩
  | 5 => ⟨S_, .f32⟩
  | 6 => ⟨S4x19x256x512, .f32⟩
  | 7 => ⟨S4x19x256x512, .f32⟩
  | 8 => ⟨S4x19x256x512, .f32⟩
  | 9 => ⟨S4x19x256x512, .f32⟩
  | 10 => ⟨S4x19x256x512, .f32⟩
  | 11 => ⟨S4x19x256x512, .f32⟩
  | 12 => ⟨S4x19x256x512, .f32⟩
  | 13 => ⟨S_, .f32⟩
  | 14 => ⟨S4x19x256x512, .f32⟩
  | 15 => ⟨S4x19x256x512, .f32⟩
  | 16 => ⟨S4x19x256x512, .f32⟩
  | 17 => ⟨S4x19x256x512, .f32⟩
  | 18 => ⟨S4x19x256x512, .f32⟩
  | 19 => ⟨S_, .f32⟩
  | 20 => ⟨S4x19x256x512, .f32⟩
  | 21 => ⟨S4x19x256x512, .f32⟩
  | 22 => ⟨S4x19x256x512, .f32⟩
  | 23 => ⟨S4x19x256x512, .f32⟩
  | 24 => ⟨S4x19x256x511, .f32⟩
  | 25 => ⟨S4x19x256x1, .f32⟩
  | 26 => ⟨S4x19x256x512, .f32⟩
  | 27 => ⟨S_, .f32⟩
  | 28 => ⟨S4x19x256x512, .f32⟩
  | 29 => ⟨S4x19x256x512, .f32⟩
  | 30 => ⟨S4x19x256x512, .f32⟩
  | 31 => ⟨S4x19x256x1, .f32⟩
  | 32 => ⟨S4x19x256x511, .f32⟩
  | 33 => ⟨S4x19x256x512, .f32⟩
  | 34 => ⟨S4x19x256x512, .f32⟩
  | 35 => ⟨S_, .f32⟩
  | 36 => ⟨S4x19x256x512, .f32⟩
  | 37 => ⟨S4x19x256x512, .f32⟩
  | 38 => ⟨S4x19x255x512, .f32⟩
  | 39 => ⟨S4x19x1x512, .f32⟩
  | 40 => ⟨S4x19x256x512, .f32⟩
  | 41 => ⟨S_, .f32⟩
  | 42 => ⟨S4x19x256x512, .f32⟩
  | 43 => ⟨S4x19x256x512, .f32⟩
  | 44 => ⟨S4x19x256x512, .f32⟩
  | 45 => ⟨S4x19x1x512, .f32⟩
  | 46 => ⟨S4x19x255x512, .f32⟩
  | 47 => ⟨S4x19x256x512, .f32⟩
  | 48 => ⟨S4x19x256x512, .f32⟩
  | 49 => ⟨S_, .f32⟩
  | 50 => ⟨S4x19x256x512, .f32⟩
  | 51 => ⟨S4x19x256x512, .f32⟩
  | 52 => ⟨S4x19x256x512, .f32⟩
  | 53 => ⟨S_, .f32⟩
  | 54 => ⟨S4x19x256x512, .f32⟩
  | 55 => ⟨S4x19x256x512, .f32⟩
  | 56 => ⟨S4x19x256x512, .f32⟩
  | 57 => ⟨S4x19x256x512, .f32⟩
  | 58 => ⟨S4x19x256x512, .f32⟩
  | 59 => ⟨S4x19x256x512, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S4x21x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x21x256x512, .f32⟩

abbrev bufTy : (tb : Table) → Fin (tcTables nBuf tb) → BufTy
  | .hbm, ⟨i, _⟩ => hbmTy i
  | _, _ => ⟨S4x21x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_call2_v0 : Ref sig .tc := ⟨.hbm, 22, rfl⟩
abbrev main_call2_v1 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_call3_v0 : Ref sig .tc := ⟨.hbm, 29, rfl⟩
abbrev main_call3_v1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_call4_v0 : Ref sig .tc := ⟨.hbm, 56, rfl⟩
abbrev main_call4_v1 : Ref sig .tc := ⟨.hbm, 57, rfl⟩
abbrev main_v35 : Ref sig .tc := ⟨.hbm, 58, rfl⟩
abbrev main_call5_v0 : Ref sig .tc := ⟨.hbm, 59, rfl⟩
abbrev main_call5_v1 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_call6_v0 : Ref sig .tc := ⟨.hbm, 72, rfl⟩
abbrev main_call6_v1 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call7_v0 : Ref sig .tc := ⟨.hbm, 79, rfl⟩
abbrev main_call7_v1 : Ref sig .tc := ⟨.hbm, 80, rfl⟩
abbrev main_v48 : Ref sig .tc := ⟨.hbm, 81, rfl⟩
abbrev main_cst_12 : Ref sig .tc := ⟨.hbm, 82, rfl⟩
abbrev main_v49 : Ref sig .tc := ⟨.hbm, 83, rfl⟩
abbrev main_v50 : Ref sig .tc := ⟨.hbm, 84, rfl⟩
abbrev main_call8_v0 : Ref sig .tc := ⟨.hbm, 85, rfl⟩
abbrev main_call8_v1 : Ref sig .tc := ⟨.hbm, 86, rfl⟩
abbrev main_v51 : Ref sig .tc := ⟨.hbm, 87, rfl⟩
abbrev main_cst_13 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_14 : Ref sig .tc := ⟨.hbm, 93, rfl⟩
abbrev main_v56 : Ref sig .tc := ⟨.hbm, 94, rfl⟩
abbrev main_v57 : Ref sig .tc := ⟨.hbm, 95, rfl⟩
abbrev main_call10_v0 : Ref sig .tc := ⟨.hbm, 96, rfl⟩
abbrev main_call10_v1 : Ref sig .tc := ⟨.hbm, 97, rfl⟩
abbrev main_v58 : Ref sig .tc := ⟨.hbm, 98, rfl⟩
abbrev main_cst_15 : Ref sig .tc := ⟨.hbm, 99, rfl⟩
abbrev main_v59 : Ref sig .tc := ⟨.hbm, 100, rfl⟩
abbrev main_v60 : Ref sig .tc := ⟨.hbm, 101, rfl⟩
abbrev main_call11_v0 : Ref sig .tc := ⟨.hbm, 102, rfl⟩
abbrev main_call11_v1 : Ref sig .tc := ⟨.hbm, 103, rfl⟩
abbrev main_v61 : Ref sig .tc := ⟨.hbm, 104, rfl⟩
abbrev main_cst_16 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_17 : Ref sig .tc := ⟨.hbm, 109, rfl⟩
abbrev main_v65 : Ref sig .tc := ⟨.hbm, 110, rfl⟩
abbrev main_v66 : Ref sig .tc := ⟨.hbm, 111, rfl⟩
abbrev main_call12_v0 : Ref sig .tc := ⟨.hbm, 112, rfl⟩
abbrev main_call12_v1 : Ref sig .tc := ⟨.hbm, 113, rfl⟩
abbrev main_v67 : Ref sig .tc := ⟨.hbm, 114, rfl⟩
abbrev main_cst_18 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_19 : Ref sig .tc := ⟨.hbm, 120, rfl⟩
abbrev main_v72 : Ref sig .tc := ⟨.hbm, 121, rfl⟩
abbrev main_v73 : Ref sig .tc := ⟨.hbm, 122, rfl⟩
abbrev main_cst_20 : Ref sig .tc := ⟨.hbm, 123, rfl⟩
abbrev main_v74 : Ref sig .tc := ⟨.hbm, 124, rfl⟩
abbrev main_v75 : Ref sig .tc := ⟨.hbm, 125, rfl⟩
abbrev main_call14_v0 : Ref sig .tc := ⟨.hbm, 126, rfl⟩
abbrev main_call14_v1 : Ref sig .tc := ⟨.hbm, 127, rfl⟩
abbrev main_v76 : Ref sig .tc := ⟨.hbm, 128, rfl⟩
abbrev main_cst_21 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_call15_v0 : Ref sig .tc := ⟨.hbm, 133, rfl⟩
abbrev main_call15_v1 : Ref sig .tc := ⟨.hbm, 134, rfl⟩
abbrev main_v80 : Ref sig .tc := ⟨.hbm, 135, rfl⟩
abbrev main_cst_22 : Ref sig .tc := ⟨.hbm, 136, rfl⟩
abbrev main_v81 : Ref sig .tc := ⟨.hbm, 137, rfl⟩
abbrev main_v82 : Ref sig .tc := ⟨.hbm, 138, rfl⟩
abbrev main_call16_v0 : Ref sig .tc := ⟨.hbm, 139, rfl⟩
abbrev main_call16_v1 : Ref sig .tc := ⟨.hbm, 140, rfl⟩
abbrev main_v83 : Ref sig .tc := ⟨.hbm, 141, rfl⟩
abbrev main_cst_23 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_24 : Ref sig .tc := ⟨.hbm, 147, rfl⟩
abbrev main_v88 : Ref sig .tc := ⟨.hbm, 148, rfl⟩
abbrev main_v89 : Ref sig .tc := ⟨.hbm, 149, rfl⟩
abbrev main_call18_v0 : Ref sig .tc := ⟨.hbm, 150, rfl⟩
abbrev main_call18_v1 : Ref sig .tc := ⟨.hbm, 151, rfl⟩
abbrev main_v90 : Ref sig .tc := ⟨.hbm, 152, rfl⟩
abbrev main_cst_25 : Ref sig .tc := ⟨.hbm, 153, rfl⟩
abbrev main_v91 : Ref sig .tc := ⟨.hbm, 154, rfl⟩
abbrev main_v92 : Ref sig .tc := ⟨.hbm, 155, rfl⟩
abbrev main_call19_v0 : Ref sig .tc := ⟨.hbm, 156, rfl⟩
abbrev main_call19_v1 : Ref sig .tc := ⟨.hbm, 157, rfl⟩
abbrev main_v93 : Ref sig .tc := ⟨.hbm, 158, rfl⟩
abbrev main_cst_26 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_27 : Ref sig .tc := ⟨.hbm, 163, rfl⟩
abbrev main_v97 : Ref sig .tc := ⟨.hbm, 164, rfl⟩
abbrev main_v98 : Ref sig .tc := ⟨.hbm, 165, rfl⟩
abbrev main_call20_v0 : Ref sig .tc := ⟨.hbm, 166, rfl⟩
abbrev main_call20_v1 : Ref sig .tc := ⟨.hbm, 167, rfl⟩
abbrev main_v99 : Ref sig .tc := ⟨.hbm, 168, rfl⟩
abbrev main_cst_28 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_29 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_30 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_call22_v0 : Ref sig .tc := ⟨.hbm, 189, rfl⟩
abbrev main_call22_v1 : Ref sig .tc := ⟨.hbm, 190, rfl⟩
abbrev main_v117 : Ref sig .tc := ⟨.hbm, 191, rfl⟩
abbrev main_cst_31 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_call23_v0 : Ref sig .tc := ⟨.hbm, 196, rfl⟩
abbrev main_call23_v1 : Ref sig .tc := ⟨.hbm, 197, rfl⟩
abbrev main_v121 : Ref sig .tc := ⟨.hbm, 198, rfl⟩
abbrev main_v122 : Ref sig .tc := ⟨.hbm, 199, rfl⟩
abbrev main_cst_32 : Ref sig .tc := ⟨.hbm, 200, rfl⟩
abbrev main_v123 : Ref sig .tc := ⟨.hbm, 201, rfl⟩
abbrev main_v124 : Ref sig .tc := ⟨.hbm, 202, rfl⟩
abbrev main_call24_v0 : Ref sig .tc := ⟨.hbm, 203, rfl⟩
abbrev main_call24_v1 : Ref sig .tc := ⟨.hbm, 204, rfl⟩
abbrev main_v125 : Ref sig .tc := ⟨.hbm, 205, rfl⟩
abbrev main_cst_33 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_call25_v0 : Ref sig .tc := ⟨.hbm, 210, rfl⟩
abbrev main_call25_v1 : Ref sig .tc := ⟨.hbm, 211, rfl⟩
abbrev main_v129 : Ref sig .tc := ⟨.hbm, 212, rfl⟩
abbrev main_v130 : Ref sig .tc := ⟨.hbm, 213, rfl⟩
abbrev main_cst_34 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_35 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_cst_36 : Ref sig .tc := ⟨.hbm, 225, rfl⟩
abbrev main_v140 : Ref sig .tc := ⟨.hbm, 226, rfl⟩
abbrev main_cst_37 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_cst_38 : Ref sig .tc := ⟨.hbm, 232, rfl⟩
abbrev main_v145 : Ref sig .tc := ⟨.hbm, 233, rfl⟩
abbrev main_v146 : Ref sig .tc := ⟨.hbm, 234, rfl⟩
abbrev main_call26_v0 : Ref sig .tc := ⟨.hbm, 235, rfl⟩
abbrev main_call26_v1 : Ref sig .tc := ⟨.hbm, 236, rfl⟩
abbrev main_v147 : Ref sig .tc := ⟨.hbm, 237, rfl⟩
abbrev main_call27_v0 : Ref sig .tc := ⟨.hbm, 238, rfl⟩
abbrev main_call27_v1 : Ref sig .tc := ⟨.hbm, 239, rfl⟩
abbrev main_v148 : Ref sig .tc := ⟨.hbm, 240, rfl⟩
abbrev main_v149 : Ref sig .tc := ⟨.hbm, 241, rfl⟩
abbrev main_cst_39 : Ref sig .tc := ⟨.hbm, 242, rfl⟩
abbrev main_v150 : Ref sig .tc := ⟨.hbm, 243, rfl⟩
abbrev main_v151 : Ref sig .tc := ⟨.hbm, 244, rfl⟩
abbrev main_cst_40 : Ref sig .tc := ⟨.hbm, 245, rfl⟩
abbrev main_v152 : Ref sig .tc := ⟨.hbm, 246, rfl⟩
abbrev main_v153 : Ref sig .tc := ⟨.hbm, 247, rfl⟩
abbrev main_cst_41 : Ref sig .tc := ⟨.hbm, 248, rfl⟩
abbrev main_v154 : Ref sig .tc := ⟨.hbm, 249, rfl⟩
abbrev main_v155 : Ref sig .tc := ⟨.hbm, 250, rfl⟩
abbrev main_call28_v0 : Ref sig .tc := ⟨.hbm, 251, rfl⟩
abbrev main_call28_v1 : Ref sig .tc := ⟨.hbm, 252, rfl⟩
abbrev main_v156 : Ref sig .tc := ⟨.hbm, 253, rfl⟩
abbrev main_cst_42 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_call29_v0 : Ref sig .tc := ⟨.hbm, 258, rfl⟩
abbrev main_call29_v1 : Ref sig .tc := ⟨.hbm, 259, rfl⟩
abbrev main_v160 : Ref sig .tc := ⟨.hbm, 260, rfl⟩
abbrev main_cst_43 : Ref sig .tc := ⟨.hbm, 261, rfl⟩
abbrev main_v161 : Ref sig .tc := ⟨.hbm, 262, rfl⟩
abbrev main_v162 : Ref sig .tc := ⟨.hbm, 263, rfl⟩
abbrev main_call30_v0 : Ref sig .tc := ⟨.hbm, 264, rfl⟩
abbrev main_call30_v1 : Ref sig .tc := ⟨.hbm, 265, rfl⟩
abbrev main_v163 : Ref sig .tc := ⟨.hbm, 266, rfl⟩
abbrev main_cst_44 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_cst_45 : Ref sig .tc := ⟨.hbm, 272, rfl⟩
abbrev main_v168 : Ref sig .tc := ⟨.hbm, 273, rfl⟩
abbrev main_v169 : Ref sig .tc := ⟨.hbm, 274, rfl⟩
abbrev main_call32_v0 : Ref sig .tc := ⟨.hbm, 275, rfl⟩
abbrev main_call32_v1 : Ref sig .tc := ⟨.hbm, 276, rfl⟩
abbrev main_v170 : Ref sig .tc := ⟨.hbm, 277, rfl⟩
abbrev main_cst_46 : Ref sig .tc := ⟨.hbm, 278, rfl⟩
abbrev main_v171 : Ref sig .tc := ⟨.hbm, 279, rfl⟩
abbrev main_v172 : Ref sig .tc := ⟨.hbm, 280, rfl⟩
abbrev main_call33_v0 : Ref sig .tc := ⟨.hbm, 281, rfl⟩
abbrev main_call33_v1 : Ref sig .tc := ⟨.hbm, 282, rfl⟩
abbrev main_v173 : Ref sig .tc := ⟨.hbm, 283, rfl⟩
abbrev main_cst_47 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_cst_48 : Ref sig .tc := ⟨.hbm, 288, rfl⟩
abbrev main_v177 : Ref sig .tc := ⟨.hbm, 289, rfl⟩
abbrev main_v178 : Ref sig .tc := ⟨.hbm, 290, rfl⟩
abbrev main_call34_v0 : Ref sig .tc := ⟨.hbm, 291, rfl⟩
abbrev main_call34_v1 : Ref sig .tc := ⟨.hbm, 292, rfl⟩
abbrev main_v179 : Ref sig .tc := ⟨.hbm, 293, rfl⟩
abbrev main_cst_49 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_cst_50 : Ref sig .tc := ⟨.hbm, 299, rfl⟩
abbrev main_v184 : Ref sig .tc := ⟨.hbm, 300, rfl⟩
abbrev main_v185 : Ref sig .tc := ⟨.hbm, 301, rfl⟩
abbrev main_cst_51 : Ref sig .tc := ⟨.hbm, 302, rfl⟩
abbrev main_v186 : Ref sig .tc := ⟨.hbm, 303, rfl⟩
abbrev main_v187 : Ref sig .tc := ⟨.hbm, 304, rfl⟩
abbrev main_call36_v0 : Ref sig .tc := ⟨.hbm, 305, rfl⟩
abbrev main_call36_v1 : Ref sig .tc := ⟨.hbm, 306, rfl⟩
abbrev main_v188 : Ref sig .tc := ⟨.hbm, 307, rfl⟩
abbrev main_cst_52 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_call37_v0 : Ref sig .tc := ⟨.hbm, 312, rfl⟩
abbrev main_call37_v1 : Ref sig .tc := ⟨.hbm, 313, rfl⟩
abbrev main_v192 : Ref sig .tc := ⟨.hbm, 314, rfl⟩
abbrev main_cst_53 : Ref sig .tc := ⟨.hbm, 315, rfl⟩
abbrev main_v193 : Ref sig .tc := ⟨.hbm, 316, rfl⟩
abbrev main_v194 : Ref sig .tc := ⟨.hbm, 317, rfl⟩
abbrev main_call38_v0 : Ref sig .tc := ⟨.hbm, 318, rfl⟩
abbrev main_call38_v1 : Ref sig .tc := ⟨.hbm, 319, rfl⟩
abbrev main_v195 : Ref sig .tc := ⟨.hbm, 320, rfl⟩
abbrev main_cst_54 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_cst_55 : Ref sig .tc := ⟨.hbm, 326, rfl⟩
abbrev main_v200 : Ref sig .tc := ⟨.hbm, 327, rfl⟩
abbrev main_v201 : Ref sig .tc := ⟨.hbm, 328, rfl⟩
abbrev main_call40_v0 : Ref sig .tc := ⟨.hbm, 329, rfl⟩
abbrev main_call40_v1 : Ref sig .tc := ⟨.hbm, 330, rfl⟩
abbrev main_v202 : Ref sig .tc := ⟨.hbm, 331, rfl⟩
abbrev main_cst_56 : Ref sig .tc := ⟨.hbm, 332, rfl⟩
abbrev main_v203 : Ref sig .tc := ⟨.hbm, 333, rfl⟩
abbrev main_v204 : Ref sig .tc := ⟨.hbm, 334, rfl⟩
abbrev main_call41_v0 : Ref sig .tc := ⟨.hbm, 335, rfl⟩
abbrev main_call41_v1 : Ref sig .tc := ⟨.hbm, 336, rfl⟩
abbrev main_v205 : Ref sig .tc := ⟨.hbm, 337, rfl⟩
abbrev main_cst_57 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_cst_58 : Ref sig .tc := ⟨.hbm, 342, rfl⟩
abbrev main_v209 : Ref sig .tc := ⟨.hbm, 343, rfl⟩
abbrev main_v210 : Ref sig .tc := ⟨.hbm, 344, rfl⟩
abbrev main_call42_v0 : Ref sig .tc := ⟨.hbm, 345, rfl⟩
abbrev main_call42_v1 : Ref sig .tc := ⟨.hbm, 346, rfl⟩
abbrev main_v211 : Ref sig .tc := ⟨.hbm, 347, rfl⟩
abbrev main_cst_59 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_cst_60 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_cst_61 : Ref sig .tc := ⟨.hbm, 362, rfl⟩
abbrev main_v224 : Ref sig .tc := ⟨.hbm, 363, rfl⟩
abbrev main_v225 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_call44_v0 : Ref sig .tc := ⟨.hbm, 368, rfl⟩
abbrev main_call44_v1 : Ref sig .tc := ⟨.hbm, 369, rfl⟩
abbrev main_v229 : Ref sig .tc := ⟨.hbm, 370, rfl⟩
abbrev main_cst_62 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_call45_v0 : Ref sig .tc := ⟨.hbm, 375, rfl⟩
abbrev main_call45_v1 : Ref sig .tc := ⟨.hbm, 376, rfl⟩
abbrev main_v233 : Ref sig .tc := ⟨.hbm, 377, rfl⟩
abbrev main_v234 : Ref sig .tc := ⟨.hbm, 378, rfl⟩
abbrev main_cst_63 : Ref sig .tc := ⟨.hbm, 379, rfl⟩
abbrev main_v235 : Ref sig .tc := ⟨.hbm, 380, rfl⟩
abbrev main_v236 : Ref sig .tc := ⟨.hbm, 381, rfl⟩
abbrev main_call46_v0 : Ref sig .tc := ⟨.hbm, 382, rfl⟩
abbrev main_call46_v1 : Ref sig .tc := ⟨.hbm, 383, rfl⟩
abbrev main_v237 : Ref sig .tc := ⟨.hbm, 384, rfl⟩
abbrev main_cst_64 : Ref sig .tc := ⟨.hbm, 385, rfl⟩
abbrev main_v238 : Ref sig .tc := ⟨.hbm, 386, rfl⟩
abbrev main_v239 : Ref sig .tc := ⟨.hbm, 387, rfl⟩
abbrev main_v240 : Ref sig .tc := ⟨.hbm, 388, rfl⟩
abbrev main_call47_v0 : Ref sig .tc := ⟨.hbm, 389, rfl⟩
abbrev main_call47_v1 : Ref sig .tc := ⟨.hbm, 390, rfl⟩
abbrev main_v241 : Ref sig .tc := ⟨.hbm, 391, rfl⟩
abbrev main_v242 : Ref sig .tc := ⟨.hbm, 392, rfl⟩
abbrev main_cst_65 : Ref sig .tc := ⟨.hbm, 393, rfl⟩
abbrev main_v243 : Ref sig .tc := ⟨.hbm, 394, rfl⟩
abbrev main_v244 : Ref sig .tc := ⟨.hbm, 395, rfl⟩
abbrev main_v245 : Ref sig .tc := ⟨.hbm, 396, rfl⟩
abbrev main_cst_66 : Ref sig .tc := ⟨.hbm, 397, rfl⟩
abbrev main_v246 : Ref sig .tc := ⟨.hbm, 398, rfl⟩
abbrev main_v247 : Ref sig .tc := ⟨.hbm, 399, rfl⟩
abbrev main_v248 : Ref sig .tc := ⟨.hbm, 400, rfl⟩
abbrev main_v249 : Ref sig .tc := ⟨.hbm, 401, rfl⟩
abbrev main_v250 : Ref sig .tc := ⟨.hbm, 402, rfl⟩
abbrev main_v251 : Ref sig .tc := ⟨.hbm, 403, rfl⟩
abbrev main_cst_67 : Ref sig .tc := ⟨.hbm, 404, rfl⟩
abbrev main_v252 : Ref sig .tc := ⟨.hbm, 405, rfl⟩
abbrev main_cst_68 : Ref sig .tc := ⟨.hbm, 406, rfl⟩
abbrev main_v253 : Ref sig .tc := ⟨.hbm, 407, rfl⟩
abbrev main_v254 : Ref sig .tc := ⟨.hbm, 408, rfl⟩
abbrev main_v255 : Ref sig .tc := ⟨.hbm, 409, rfl⟩
abbrev main_v256 : Ref sig .tc := ⟨.hbm, 410, rfl⟩
abbrev main_cst_69 : Ref sig .tc := ⟨.hbm, 411, rfl⟩
abbrev main_v257 : Ref sig .tc := ⟨.hbm, 412, rfl⟩
abbrev main_v258 : Ref sig .tc := ⟨.hbm, 413, rfl⟩
abbrev main_cst_70 : Ref sig .tc := ⟨.hbm, 414, rfl⟩
abbrev main_v259 : Ref sig .tc := ⟨.hbm, 415, rfl⟩
abbrev main_v260 : Ref sig .tc := ⟨.hbm, 416, rfl⟩
abbrev main_cst_71 : Ref sig .tc := ⟨.hbm, 417, rfl⟩
abbrev main_v261 : Ref sig .tc := ⟨.hbm, 418, rfl⟩
abbrev main_v262 : Ref sig .tc := ⟨.hbm, 419, rfl⟩
abbrev main_call48_v0 : Ref sig .tc := ⟨.hbm, 420, rfl⟩
abbrev main_call48_v1 : Ref sig .tc := ⟨.hbm, 421, rfl⟩
abbrev main_v263 : Ref sig .tc := ⟨.hbm, 422, rfl⟩
abbrev main_cst_72 : Ref sig .tc := ⟨.hbm, 423, rfl⟩
abbrev main_v264 : Ref sig .tc := ⟨.hbm, 424, rfl⟩
abbrev main_v265 : Ref sig .tc := ⟨.hbm, 425, rfl⟩
abbrev main_v266 : Ref sig .tc := ⟨.hbm, 426, rfl⟩
abbrev main_call49_v0 : Ref sig .tc := ⟨.hbm, 427, rfl⟩
abbrev main_call49_v1 : Ref sig .tc := ⟨.hbm, 428, rfl⟩
abbrev main_v267 : Ref sig .tc := ⟨.hbm, 429, rfl⟩
abbrev main_cst_73 : Ref sig .tc := ⟨.hbm, 430, rfl⟩
abbrev main_v268 : Ref sig .tc := ⟨.hbm, 431, rfl⟩
abbrev main_v269 : Ref sig .tc := ⟨.hbm, 432, rfl⟩
abbrev main_call50_v0 : Ref sig .tc := ⟨.hbm, 433, rfl⟩
abbrev main_call50_v1 : Ref sig .tc := ⟨.hbm, 434, rfl⟩
abbrev main_v270 : Ref sig .tc := ⟨.hbm, 435, rfl⟩
abbrev main_cst_74 : Ref sig .tc := ⟨.hbm, 436, rfl⟩
abbrev main_v271 : Ref sig .tc := ⟨.hbm, 437, rfl⟩
abbrev main_v272 : Ref sig .tc := ⟨.hbm, 438, rfl⟩
abbrev main_v273 : Ref sig .tc := ⟨.hbm, 439, rfl⟩
abbrev main_v274 : Ref sig .tc := ⟨.hbm, 440, rfl⟩
abbrev main_cst_75 : Ref sig .tc := ⟨.hbm, 441, rfl⟩
abbrev main_v275 : Ref sig .tc := ⟨.hbm, 442, rfl⟩
abbrev main_v276 : Ref sig .tc := ⟨.hbm, 443, rfl⟩
abbrev main_call52_v0 : Ref sig .tc := ⟨.hbm, 444, rfl⟩
abbrev main_call52_v1 : Ref sig .tc := ⟨.hbm, 445, rfl⟩
abbrev main_v277 : Ref sig .tc := ⟨.hbm, 446, rfl⟩
abbrev main_cst_76 : Ref sig .tc := ⟨.hbm, 447, rfl⟩
abbrev main_v278 : Ref sig .tc := ⟨.hbm, 448, rfl⟩
abbrev main_v279 : Ref sig .tc := ⟨.hbm, 449, rfl⟩
abbrev main_call53_v0 : Ref sig .tc := ⟨.hbm, 450, rfl⟩
abbrev main_call53_v1 : Ref sig .tc := ⟨.hbm, 451, rfl⟩
abbrev main_v280 : Ref sig .tc := ⟨.hbm, 452, rfl⟩
abbrev main_cst_77 : Ref sig .tc := ⟨.hbm, 453, rfl⟩
abbrev main_v281 : Ref sig .tc := ⟨.hbm, 454, rfl⟩
abbrev main_v282 : Ref sig .tc := ⟨.hbm, 455, rfl⟩
abbrev main_v283 : Ref sig .tc := ⟨.hbm, 456, rfl⟩
abbrev main_cst_78 : Ref sig .tc := ⟨.hbm, 457, rfl⟩
abbrev main_v284 : Ref sig .tc := ⟨.hbm, 458, rfl⟩
abbrev main_v285 : Ref sig .tc := ⟨.hbm, 459, rfl⟩
abbrev main_call54_v0 : Ref sig .tc := ⟨.hbm, 460, rfl⟩
abbrev main_call54_v1 : Ref sig .tc := ⟨.hbm, 461, rfl⟩
abbrev main_v286 : Ref sig .tc := ⟨.hbm, 462, rfl⟩
abbrev main_cst_79 : Ref sig .tc := ⟨.hbm, 463, rfl⟩
abbrev main_v287 : Ref sig .tc := ⟨.hbm, 464, rfl⟩
abbrev main_v288 : Ref sig .tc := ⟨.hbm, 465, rfl⟩
abbrev main_v289 : Ref sig .tc := ⟨.hbm, 466, rfl⟩
abbrev main_v290 : Ref sig .tc := ⟨.hbm, 467, rfl⟩
abbrev main_cst_80 : Ref sig .tc := ⟨.hbm, 468, rfl⟩
abbrev main_v291 : Ref sig .tc := ⟨.hbm, 469, rfl⟩
abbrev main_v292 : Ref sig .tc := ⟨.hbm, 470, rfl⟩
abbrev main_cst_81 : Ref sig .tc := ⟨.hbm, 471, rfl⟩
abbrev main_v293 : Ref sig .tc := ⟨.hbm, 472, rfl⟩
abbrev main_v294 : Ref sig .tc := ⟨.hbm, 473, rfl⟩
abbrev main_call56_v0 : Ref sig .tc := ⟨.hbm, 474, rfl⟩
abbrev main_call56_v1 : Ref sig .tc := ⟨.hbm, 475, rfl⟩
abbrev main_v295 : Ref sig .tc := ⟨.hbm, 476, rfl⟩
abbrev main_cst_82 : Ref sig .tc := ⟨.hbm, 477, rfl⟩
abbrev main_v296 : Ref sig .tc := ⟨.hbm, 478, rfl⟩
abbrev main_v297 : Ref sig .tc := ⟨.hbm, 479, rfl⟩
abbrev main_v298 : Ref sig .tc := ⟨.hbm, 480, rfl⟩
abbrev main_call57_v0 : Ref sig .tc := ⟨.hbm, 481, rfl⟩
abbrev main_call57_v1 : Ref sig .tc := ⟨.hbm, 482, rfl⟩
abbrev main_v299 : Ref sig .tc := ⟨.hbm, 483, rfl⟩
abbrev main_cst_83 : Ref sig .tc := ⟨.hbm, 484, rfl⟩
abbrev main_v300 : Ref sig .tc := ⟨.hbm, 485, rfl⟩
abbrev main_v301 : Ref sig .tc := ⟨.hbm, 486, rfl⟩
abbrev main_call58_v0 : Ref sig .tc := ⟨.hbm, 487, rfl⟩
abbrev main_call58_v1 : Ref sig .tc := ⟨.hbm, 488, rfl⟩
abbrev main_v302 : Ref sig .tc := ⟨.hbm, 489, rfl⟩
abbrev main_cst_84 : Ref sig .tc := ⟨.hbm, 490, rfl⟩
abbrev main_v303 : Ref sig .tc := ⟨.hbm, 491, rfl⟩
abbrev main_v304 : Ref sig .tc := ⟨.hbm, 492, rfl⟩
abbrev main_v305 : Ref sig .tc := ⟨.hbm, 493, rfl⟩
abbrev main_v306 : Ref sig .tc := ⟨.hbm, 494, rfl⟩
abbrev main_cst_85 : Ref sig .tc := ⟨.hbm, 495, rfl⟩
abbrev main_v307 : Ref sig .tc := ⟨.hbm, 496, rfl⟩
abbrev main_v308 : Ref sig .tc := ⟨.hbm, 497, rfl⟩
abbrev main_call60_v0 : Ref sig .tc := ⟨.hbm, 498, rfl⟩
abbrev main_call60_v1 : Ref sig .tc := ⟨.hbm, 499, rfl⟩
abbrev main_v309 : Ref sig .tc := ⟨.hbm, 500, rfl⟩
abbrev main_cst_86 : Ref sig .tc := ⟨.hbm, 501, rfl⟩
abbrev main_v310 : Ref sig .tc := ⟨.hbm, 502, rfl⟩
abbrev main_v311 : Ref sig .tc := ⟨.hbm, 503, rfl⟩
abbrev main_call61_v0 : Ref sig .tc := ⟨.hbm, 504, rfl⟩
abbrev main_call61_v1 : Ref sig .tc := ⟨.hbm, 505, rfl⟩
abbrev main_v312 : Ref sig .tc := ⟨.hbm, 506, rfl⟩
abbrev main_cst_87 : Ref sig .tc := ⟨.hbm, 507, rfl⟩
abbrev main_v313 : Ref sig .tc := ⟨.hbm, 508, rfl⟩
abbrev main_v314 : Ref sig .tc := ⟨.hbm, 509, rfl⟩
abbrev main_v315 : Ref sig .tc := ⟨.hbm, 510, rfl⟩
abbrev main_cst_88 : Ref sig .tc := ⟨.hbm, 511, rfl⟩
abbrev main_v316 : Ref sig .tc := ⟨.hbm, 512, rfl⟩
abbrev main_v317 : Ref sig .tc := ⟨.hbm, 513, rfl⟩
abbrev main_call62_v0 : Ref sig .tc := ⟨.hbm, 514, rfl⟩
abbrev main_call62_v1 : Ref sig .tc := ⟨.hbm, 515, rfl⟩
abbrev main_v318 : Ref sig .tc := ⟨.hbm, 516, rfl⟩
abbrev main_cst_89 : Ref sig .tc := ⟨.hbm, 517, rfl⟩
abbrev main_v319 : Ref sig .tc := ⟨.hbm, 518, rfl⟩
abbrev main_v320 : Ref sig .tc := ⟨.hbm, 519, rfl⟩
abbrev main_v321 : Ref sig .tc := ⟨.hbm, 520, rfl⟩
abbrev main_v322 : Ref sig .tc := ⟨.hbm, 521, rfl⟩
abbrev main_v323 : Ref sig .tc := ⟨.hbm, 522, rfl⟩
abbrev main_v324 : Ref sig .tc := ⟨.hbm, 523, rfl⟩
abbrev main_v325 : Ref sig .tc := ⟨.hbm, 524, rfl⟩
abbrev main_cst_90 : Ref sig .tc := ⟨.hbm, 525, rfl⟩
abbrev main_v326 : Ref sig .tc := ⟨.hbm, 526, rfl⟩
abbrev main_v327 : Ref sig .tc := ⟨.hbm, 527, rfl⟩
abbrev main_v328 : Ref sig .tc := ⟨.hbm, 528, rfl⟩
abbrev main_v329 : Ref sig .tc := ⟨.hbm, 529, rfl⟩
abbrev main_v330 : Ref sig .tc := ⟨.hbm, 530, rfl⟩
abbrev main_cst_91 : Ref sig .tc := ⟨.hbm, 531, rfl⟩
abbrev main_v331 : Ref sig .tc := ⟨.hbm, 532, rfl⟩
abbrev main_v332 : Ref sig .tc := ⟨.hbm, 533, rfl⟩
abbrev main_v333 : Ref sig .tc := ⟨.hbm, 534, rfl⟩
abbrev main_v334 : Ref sig .tc := ⟨.hbm, 535, rfl⟩
abbrev main_call64_v0 : Ref sig .tc := ⟨.hbm, 536, rfl⟩
abbrev main_call64_v1 : Ref sig .tc := ⟨.hbm, 537, rfl⟩
abbrev main_v335 : Ref sig .tc := ⟨.hbm, 538, rfl⟩
abbrev main_cst_92 : Ref sig .tc := ⟨.hbm, 539, rfl⟩
abbrev main_v336 : Ref sig .tc := ⟨.hbm, 540, rfl⟩
abbrev main_v337 : Ref sig .tc := ⟨.hbm, 541, rfl⟩
abbrev main_v338 : Ref sig .tc := ⟨.hbm, 542, rfl⟩
abbrev main_call65_v0 : Ref sig .tc := ⟨.hbm, 543, rfl⟩
abbrev main_call65_v1 : Ref sig .tc := ⟨.hbm, 544, rfl⟩
abbrev main_v339 : Ref sig .tc := ⟨.hbm, 545, rfl⟩
abbrev main_v340 : Ref sig .tc := ⟨.hbm, 546, rfl⟩
abbrev main_cst_93 : Ref sig .tc := ⟨.hbm, 547, rfl⟩
abbrev main_v341 : Ref sig .tc := ⟨.hbm, 548, rfl⟩
abbrev main_v342 : Ref sig .tc := ⟨.hbm, 549, rfl⟩
abbrev main_call66_v0 : Ref sig .tc := ⟨.hbm, 550, rfl⟩
abbrev main_call66_v1 : Ref sig .tc := ⟨.hbm, 551, rfl⟩
abbrev main_v343 : Ref sig .tc := ⟨.hbm, 552, rfl⟩
abbrev main_cst_94 : Ref sig .tc := ⟨.hbm, 553, rfl⟩
abbrev main_v344 : Ref sig .tc := ⟨.hbm, 554, rfl⟩
abbrev main_v345 : Ref sig .tc := ⟨.hbm, 555, rfl⟩
abbrev main_v346 : Ref sig .tc := ⟨.hbm, 556, rfl⟩
abbrev main_call67_v0 : Ref sig .tc := ⟨.hbm, 557, rfl⟩
abbrev main_call67_v1 : Ref sig .tc := ⟨.hbm, 558, rfl⟩
abbrev main_v347 : Ref sig .tc := ⟨.hbm, 559, rfl⟩
abbrev main_v348 : Ref sig .tc := ⟨.hbm, 560, rfl⟩
abbrev main_cst_95 : Ref sig .tc := ⟨.hbm, 561, rfl⟩
abbrev main_v349 : Ref sig .tc := ⟨.hbm, 562, rfl⟩
abbrev main_v350 : Ref sig .tc := ⟨.hbm, 563, rfl⟩
abbrev main_v351 : Ref sig .tc := ⟨.hbm, 564, rfl⟩
abbrev main_cst_96 : Ref sig .tc := ⟨.hbm, 565, rfl⟩
abbrev main_v352 : Ref sig .tc := ⟨.hbm, 566, rfl⟩
abbrev main_v353 : Ref sig .tc := ⟨.hbm, 567, rfl⟩
abbrev main_v354 : Ref sig .tc := ⟨.hbm, 568, rfl⟩
abbrev main_v355 : Ref sig .tc := ⟨.hbm, 569, rfl⟩
abbrev main_v356 : Ref sig .tc := ⟨.hbm, 570, rfl⟩
abbrev main_v357 : Ref sig .tc := ⟨.hbm, 571, rfl⟩
abbrev main_cst_97 : Ref sig .tc := ⟨.hbm, 572, rfl⟩
abbrev main_v358 : Ref sig .tc := ⟨.hbm, 573, rfl⟩
abbrev main_cst_98 : Ref sig .tc := ⟨.hbm, 574, rfl⟩
abbrev main_v359 : Ref sig .tc := ⟨.hbm, 575, rfl⟩
abbrev main_v360 : Ref sig .tc := ⟨.hbm, 576, rfl⟩
abbrev main_v361 : Ref sig .tc := ⟨.hbm, 577, rfl⟩
abbrev main_v362 : Ref sig .tc := ⟨.hbm, 578, rfl⟩

abbrev nD : Nat := 1
abbrev τ : Topo := Topo.v7x

variable {F : FTy → Type} [FloatOps F]

class Facts₀ : Prop where
  slices_S4x21x256x512_S4x19x256x512_0_1_0_0 : S4x21x256x512.Slices ![0, 1, 0, 0] S4x19x256x512
  slices_S4x19x256x512_S4x19x256x511_0_0_0_1 : S4x19x256x512.Slices ![0, 0, 0, 1] S4x19x256x511
  slices_S4x19x256x512_S4x19x256x1_0_0_0_0 : S4x19x256x512.Slices ![0, 0, 0, 0] S4x19x256x1
  concatenates_S4x19x256x511_S4x19x256x1_S4x19x256x512_d3 : Shape.Concatenates [S4x19x256x511, S4x19x256x1] S4x19x256x512 3
  bcast_S_S4x19x256x512 : S_.BroadcastsInDim S4x19x256x512 (![] : Fin 0 → Fin S4x19x256x512.rank)
  slices_S4x19x256x512_S4x19x256x1_0_0_0_511 : S4x19x256x512.Slices ![0, 0, 0, 511] S4x19x256x1
  slices_S4x19x256x512_S4x19x256x511_0_0_0_0 : S4x19x256x512.Slices ![0, 0, 0, 0] S4x19x256x511
  concatenates_S4x19x256x1_S4x19x256x511_S4x19x256x512_d3 : Shape.Concatenates [S4x19x256x1, S4x19x256x511] S4x19x256x512 3
  slices_S4x19x256x512_S4x19x255x512_0_0_1_0 : S4x19x256x512.Slices ![0, 0, 1, 0] S4x19x255x512
  slices_S4x19x256x512_S4x19x1x512_0_0_0_0 : S4x19x256x512.Slices ![0, 0, 0, 0] S4x19x1x512
  concatenates_S4x19x255x512_S4x19x1x512_S4x19x256x512_d2 : Shape.Concatenates [S4x19x255x512, S4x19x1x512] S4x19x256x512 2
  slices_S4x19x256x512_S4x19x1x512_0_0_255_0 : S4x19x256x512.Slices ![0, 0, 255, 0] S4x19x1x512
  slices_S4x19x256x512_S4x19x255x512_0_0_0_0 : S4x19x256x512.Slices ![0, 0, 0, 0] S4x19x255x512
  concatenates_S4x19x1x512_S4x19x255x512_S4x19x256x512_d2 : Shape.Concatenates [S4x19x1x512, S4x19x255x512] S4x19x256x512 2
  reducesTo_S4x19x256x512_S_d0_1_2_3 : S4x19x256x512.ReducesTo [0, 1, 2, 3] S_
  h_S_ : 0 < S_.numel
  slices_S4x21x256x512_S4x19x256x512_0_2_0_0 : S4x21x256x512.Slices ![0, 2, 0, 0] S4x19x256x512
  slices_S4x21x256x512_S4x19x256x512_0_0_0_0 : S4x21x256x512.Slices ![0, 0, 0, 0] S4x19x256x512
  slices_S4x19x256x512_S4x19x256x510_0_0_0_2 : S4x19x256x512.Slices ![0, 0, 0, 2] S4x19x256x510
  slices_S4x19x256x512_S4x19x256x2_0_0_0_0 : S4x19x256x512.Slices ![0, 0, 0, 0] S4x19x256x2
  concatenates_S4x19x256x510_S4x19x256x2_S4x19x256x512_d3 : Shape.Concatenates [S4x19x256x510, S4x19x256x2] S4x19x256x512 3
  slices_S4x19x256x512_S4x19x256x2_0_0_0_510 : S4x19x256x512.Slices ![0, 0, 0, 510] S4x19x256x2
  slices_S4x19x256x512_S4x19x256x510_0_0_0_0 : S4x19x256x512.Slices ![0, 0, 0, 0] S4x19x256x510
  concatenates_S4x19x256x2_S4x19x256x510_S4x19x256x512_d3 : Shape.Concatenates [S4x19x256x2, S4x19x256x510] S4x19x256x512 3
  slices_S4x19x256x512_S4x19x254x512_0_0_2_0 : S4x19x256x512.Slices ![0, 0, 2, 0] S4x19x254x512
  slices_S4x19x256x512_S4x19x2x512_0_0_0_0 : S4x19x256x512.Slices ![0, 0, 0, 0] S4x19x2x512
  concatenates_S4x19x254x512_S4x19x2x512_S4x19x256x512_d2 : Shape.Concatenates [S4x19x254x512, S4x19x2x512] S4x19x256x512 2
  slices_S4x19x256x512_S4x19x2x512_0_0_254_0 : S4x19x256x512.Slices ![0, 0, 254, 0] S4x19x2x512
  slices_S4x19x256x512_S4x19x254x512_0_0_0_0 : S4x19x256x512.Slices ![0, 0, 0, 0] S4x19x254x512
  concatenates_S4x19x2x512_S4x19x254x512_S4x19x256x512_d2 : Shape.Concatenates [S4x19x2x512, S4x19x254x512] S4x19x256x512 2

variable [Facts₀]

class Facts : Prop extends Facts₀ where

variable [Facts]
-- ==== Proof.KIRuns.lean ====
/-
  The kernel of the shear-flow residual losses, run on whole staging memrefs: what the three kinds of grid point share.
  The grid has 76 points. At the first point the body zeroes its four one-element accumulators before adding to them; at
  every point it adds the plane sums of the four squared residuals; at the last point it also stores each accumulator
  divided by the element count into its output block. The two conditions are scalar chains over the grid coordinates,
  decided over the grid in closed form.
-/
import proofs.«403124_j5119601017346_4_alg».proof.Proof.Gen.KernelIdeal.Launch
import proofs.«403124_j5119601017346_4_alg».proof.Proof.Gen.KernelIdeal.Skeleton
import proofs.«403124_j5119601017346_4_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- "This is the first grid point": both coordinates are zero (the body's first conditional). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcondFirst : ∀ t : Fin cfg0.N, condFirst (grid0.coords t) ↔ t.val % 76 = 0 :=
  (by decide +kernel : ∀ t : Fin grid0.N, condFirst (grid0.coords t) ↔ t.val % 76 = 0)

/-- "This is the last grid point" (the body's second conditional). -/
abbrev condLast (i : grid0.Coords) : Prop := k0_cond2 i = 1#1
/-- It holds at point 75 only. -/
theorem hcondLast : ∀ t : Fin cfg0.N, condLast (grid0.coords t) ↔ t.val % 76 = 75 :=
  (by decide +kernel : ∀ t : Fin grid0.N, condLast (grid0.coords t) ↔ t.val % 76 = 75)

end Cert.KernelIdeal.Hand

end
-- ==== Proof.KIRunA.lean ====
/-
  The whole kernel body run once, symbolically, at the first kind of grid point.
-/
import proofs.«403124_j5119601017346_4_alg».proof.Proof.KIRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The first grid point: from the ten input blocks at their contents, the four output buffers at contents handed back
    untouched and the four accumulators at anything, the body runs to its return with each accumulator zeroed and then
    rewritten by its update (the pieces are what the run finds). -/
noncomputable def kernelRun_A (c : Dev nD) (i : grid0.Coords) (arg2 : Memref sig .tc .vmem S1x1x256x512 .f32) (harg2 : arg2.IsWhole) (arg3 : Memref sig .tc .vmem S1x1x256x512 .f32) (harg3 : arg3.IsWhole) (arg4 : Memref sig .tc .vmem S1x1x256x512 .f32) (harg4 : arg4.IsWhole) (arg5 : Memref sig .tc .vmem S1x1x256x512 .f32) (harg5 : arg5.IsWhole) (arg6 : Memref sig .tc .vmem S1x1x256x512 .f32) (harg6 : arg6.IsWhole) (arg7 : Memref sig .tc .vmem S1x1x256x512 .f32) (harg7 : arg7.IsWhole) (arg8 : Memref sig .tc .vmem S1x1x256x512 .f32) (harg8 : arg8.IsWhole) (arg9 : Memref sig .tc .vmem S1x1x256x512 .f32) (harg9 : arg9.IsWhole) (arg10 : Memref sig .tc .vmem S1x1x256x512 .f32) (harg10 : arg10.IsWhole) (arg11 : Memref sig .tc .vmem S1x1x256x512 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (hc0 : condFirst i) (hc1 : ¬condLast i)
    (x2 : Vec F S1x1x256x512 .f32) (x3 : Vec F S1x1x256x512 .f32) (x4 : Vec F S1x1x256x512 .f32) (x5 : Vec F S1x1x256x512 .f32) (x6 : Vec F S1x1x256x512 .f32) (x7 : Vec F S1x1x256x512 .f32) (x8 : Vec F S1x1x256x512 .f32) (x9 : Vec F S1x1x256x512 .f32) (x10 : Vec F S1x1x256x512 .f32) (x11 : Vec F S1x1x256x512 .f32) :
    Σ' (LS16 : List (View.Piece (Elt F) S1x1 .f32)) (LS17 : List (View.Piece (Elt F) S1x1 .f32)) (LS18 : List (View.Piece (Elt F) S1x1 .f32)), { LS19 : List (View.Piece (Elt F) S1x1 .f32) //
      ∀ (xi12 : Vec F S1x1 .f32) (xi13 : Vec F S1x1 .f32) (xi14 : Vec F S1x1 .f32) (xi15 : Vec F S1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12 ∗ owns (c : Thread nD τ) arg13 fullShare xi13 ∗ owns (c : Thread nD τ) arg14 fullShare xi14 ∗ owns (c : Thread nD τ) arg15 fullShare xi15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12 ∗ owns (c : Thread nD τ) arg13 fullShare xi13 ∗ owns (c : Thread nD τ) arg14 fullShare xi14 ∗ owns (c : Thread nD τ) arg15 fullShare xi15 ∗ (∃ f, arg16.view.loc (c : Thread nD τ) ↦[arg16.view.set]{fullShare} arg16.view.writes (Elt F) f LS16) ∗ (∃ f, arg17.view.loc (c : Thread nD τ) ↦[arg17.view.set]{fullShare} arg17.view.writes (Elt F) f LS17) ∗ (∃ f, arg18.view.loc (c : Thread nD τ) ↦[arg18.view.set]{fullShare} arg18.view.writes (Elt F) f LS18) ∗ (∃ f, arg19.view.loc (c : Thread nD τ) ↦[arg19.view.set]{fullShare} arg19.view.writes (Elt F) f LS19)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi12 xi13 xi14 xi15 E K => ?run⟩
  case run =>
    simp only [cc0__kernel_eq_skeleton]; unfold cc0__kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexists _; iexact H17
    isplitl [H18]; · iexists _; iexact H18
    iexists _; iexact H19

end Cert.KernelIdeal.Hand

end
-- ==== Proof.KIRunB.lean ====
/-
  The whole kernel body run once, symbolically, at the middle kind of grid point.
-/
import proofs.«403124_j5119601017346_4_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- A middle grid point (neither first nor last): from the ten input blocks at their contents, the four output buffers at
    contents handed back untouched and the four accumulators at what the point before left, the body runs to its return
    with each accumulator rewritten by one store (the pieces are what the run finds). -/
noncomputable def kernelRun_B (c : Dev nD) (i : grid0.Coords) (arg2 : Memref sig .tc .vmem S1x1x256x512 .f32) (harg2 : arg2.IsWhole) (arg3 : Memref sig .tc .vmem S1x1x256x512 .f32) (harg3 : arg3.IsWhole) (arg4 : Memref sig .tc .vmem S1x1x256x512 .f32) (harg4 : arg4.IsWhole) (arg5 : Memref sig .tc .vmem S1x1x256x512 .f32) (harg5 : arg5.IsWhole) (arg6 : Memref sig .tc .vmem S1x1x256x512 .f32) (harg6 : arg6.IsWhole) (arg7 : Memref sig .tc .vmem S1x1x256x512 .f32) (harg7 : arg7.IsWhole) (arg8 : Memref sig .tc .vmem S1x1x256x512 .f32) (harg8 : arg8.IsWhole) (arg9 : Memref sig .tc .vmem S1x1x256x512 .f32) (harg9 : arg9.IsWhole) (arg10 : Memref sig .tc .vmem S1x1x256x512 .f32) (harg10 : arg10.IsWhole) (arg11 : Memref sig .tc .vmem S1x1x256x512 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (hc0 : ¬condFirst i) (hc1 : ¬condLast i)
    (x2 : Vec F S1x1x256x512 .f32) (x3 : Vec F S1x1x256x512 .f32) (x4 : Vec F S1x1x256x512 .f32) (x5 : Vec F S1x1x256x512 .f32) (x6 : Vec F S1x1x256x512 .f32) (x7 : Vec F S1x1x256x512 .f32) (x8 : Vec F S1x1x256x512 .f32) (x9 : Vec F S1x1x256x512 .f32) (x10 : Vec F S1x1x256x512 .f32) (x11 : Vec F S1x1x256x512 .f32) (xs16 : Vec F S1x1 .f32) (xs17 : Vec F S1x1 .f32) (xs18 : Vec F S1x1 .f32) (xs19 : Vec F S1x1 .f32) :
    Σ' (LS16 : List (View.Piece (Elt F) S1x1 .f32)) (LS17 : List (View.Piece (Elt F) S1x1 .f32)) (LS18 : List (View.Piece (Elt F) S1x1 .f32)), { LS19 : List (View.Piece (Elt F) S1x1 .f32) //
      ∀ (xi12 : Vec F S1x1 .f32) (xi13 : Vec F S1x1 .f32) (xi14 : Vec F S1x1 .f32) (xi15 : Vec F S1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12 ∗ owns (c : Thread nD τ) arg13 fullShare xi13 ∗ owns (c : Thread nD τ) arg14 fullShare xi14 ∗ owns (c : Thread nD τ) arg15 fullShare xi15 ∗ owns (c : Thread nD τ) arg16 fullShare xs16 ∗ owns (c : Thread nD τ) arg17 fullShare xs17 ∗ owns (c : Thread nD τ) arg18 fullShare xs18 ∗ owns (c : Thread nD τ) arg19 fullShare xs19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xi12 ∗ owns (c : Thread nD τ) arg13 fullShare xi13 ∗ owns (c : Thread nD τ) arg14 fullShare xi14 ∗ owns (c : Thread nD τ) arg15 fullShare xi15 ∗ (∃ f, arg16.view.loc (c : Thread nD τ) ↦[arg16.view.set]{fullShare} arg16.view.writes (Elt F) f LS16) ∗ (∃ f, arg17.view.loc (c : Thread nD τ) ↦[arg17.view.set]{fullShare} arg17.view.writes (Elt F) f LS17) ∗ (∃ f, arg18.view.loc (c : Thread nD τ) ↦[arg18.view.set]{fullShare} arg18.view.writes (Elt F) f LS18) ∗ (∃ f, arg19.view.loc (c : Thread nD τ) ↦[arg19.view.set]{fullShare} arg19.view.writes (Elt F) f LS19)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi12 xi13 xi14 xi15 E K => ?run⟩
  case run =>
    simp only [cc0__kernel_eq_skeleton]; unfold cc0__kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexists _; iexact H17
    isplitl [H18]; · iexists _; iexact H18
    iexists _; iexact H19

end Cert.KernelIdeal.Hand

end
-- ==== Proof.KIRunC.lean ====
/-
  The whole kernel body run once, symbolically, at the last kind of grid point.
-/
import proofs.«403124_j5119601017346_4_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The last grid point: from the ten input blocks at their contents, the four output buffers at anything and the four
    accumulators at what the point before left, the body runs to its return with each accumulator rewritten by one store
    and each output block written with its accumulator divided by the element count (the pieces are what the run finds). -/
noncomputable def kernelRun_C (c : Dev nD) (i : grid0.Coords) (arg2 : Memref sig .tc .vmem S1x1x256x512 .f32) (harg2 : arg2.IsWhole) (arg3 : Memref sig .tc .vmem S1x1x256x512 .f32) (harg3 : arg3.IsWhole) (arg4 : Memref sig .tc .vmem S1x1x256x512 .f32) (harg4 : arg4.IsWhole) (arg5 : Memref sig .tc .vmem S1x1x256x512 .f32) (harg5 : arg5.IsWhole) (arg6 : Memref sig .tc .vmem S1x1x256x512 .f32) (harg6 : arg6.IsWhole) (arg7 : Memref sig .tc .vmem S1x1x256x512 .f32) (harg7 : arg7.IsWhole) (arg8 : Memref sig .tc .vmem S1x1x256x512 .f32) (harg8 : arg8.IsWhole) (arg9 : Memref sig .tc .vmem S1x1x256x512 .f32) (harg9 : arg9.IsWhole) (arg10 : Memref sig .tc .vmem S1x1x256x512 .f32) (harg10 : arg10.IsWhole) (arg11 : Memref sig .tc .vmem S1x1x256x512 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (hc0 : ¬condFirst i) (hc1 : condLast i)
    (x2 : Vec F S1x1x256x512 .f32) (x3 : Vec F S1x1x256x512 .f32) (x4 : Vec F S1x1x256x512 .f32) (x5 : Vec F S1x1x256x512 .f32) (x6 : Vec F S1x1x256x512 .f32) (x7 : Vec F S1x1x256x512 .f32) (x8 : Vec F S1x1x256x512 .f32) (x9 : Vec F S1x1x256x512 .f32) (x10 : Vec F S1x1x256x512 .f32) (x11 : Vec F S1x1x256x512 .f32) (xs16 : Vec F S1x1 .f32) (xs17 : Vec F S1x1 .f32) (xs18 : Vec F S1x1 .f32) (xs19 : Vec F S1x1 .f32) :
    Σ' (L12 : List (View.Piece (Elt F) S1x1 .f32)) (L13 : List (View.Piece (Elt F) S1x1 .f32)) (L14 : List (View.Piece (Elt F) S1x1 .f32)) (L15 : List (View.Piece (Elt F) S1x1 .f32)) (LS16 : List (View.Piece (Elt F) S1x1 .f32)) (LS17 : List (View.Piece (Elt F) S1x1 .f32)) (LS18 : List (View.Piece (Elt F) S1x1 .f32)), { LS19 : List (View.Piece (Elt F) S1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs16 ∗ owns (c : Thread nD τ) arg17 fullShare xs17 ∗ owns (c : Thread nD τ) arg18 fullShare xs18 ∗ owns (c : Thread nD τ) arg19 fullShare xs19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f LS16) ∗ (∃ f, arg17.view.loc (c : Thread nD τ) ↦[arg17.view.set]{fullShare} arg17.view.writes (Elt F) f LS17) ∗ (∃ f, arg18.view.loc (c : Thread nD τ) ↦[arg18.view.set]{fullShare} arg18.view.writes (Elt F) f LS18) ∗ (∃ f, arg19.view.loc (c : Thread nD τ) ↦[arg19.view.set]{fullShare} arg19.view.writes (Elt F) f LS19)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0__kernel_eq_skeleton]; unfold cc0__kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Hand

end
-- ==== Proof.KIFrame.lean ====
import proofs.«403124_j5119601017346_4_alg».proof.Proof.KIRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev V (c : Dev nD) (b : Ref sig .tc) : Buf (Elt F) ((c : Thread nD τ).loc b) := m ((c : Thread nD τ).loc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms_0 (t : Fin cfg0.N) : Memref sig .tc .vmem S1x1x256x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1x256x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x256x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1x256x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x1x256x512 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x1x256x512 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1x256x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x1x256x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x1x256x512 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x1x256x512 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x1 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x1 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x1 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x1 .f32 := win0_13.stage (cfg0.slots t 13)
abbrev hs_13 (t : Fin cfg0.N) : (ms_13 t).IsWhole := hstage0_13 ((cfg0.slots t 13).cast nbuf0_13)
abbrev scM_0 : Memref sig .tc .vmem S1x1 .f32 := Memref.whole cc0_scratch0
abbrev VS_0 : View sig .tc .vmem S1x1 .f32 := scM_0.view
abbrev scM_1 : Memref sig .tc .vmem S1x1 .f32 := Memref.whole cc0_scratch1
abbrev VS_1 : View sig .tc .vmem S1x1 .f32 := scM_1.view
abbrev scM_2 : Memref sig .tc .vmem S1x1 .f32 := Memref.whole cc0_scratch2
abbrev VS_2 : View sig .tc .vmem S1x1 .f32 := scM_2.view
abbrev scM_3 : Memref sig .tc .vmem S1x1 .f32 := Memref.whole cc0_scratch3
abbrev VS_3 : View sig .tc .vmem S1x1 .f32 := scM_3.view
abbrev VO_10 : View sig .tc .vmem S1x1 .f32 := (Memref.whole cc0_stg10_0 : Memref sig .tc .vmem S1x1 .f32).view
abbrev VO_11 : View sig .tc .vmem S1x1 .f32 := (Memref.whole cc0_stg11_0 : Memref sig .tc .vmem S1x1 .f32).view
abbrev VO_12 : View sig .tc .vmem S1x1 .f32 := (Memref.whole cc0_stg12_0 : Memref sig .tc .vmem S1x1 .f32).view
abbrev VO_13 : View sig .tc .vmem S1x1 .f32 := (Memref.whole cc0_stg13_0 : Memref sig .tc .vmem S1x1 .f32).view

theorem idleAt_10 : ∀ t : Fin cfg0.N, ¬condLast (grid0.coords t) → cfg0.idle 10 (grid0.coords t) = true := by decide +kernel
theorem noFlush_10 : ∀ t : Fin cfg0.N, ¬condLast (grid0.coords t) → (cfg0.win 10).flush t = false := by decide +kernel
theorem liveAtLast_10 : ∀ t : Fin cfg0.N, condLast (grid0.coords t) → cfg0.idle 10 (grid0.coords t) = false := by decide +kernel
theorem idleAt_11 : ∀ t : Fin cfg0.N, ¬condLast (grid0.coords t) → cfg0.idle 11 (grid0.coords t) = true := by decide +kernel
theorem noFlush_11 : ∀ t : Fin cfg0.N, ¬condLast (grid0.coords t) → (cfg0.win 11).flush t = false := by decide +kernel
theorem liveAtLast_11 : ∀ t : Fin cfg0.N, condLast (grid0.coords t) → cfg0.idle 11 (grid0.coords t) = false := by decide +kernel
theorem idleAt_12 : ∀ t : Fin cfg0.N, ¬condLast (grid0.coords t) → cfg0.idle 12 (grid0.coords t) = true := by decide +kernel
theorem noFlush_12 : ∀ t : Fin cfg0.N, ¬condLast (grid0.coords t) → (cfg0.win 12).flush t = false := by decide +kernel
theorem liveAtLast_12 : ∀ t : Fin cfg0.N, condLast (grid0.coords t) → cfg0.idle 12 (grid0.coords t) = false := by decide +kernel
theorem idleAt_13 : ∀ t : Fin cfg0.N, ¬condLast (grid0.coords t) → cfg0.idle 13 (grid0.coords t) = true := by decide +kernel
theorem noFlush_13 : ∀ t : Fin cfg0.N, ¬condLast (grid0.coords t) → (cfg0.win 13).flush t = false := by decide +kernel
theorem liveAtLast_13 : ∀ t : Fin cfg0.N, condLast (grid0.coords t) → cfg0.idle 13 (grid0.coords t) = false := by decide +kernel

theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) := by
  rw [scopedRest0_eq]; simp only [scM_0, scM_1, scM_2, scM_3, owns_whole]; try rfl

section A

variable (c : Dev nD) (t : Fin cfg0.N) (hc0 : condFirst (grid0.coords t)) (hc1 : ¬condLast (grid0.coords t))

abbrev runA :=
  kernelRun_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) scM_0 (Memref.isWhole_whole _) scM_1 (Memref.isWhole_whole _) scM_2 (Memref.isWhole_whole _) scM_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t)

theorem scover_A_0 (y : S1x1.Idx) : ∃ pc ∈ (runA m c t hc0 hc1).1, y ∈ pc.1.set :=
  View.cover_of_tiledL (runA m c t hc0 hc1).1 S1x1.size (by sl_kernel_rfl) y

def sout_A_0 : Vec F S1x1 .f32 :=
  VS_0.read (Elt F) (VS_0.writes (Elt F) VS_0.junk (runA m c t hc0 hc1).1)

theorem scover_A_1 (y : S1x1.Idx) : ∃ pc ∈ (runA m c t hc0 hc1).2.1, y ∈ pc.1.set :=
  View.cover_of_tiledL (runA m c t hc0 hc1).2.1 S1x1.size (by sl_kernel_rfl) y

def sout_A_1 : Vec F S1x1 .f32 :=
  VS_1.read (Elt F) (VS_1.writes (Elt F) VS_1.junk (runA m c t hc0 hc1).2.1)

theorem scover_A_2 (y : S1x1.Idx) : ∃ pc ∈ (runA m c t hc0 hc1).2.2.1, y ∈ pc.1.set :=
  View.cover_of_tiledL (runA m c t hc0 hc1).2.2.1 S1x1.size (by sl_kernel_rfl) y

def sout_A_2 : Vec F S1x1 .f32 :=
  VS_2.read (Elt F) (VS_2.writes (Elt F) VS_2.junk (runA m c t hc0 hc1).2.2.1)

theorem scover_A_3 (y : S1x1.Idx) : ∃ pc ∈ (runA m c t hc0 hc1).2.2.2.1, y ∈ pc.1.set :=
  View.cover_of_tiledL (runA m c t hc0 hc1).2.2.2.1 S1x1.size (by sl_kernel_rfl) y

def sout_A_3 : Vec F S1x1 .f32 :=
  VS_3.read (Elt F) (VS_3.writes (Elt F) VS_3.junk (runA m c t hc0 hc1).2.2.2.1)

end A

section B

variable (c : Dev nD) (t : Fin cfg0.N) (hc0 : ¬condFirst (grid0.coords t)) (hc1 : ¬condLast (grid0.coords t)) (xs0 xs1 xs2 xs3 : Vec F S1x1 .f32)

abbrev runB :=
  kernelRun_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) scM_0 (Memref.isWhole_whole _) scM_1 (Memref.isWhole_whole _) scM_2 (Memref.isWhole_whole _) scM_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3

theorem scover_B_0 (y : S1x1.Idx) : ∃ pc ∈ (runB m c t hc0 hc1 xs0 xs1 xs2 xs3).1, y ∈ pc.1.set :=
  View.cover_of_tiledL (runB m c t hc0 hc1 xs0 xs1 xs2 xs3).1 S1x1.size (by sl_kernel_rfl) y

def sout_B_0 : Vec F S1x1 .f32 :=
  VS_0.read (Elt F) (VS_0.writes (Elt F) VS_0.junk (runB m c t hc0 hc1 xs0 xs1 xs2 xs3).1)

theorem scover_B_1 (y : S1x1.Idx) : ∃ pc ∈ (runB m c t hc0 hc1 xs0 xs1 xs2 xs3).2.1, y ∈ pc.1.set :=
  View.cover_of_tiledL (runB m c t hc0 hc1 xs0 xs1 xs2 xs3).2.1 S1x1.size (by sl_kernel_rfl) y

def sout_B_1 : Vec F S1x1 .f32 :=
  VS_1.read (Elt F) (VS_1.writes (Elt F) VS_1.junk (runB m c t hc0 hc1 xs0 xs1 xs2 xs3).2.1)

theorem scover_B_2 (y : S1x1.Idx) : ∃ pc ∈ (runB m c t hc0 hc1 xs0 xs1 xs2 xs3).2.2.1, y ∈ pc.1.set :=
  View.cover_of_tiledL (runB m c t hc0 hc1 xs0 xs1 xs2 xs3).2.2.1 S1x1.size (by sl_kernel_rfl) y

def sout_B_2 : Vec F S1x1 .f32 :=
  VS_2.read (Elt F) (VS_2.writes (Elt F) VS_2.junk (runB m c t hc0 hc1 xs0 xs1 xs2 xs3).2.2.1)

theorem scover_B_3 (y : S1x1.Idx) : ∃ pc ∈ (runB m c t hc0 hc1 xs0 xs1 xs2 xs3).2.2.2.1, y ∈ pc.1.set :=
  View.cover_of_tiledL (runB m c t hc0 hc1 xs0 xs1 xs2 xs3).2.2.2.1 S1x1.size (by sl_kernel_rfl) y

def sout_B_3 : Vec F S1x1 .f32 :=
  VS_3.read (Elt F) (VS_3.writes (Elt F) VS_3.junk (runB m c t hc0 hc1 xs0 xs1 xs2 xs3).2.2.2.1)

end B

section C

variable (c : Dev nD) (t : Fin cfg0.N) (hc0 : ¬condFirst (grid0.coords t)) (hc1 : condLast (grid0.coords t)) (xs0 xs1 xs2 xs3 : Vec F S1x1 .f32)

abbrev runC :=
  kernelRun_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) scM_0 (Memref.isWhole_whole _) scM_1 (Memref.isWhole_whole _) scM_2 (Memref.isWhole_whole _) scM_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3

theorem scover_C_0 (y : S1x1.Idx) : ∃ pc ∈ (runC m c t hc0 hc1 xs0 xs1 xs2 xs3).2.2.2.2.1, y ∈ pc.1.set :=
  View.cover_of_tiledL (runC m c t hc0 hc1 xs0 xs1 xs2 xs3).2.2.2.2.1 S1x1.size (by sl_kernel_rfl) y

def sout_C_0 : Vec F S1x1 .f32 :=
  VS_0.read (Elt F) (VS_0.writes (Elt F) VS_0.junk (runC m c t hc0 hc1 xs0 xs1 xs2 xs3).2.2.2.2.1)

theorem scover_C_1 (y : S1x1.Idx) : ∃ pc ∈ (runC m c t hc0 hc1 xs0 xs1 xs2 xs3).2.2.2.2.2.1, y ∈ pc.1.set :=
  View.cover_of_tiledL (runC m c t hc0 hc1 xs0 xs1 xs2 xs3).2.2.2.2.2.1 S1x1.size (by sl_kernel_rfl) y

def sout_C_1 : Vec F S1x1 .f32 :=
  VS_1.read (Elt F) (VS_1.writes (Elt F) VS_1.junk (runC m c t hc0 hc1 xs0 xs1 xs2 xs3).2.2.2.2.2.1)

theorem scover_C_2 (y : S1x1.Idx) : ∃ pc ∈ (runC m c t hc0 hc1 xs0 xs1 xs2 xs3).2.2.2.2.2.2.1, y ∈ pc.1.set :=
  View.cover_of_tiledL (runC m c t hc0 hc1 xs0 xs1 xs2 xs3).2.2.2.2.2.2.1 S1x1.size (by sl_kernel_rfl) y

def sout_C_2 : Vec F S1x1 .f32 :=
  VS_2.read (Elt F) (VS_2.writes (Elt F) VS_2.junk (runC m c t hc0 hc1 xs0 xs1 xs2 xs3).2.2.2.2.2.2.1)

theorem scover_C_3 (y : S1x1.Idx) : ∃ pc ∈ (runC m c t hc0 hc1 xs0 xs1 xs2 xs3).2.2.2.2.2.2.2.1, y ∈ pc.1.set :=
  View.cover_of_tiledL (runC m c t hc0 hc1 xs0 xs1 xs2 xs3).2.2.2.2.2.2.2.1 S1x1.size (by sl_kernel_rfl) y

def sout_C_3 : Vec F S1x1 .f32 :=
  VS_3.read (Elt F) (VS_3.writes (Elt F) VS_3.junk (runC m c t hc0 hc1 xs0 xs1 xs2 xs3).2.2.2.2.2.2.2.1)

theorem cover_C_10 (y : S1x1.Idx) : ∃ pc ∈ (runC m c t hc0 hc1 xs0 xs1 xs2 xs3).1, y ∈ pc.1.set :=
  View.cover_of_tiledL (runC m c t hc0 hc1 xs0 xs1 xs2 xs3).1 S1x1.size (by sl_kernel_rfl) y

def out_C_10 : Vec F S1x1 .f32 :=
  VO_10.read (Elt F) (VO_10.writes (Elt F) VO_10.junk (runC m c t hc0 hc1 xs0 xs1 xs2 xs3).1)

theorem cover_C_11 (y : S1x1.Idx) : ∃ pc ∈ (runC m c t hc0 hc1 xs0 xs1 xs2 xs3).2.1, y ∈ pc.1.set :=
  View.cover_of_tiledL (runC m c t hc0 hc1 xs0 xs1 xs2 xs3).2.1 S1x1.size (by sl_kernel_rfl) y

def out_C_11 : Vec F S1x1 .f32 :=
  VO_11.read (Elt F) (VO_11.writes (Elt F) VO_11.junk (runC m c t hc0 hc1 xs0 xs1 xs2 xs3).2.1)

theorem cover_C_12 (y : S1x1.Idx) : ∃ pc ∈ (runC m c t hc0 hc1 xs0 xs1 xs2 xs3).2.2.1, y ∈ pc.1.set :=
  View.cover_of_tiledL (runC m c t hc0 hc1 xs0 xs1 xs2 xs3).2.2.1 S1x1.size (by sl_kernel_rfl) y

def out_C_12 : Vec F S1x1 .f32 :=
  VO_12.read (Elt F) (VO_12.writes (Elt F) VO_12.junk (runC m c t hc0 hc1 xs0 xs1 xs2 xs3).2.2.1)

theorem cover_C_13 (y : S1x1.Idx) : ∃ pc ∈ (runC m c t hc0 hc1 xs0 xs1 xs2 xs3).2.2.2.1, y ∈ pc.1.set :=
  View.cover_of_tiledL (runC m c t hc0 hc1 xs0 xs1 xs2 xs3).2.2.2.1 S1x1.size (by sl_kernel_rfl) y

def out_C_13 : Vec F S1x1 .f32 :=
  VO_13.read (Elt F) (VO_13.writes (Elt F) VO_13.junk (runC m c t hc0 hc1 xs0 xs1 xs2 xs3).2.2.2.1)

end C

abbrev Acc (G : FTy → Type) := Vec G S1x1 .f32 × Vec G S1x1 .f32 × Vec G S1x1 .f32 × Vec G S1x1 .f32

theorem first_of_zero (t : Fin cfg0.N) (hz : t.val = 0) : condFirst (grid0.coords t) :=
  (hcondFirst t).mpr (by omega)

theorem notFirst_of_pos (t : Fin cfg0.N) (hz : t.val ≠ 0) : ¬condFirst (grid0.coords t) := fun h => by
  have h' := (hcondFirst t).mp h
  have hN : t.val < 76 := lt_of_lt_of_eq t.isLt N_0
  omega

theorem notLast_of (t : Fin cfg0.N) (h1 : ¬t.val % 76 = 75) : ¬condLast (grid0.coords t) :=
  fun h => h1 ((hcondLast t).mp h)

def soutsA (c : Dev nD) (t : Fin cfg0.N) (hc0 : condFirst (grid0.coords t)) (hc1 : ¬condLast (grid0.coords t)) : Acc F :=
  (sout_A_0 m c t hc0 hc1, sout_A_1 m c t hc0 hc1, sout_A_2 m c t hc0 hc1, sout_A_3 m c t hc0 hc1)

def soutsB (c : Dev nD) (t : Fin cfg0.N) (hc0 : ¬condFirst (grid0.coords t)) (hc1 : ¬condLast (grid0.coords t)) (p : Acc F) : Acc F :=
  (sout_B_0 m c t hc0 hc1 p.1 p.2.1 p.2.2.1 p.2.2.2, sout_B_1 m c t hc0 hc1 p.1 p.2.1 p.2.2.1 p.2.2.2,
    sout_B_2 m c t hc0 hc1 p.1 p.2.1 p.2.2.1 p.2.2.2, sout_B_3 m c t hc0 hc1 p.1 p.2.1 p.2.2.1 p.2.2.2)

def soutsC (c : Dev nD) (t : Fin cfg0.N) (hc0 : ¬condFirst (grid0.coords t)) (hc1 : condLast (grid0.coords t)) (p : Acc F) : Acc F :=
  (sout_C_0 m c t hc0 hc1 p.1 p.2.1 p.2.2.1 p.2.2.2, sout_C_1 m c t hc0 hc1 p.1 p.2.1 p.2.2.1 p.2.2.2,
    sout_C_2 m c t hc0 hc1 p.1 p.2.1 p.2.2.1 p.2.2.2, sout_C_3 m c t hc0 hc1 p.1 p.2.1 p.2.2.1 p.2.2.2)

def outsC (c : Dev nD) (t : Fin cfg0.N) (hc0 : ¬condFirst (grid0.coords t)) (hc1 : condLast (grid0.coords t)) (p : Acc F) : Acc F :=
  (out_C_10 m c t hc0 hc1 p.1 p.2.1 p.2.2.1 p.2.2.2, out_C_11 m c t hc0 hc1 p.1 p.2.1 p.2.2.1 p.2.2.2,
    out_C_12 m c t hc0 hc1 p.1 p.2.1 p.2.2.1 p.2.2.2, out_C_13 m c t hc0 hc1 p.1 p.2.1 p.2.2.1 p.2.2.2)

def scrAt (c : Dev nD) : (n : ℕ) → n < cfg0.N → Acc F
  | 0, hn => soutsA m c ⟨0, hn⟩ (first_of_zero _ rfl) (notLast_of _ (by show ¬0 % 76 = 75; decide))
  | n + 1, hn =>
    if h1 : (n + 1) % 76 = 75 then
      soutsC m c ⟨n + 1, hn⟩ (notFirst_of_pos _ (Nat.succ_ne_zero n)) ((hcondLast _).mpr h1) (scrAt c n (Nat.lt_of_succ_lt hn))
    else
      soutsB m c ⟨n + 1, hn⟩ (notFirst_of_pos _ (Nat.succ_ne_zero n)) (notLast_of _ h1) (scrAt c n (Nat.lt_of_succ_lt hn))

abbrev prevS (c : Dev nD) (t : Fin cfg0.N) : Acc F :=
  scrAt m c (t.val - 1) (Nat.lt_of_le_of_lt (Nat.sub_le _ _) t.isLt)

theorem scrAt_A (c : Dev nD) (t : Fin cfg0.N) (hz : t.val = 0) (h0 : condFirst (grid0.coords t)) (h1 : ¬condLast (grid0.coords t)) :
    scrAt m c t.val t.isLt = soutsA m c t h0 h1 := by
  obtain ⟨n, hn⟩ := t
  cases n with
  | zero => rfl
  | succ n => exact absurd hz (Nat.succ_ne_zero n)

theorem scrAt_B (c : Dev nD) (t : Fin cfg0.N) (hz : t.val ≠ 0) (h0 : ¬condFirst (grid0.coords t)) (h1 : ¬t.val % 76 = 75) :
    scrAt m c t.val t.isLt = soutsB m c t h0 (notLast_of t h1) (prevS m c t) := by
  obtain ⟨n, hn⟩ := t
  cases n with
  | zero => exact absurd rfl hz
  | succ n => exact (dif_neg h1).trans rfl

theorem scrAt_C (c : Dev nD) (t : Fin cfg0.N) (hz : t.val ≠ 0) (h0 : ¬condFirst (grid0.coords t)) (h1 : t.val % 76 = 75) :
    scrAt m c t.val t.isLt = soutsC m c t h0 ((hcondLast t).mpr h1) (prevS m c t) := by
  obtain ⟨n, hn⟩ := t
  cases n with
  | zero => exact absurd rfl hz
  | succ n => exact (dif_pos h1).trans rfl

def outAt (c : Dev nD) (t : Fin cfg0.N) : Acc F :=
  if h1 : t.val % 76 = 75 then
    outsC m c t (notFirst_of_pos t (by omega)) ((hcondLast t).mpr h1) (prevS m c t)
  else (VO_10.read (Elt F) VO_10.junk, VO_11.read (Elt F) VO_11.junk, VO_12.read (Elt F) VO_12.junk, VO_13.read (Elt F) VO_13.junk)

theorem outAt_C (c : Dev nD) (t : Fin cfg0.N) (h0 : ¬condFirst (grid0.coords t)) (h1 : t.val % 76 = 75) :
    outAt m c t = outsC m c t h0 ((hcondLast t).mpr h1) (prevS m c t) := by
  unfold outAt; exact (dif_pos h1).trans rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM_0 fullShare ((scrAt m c n hn).1) ∗ owns (c : Thread nD τ) scM_1 fullShare ((scrAt m c n hn).2.1) ∗ owns (c : Thread nD τ) scM_2 fullShare ((scrAt m c n hn).2.2.1) ∗ owns (c : Thread nD τ) scM_3 fullShare ((scrAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM_0 fullShare ((scrAt m c n hn).1) ∗ owns (c : Thread nD τ) scM_1 fullShare ((scrAt m c n hn).2.1) ∗ owns (c : Thread nD τ) scM_2 fullShare ((scrAt m c n hn).2.2.1) ∗ owns (c : Thread nD τ) scM_3 fullShare ((scrAt m c n hn).2.2.2)) := rfl

theorem PhiS_pos (c : Dev nD) (n : ℕ) (h : n ≤ cfg0.N) (hz : n ≠ 0) :
    PhiS m c n h = iprop(owns (c : Thread nD τ) scM_0 fullShare ((scrAt m c (n - 1) (by omega)).1) ∗ owns (c : Thread nD τ) scM_1 fullShare ((scrAt m c (n - 1) (by omega)).2.1) ∗ owns (c : Thread nD τ) scM_2 fullShare ((scrAt m c (n - 1) (by omega)).2.2.1) ∗ owns (c : Thread nD τ) scM_3 fullShare ((scrAt m c (n - 1) (by omega)).2.2.2)) := by
  cases n with
  | zero => exact absurd rfl hz
  | succ n => rfl

def shareOf : Fin 14 → PosShare TreeShare := fun
  | 0 => fullShare.left | 1 => fullShare.right.left | 2 => fullShare.right.right
  | 3 => fullShare.left | 4 => fullShare.right.left | 5 => fullShare.right.right
  | 7 => fullShare.left | 8 => fullShare.right.left | 9 => fullShare.right.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outAt m c t).1
    | ⟨11, _⟩ => (outAt m c t).2.1
    | ⟨12, _⟩ => (outAt m c t).2.2.1
    | ⟨13, _⟩ => (outAt m c t).2.2.2
  Φ t := PhiS m c t.val (Nat.le_of_lt_succ t.isLt)
  q := shareOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outAt m c t).1 := by dsimp only [dats]
theorem after_11 (c : Dev nD) (t : Fin cfg0.N) : (dats m 0 c).after 11 t = (outAt m c t).2.1 := by dsimp only [dats]
theorem after_12 (c : Dev nD) (t : Fin cfg0.N) : (dats m 0 c).after 12 t = (outAt m c t).2.2.1 := by dsimp only [dats]
theorem after_13 (c : Dev nD) (t : Fin cfg0.N) : (dats m 0 c).after 13 t = (outAt m c t).2.2.2 := by dsimp only [dats]

theorem before_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)

theorem before_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

theorem before_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

theorem before_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

theorem before_4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)

theorem before_5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)

theorem before_6 (c : Dev nD) (t : Fin cfg0.N) (d) : (dats m 0 c).before 6 t d = iblk m c 6 t :=
  ((dats m 0 c).before_fetched 6 t (fetch0_6 t) d).trans (by unfold Dat.fetched Dat.blockOf iblk; rw [A_eq]; try rfl)

theorem before_7 (c : Dev nD) (t : Fin cfg0.N) (d) : (dats m 0 c).before 7 t d = iblk m c 7 t :=
  ((dats m 0 c).before_fetched 7 t (fetch0_7 t) d).trans (by unfold Dat.fetched Dat.blockOf iblk; rw [A_eq]; try rfl)

theorem before_8 (c : Dev nD) (t : Fin cfg0.N) (d) : (dats m 0 c).before 8 t d = iblk m c 8 t :=
  ((dats m 0 c).before_fetched 8 t (fetch0_8 t) d).trans (by unfold Dat.fetched Dat.blockOf iblk; rw [A_eq]; try rfl)

theorem before_9 (c : Dev nD) (t : Fin cfg0.N) (d) : (dats m 0 c).before 9 t d = iblk m c 9 t :=
  ((dats m 0 c).before_fetched 9 t (fetch0_9 t) d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem Phi_zero (c : Dev nD) : (dats m 0 c).Φ 0 = Pipeline.scopedRest (Ix := Unit) (Name := ℕ) (U := UR sig nD τ) (Lvl := ℕ) (Val := Elt F) spec0 c := rfl

theorem Phi_last (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 76 := N_0; omega), scoped_eq]
  iintro ⟨HS0, HS1, HS2, HS3⟩
  isplitl [HS0]; · iexists _; iexact HS0
  isplitl [HS1]; · iexists _; iexact HS1
  isplitl [HS2]; · iexists _; iexact HS2
  iexists _; iexact HS3

end Cert.KernelIdeal.Hand

end
-- ==== Proof.KIBody.lean ====
import proofs.«403124_j5119601017346_4_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem leaves_0 (c : Dev nD) (t : Fin cfg0.N) :
    (dats m 0 c).leavesExact 0 t = owns (c : Thread nD τ) (ms_0 t) fullShare (iblk m c 0 t) := by
  rw [← after_0]

theorem leaves_1 (c : Dev nD) (t : Fin cfg0.N) :
    (dats m 0 c).leavesExact 1 t = owns (c : Thread nD τ) (ms_1 t) fullShare (iblk m c 1 t) := by
  rw [← after_1]

theorem leaves_2 (c : Dev nD) (t : Fin cfg0.N) :
    (dats m 0 c).leavesExact 2 t = owns (c : Thread nD τ) (ms_2 t) fullShare (iblk m c 2 t) := by
  rw [← after_2]

theorem leaves_3 (c : Dev nD) (t : Fin cfg0.N) :
    (dats m 0 c).leavesExact 3 t = owns (c : Thread nD τ) (ms_3 t) fullShare (iblk m c 3 t) := by
  rw [← after_3]

theorem leaves_4 (c : Dev nD) (t : Fin cfg0.N) :
    (dats m 0 c).leavesExact 4 t = owns (c : Thread nD τ) (ms_4 t) fullShare (iblk m c 4 t) := by
  rw [← after_4]

theorem leaves_5 (c : Dev nD) (t : Fin cfg0.N) :
    (dats m 0 c).leavesExact 5 t = owns (c : Thread nD τ) (ms_5 t) fullShare (iblk m c 5 t) := by
  rw [← after_5]

theorem leaves_6 (c : Dev nD) (t : Fin cfg0.N) :
    (dats m 0 c).leavesExact 6 t = owns (c : Thread nD τ) (ms_6 t) fullShare (iblk m c 6 t) := by
  rw [← after_6]

theorem leaves_7 (c : Dev nD) (t : Fin cfg0.N) :
    (dats m 0 c).leavesExact 7 t = owns (c : Thread nD τ) (ms_7 t) fullShare (iblk m c 7 t) := by
  rw [← after_7]

theorem leaves_8 (c : Dev nD) (t : Fin cfg0.N) :
    (dats m 0 c).leavesExact 8 t = owns (c : Thread nD τ) (ms_8 t) fullShare (iblk m c 8 t) := by
  rw [← after_8]

theorem leaves_9 (c : Dev nD) (t : Fin cfg0.N) :
    (dats m 0 c).leavesExact 9 t = owns (c : Thread nD τ) (ms_9 t) fullShare (iblk m c 9 t) := by
  rw [← after_9]

theorem leavesLast_10 (c : Dev nD) (t : Fin cfg0.N) (hl : condLast (grid0.coords t)) :
    (dats m 0 c).leavesExact 10 t = owns (c : Thread nD τ) (ms_10 t) fullShare (outAt m c t).1 := by
  rw [← after_10]; unfold Dat.leavesExact; rw [liveAtLast_10 t hl]

theorem leavesLast_11 (c : Dev nD) (t : Fin cfg0.N) (hl : condLast (grid0.coords t)) :
    (dats m 0 c).leavesExact 11 t = owns (c : Thread nD τ) (ms_11 t) fullShare (outAt m c t).2.1 := by
  rw [← after_11]; unfold Dat.leavesExact; rw [liveAtLast_11 t hl]

theorem leavesLast_12 (c : Dev nD) (t : Fin cfg0.N) (hl : condLast (grid0.coords t)) :
    (dats m 0 c).leavesExact 12 t = owns (c : Thread nD τ) (ms_12 t) fullShare (outAt m c t).2.2.1 := by
  rw [← after_12]; unfold Dat.leavesExact; rw [liveAtLast_12 t hl]

theorem leavesLast_13 (c : Dev nD) (t : Fin cfg0.N) (hl : condLast (grid0.coords t)) :
    (dats m 0 c).leavesExact 13 t = owns (c : Thread nD τ) (ms_13 t) fullShare (outAt m c t).2.2.2 := by
  rw [← after_13]; unfold Dat.leavesExact; rw [liveAtLast_13 t hl]

set_option maxHeartbeats 4000000 in
theorem sound_C (c : Dev nD) (t : Fin cfg0.N) (h1 : t.val % 76 = 75) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 76 := lt_of_lt_of_eq t.isLt N_0
  rw [leaves_0 m c t, leaves_1 m c t, leaves_2 m c t, leaves_3 m c t, leaves_4 m c t, leaves_5 m c t, leaves_6 m c t, leaves_7 m c t, leaves_8 m c t, leaves_9 m c t]
  have hz : t.val ≠ 0 := by omega
  have hf := notFirst_of_pos t hz
  have hl : condLast (grid0.coords t) := (hcondLast t).mpr h1
  rw [leavesLast_10 m c t hl, leavesLast_11 m c t hl, leavesLast_12 m c t hl, leavesLast_13 m c t hl]
  rw [PhiS_castSucc m c t, PhiS_pos m c _ _ hz]
  rw [scrAt_C m c t hz hf h1, outAt_C m c t hf h1]
  unfold soutsC outsC sout_C_0 sout_C_1 sout_C_2 sout_C_3 out_C_10 out_C_11 out_C_12 out_C_13; (try dsimp only)
  iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC m c t hf hl _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, ⟨%es0, HS0⟩, ⟨%es1, HS1⟩, ⟨%es2, HS2⟩, ⟨%es3, HS3⟩⟩
  isplitl [HS0 HS1 HS2 HS3]
  ·
    isplitl [HS0]
    · unfold owns; iexists _; isplitr
      swap; · iexact HS0
      ipureintro; exact View.read_writes_of_cover _ _ _ _ _ (scover_C_0 m c t _ _ _ _ _ _)
    isplitl [HS1]
    · unfold owns; iexists _; isplitr
      swap; · iexact HS1
      ipureintro; exact View.read_writes_of_cover _ _ _ _ _ (scover_C_1 m c t _ _ _ _ _ _)
    isplitl [HS2]
    · unfold owns; iexists _; isplitr
      swap; · iexact HS2
      ipureintro; exact View.read_writes_of_cover _ _ _ _ _ (scover_C_2 m c t _ _ _ _ _ _)
    unfold owns; iexists _; isplitr
    swap; · iexact HS3
    ipureintro; exact View.read_writes_of_cover _ _ _ _ _ (scover_C_3 m c t _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover_C_10 m c t _ _ _ _ _ _)
  isplitl [H11]
  · unfold owns; iexists _; isplitr
    swap; · iexact H11
    ipureintro; exact View.read_writes_of_cover _ _ _ _ _ (cover_C_11 m c t _ _ _ _ _ _)
  isplitl [H12]
  · unfold owns; iexists _; isplitr
    swap; · iexact H12
    ipureintro; exact View.read_writes_of_cover _ _ _ _ _ (cover_C_12 m c t _ _ _ _ _ _)
  unfold owns; iexists _; isplitr
  swap; · iexact H13
  ipureintro; exact View.read_writes_of_cover _ _ _ _ _ (cover_C_13 m c t _ _ _ _ _ _)

set_option maxHeartbeats 4000000 in
theorem sound_A (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 76 := lt_of_lt_of_eq t.isLt N_0
  rw [leaves_0 m c t, leaves_1 m c t, leaves_2 m c t, leaves_3 m c t, leaves_4 m c t, leaves_5 m c t, leaves_6 m c t, leaves_7 m c t, leaves_8 m c t, leaves_9 m c t]
  have h1 : ¬t.val % 76 = 75 := by omega
  have hf := first_of_zero t hz
  have hl := notLast_of t h1
  rw [Dat.leavesExact_idle (dats m 0 c) 10 t (idleAt_10 t hl) (noFlush_10 t hl)]
  rw [Dat.leavesExact_idle (dats m 0 c) 11 t (idleAt_11 t hl) (noFlush_11 t hl)]
  rw [Dat.leavesExact_idle (dats m 0 c) 12 t (idleAt_12 t hl) (noFlush_12 t hl)]
  rw [Dat.leavesExact_idle (dats m 0 c) 13 t (idleAt_13 t hl) (noFlush_13 t hl)]
  rw [PhiS_castSucc m c t, PhiS_zero m c _ _ hz, scoped_eq]
  rw [scrAt_A m c t hz hf hl]
  unfold soutsA sout_A_0 sout_A_1 sout_A_2 sout_A_3; (try dsimp only)
  iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runA m c t hf hl).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, ⟨%e0, HS0⟩, ⟨%e1, HS1⟩, ⟨%e2, HS2⟩, ⟨%e3, HS3⟩⟩
  isplitl [HS0 HS1 HS2 HS3]
  ·
    isplitl [HS0]
    · unfold owns; iexists _; isplitr
      swap; · iexact HS0
      ipureintro; exact View.read_writes_of_cover _ _ _ _ _ (scover_A_0 m c t _ _)
    isplitl [HS1]
    · unfold owns; iexists _; isplitr
      swap; · iexact HS1
      ipureintro; exact View.read_writes_of_cover _ _ _ _ _ (scover_A_1 m c t _ _)
    isplitl [HS2]
    · unfold owns; iexists _; isplitr
      swap; · iexact HS2
      ipureintro; exact View.read_writes_of_cover _ _ _ _ _ (scover_A_2 m c t _ _)
    unfold owns; iexists _; isplitr
    swap; · iexact HS3
    ipureintro; exact View.read_writes_of_cover _ _ _ _ _ (scover_A_3 m c t _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

set_option maxHeartbeats 4000000 in
theorem sound_B (c : Dev nD) (t : Fin cfg0.N) (hz : t.val ≠ 0) (h1 : ¬t.val % 76 = 75) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 76 := lt_of_lt_of_eq t.isLt N_0
  rw [leaves_0 m c t, leaves_1 m c t, leaves_2 m c t, leaves_3 m c t, leaves_4 m c t, leaves_5 m c t, leaves_6 m c t, leaves_7 m c t, leaves_8 m c t, leaves_9 m c t]
  have hf := notFirst_of_pos t hz
  have hl := notLast_of t h1
  rw [Dat.leavesExact_idle (dats m 0 c) 10 t (idleAt_10 t hl) (noFlush_10 t hl)]
  rw [Dat.leavesExact_idle (dats m 0 c) 11 t (idleAt_11 t hl) (noFlush_11 t hl)]
  rw [Dat.leavesExact_idle (dats m 0 c) 12 t (idleAt_12 t hl) (noFlush_12 t hl)]
  rw [Dat.leavesExact_idle (dats m 0 c) 13 t (idleAt_13 t hl) (noFlush_13 t hl)]
  rw [PhiS_castSucc m c t, PhiS_pos m c _ _ hz]
  rw [scrAt_B m c t hz hf h1]
  unfold soutsB sout_B_0 sout_B_1 sout_B_2 sout_B_3; (try dsimp only)
  iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB m c t hf hl _ _ _ _).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, ⟨%e0, HS0⟩, ⟨%e1, HS1⟩, ⟨%e2, HS2⟩, ⟨%e3, HS3⟩⟩
  isplitl [HS0 HS1 HS2 HS3]
  ·
    isplitl [HS0]
    · unfold owns; iexists _; isplitr
      swap; · iexact HS0
      ipureintro; exact View.read_writes_of_cover _ _ _ _ _ (scover_B_0 m c t _ _ _ _ _ _)
    isplitl [HS1]
    · unfold owns; iexists _; isplitr
      swap; · iexact HS1
      ipureintro; exact View.read_writes_of_cover _ _ _ _ _ (scover_B_1 m c t _ _ _ _ _ _)
    isplitl [HS2]
    · unfold owns; iexists _; isplitr
      swap; · iexact HS2
      ipureintro; exact View.read_writes_of_cover _ _ _ _ _ (scover_B_2 m c t _ _ _ _ _ _)
    unfold owns; iexists _; isplitr
    swap; · iexact HS3
    ipureintro; exact View.read_writes_of_cover _ _ _ _ _ (scover_B_3 m c t _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

theorem sound_body (c : Dev nD) (t : Fin cfg0.N) :
    bodyPre m c t ⊢ wp frame (wpE (defs₀ (F := F)) Variants.none c none) Set.univ (bodyAt0 t) (fun _ => bodyPost m c t) := by
  by_cases h1 : t.val % 76 = 75
  · exact sound_C m c t h1
  · by_cases hz : t.val = 0
    · exact sound_A m c t hz
    · exact sound_B m c t hz h1

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIArrays.lean ====
import proofs.«403124_j5119601017346_4_alg».proof.Proof.KIFrame
import Idealize.ShloMosaic.Lib.Pipeline.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0_0) ↦{fullShare} W main_v0_0) ∗ (((c : Thread nD τ).loc main_v0_1) ↦{fullShare} W main_v0_1)
          ∗ (((c : Thread nD τ).loc main_v0_2) ↦{fullShare} W main_v0_2) ∗ (((c : Thread nD τ).loc main_v0_3) ↦{fullShare} W main_v0_3)) := by
  unfold Pipeline.arrBufs
  exact bigSep_eq_bigSepL_of_eq [main_arg0, main_arg1, main_arg2, main_arg3, main_v0_0, main_v0_1, main_v0_2, main_v0_3] (by decide) (by decide) _

theorem arrays_univ (c : Dev nD) (G : (w : Fin cfg0.W) → Buf (Elt F) ((cfg0.win w).arr.view.loc (c : Thread nD τ))) :
    (dats m 0 c).arrays G
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

def inArrays (c : Dev nD) (G : (w : Fin cfg0.W) → Buf (Elt F) ((cfg0.win w).arr.view.loc (c : Thread nD τ))) : sProp 𝕄 :=
  iprop((((c : Thread nD τ).loc main_arg0) ↦{fullShare.left} G 0) ∗ (((c : Thread nD τ).loc main_arg0) ↦{fullShare.right.left} G 1)
      ∗ (((c : Thread nD τ).loc main_arg0) ↦{fullShare.right.right} G 2)
      ∗ (((c : Thread nD τ).loc main_arg1) ↦{fullShare.left} G 3) ∗ (((c : Thread nD τ).loc main_arg1) ↦{fullShare.right.left} G 4)
      ∗ (((c : Thread nD τ).loc main_arg1) ↦{fullShare.right.right} G 5)
      ∗ (((c : Thread nD τ).loc main_arg2) ↦{fullShare} G 6)
      ∗ (((c : Thread nD τ).loc main_arg3) ↦{fullShare.left} G 7) ∗ (((c : Thread nD τ).loc main_arg3) ↦{fullShare.right.left} G 8)
      ∗ (((c : Thread nD τ).loc main_arg3) ↦{fullShare.right.right} G 9))

theorem arrays_chain (c : Dev nD) (G : (w : Fin cfg0.W) → Buf (Elt F) ((cfg0.win w).arr.view.loc (c : Thread nD τ))) :
    (dats m 0 c).arrays G
      = iprop((((c : Thread nD τ).loc main_arg0) ↦{fullShare.left} G 0) ∗ (((c : Thread nD τ).loc main_arg0) ↦{fullShare.right.left} G 1)
          ∗ (((c : Thread nD τ).loc main_arg0) ↦{fullShare.right.right} G 2)
          ∗ (((c : Thread nD τ).loc main_arg1) ↦{fullShare.left} G 3) ∗ (((c : Thread nD τ).loc main_arg1) ↦{fullShare.right.left} G 4)
          ∗ (((c : Thread nD τ).loc main_arg1) ↦{fullShare.right.right} G 5)
          ∗ (((c : Thread nD τ).loc main_arg2) ↦{fullShare} G 6)
          ∗ (((c : Thread nD τ).loc main_arg3) ↦{fullShare.left} G 7) ∗ (((c : Thread nD τ).loc main_arg3) ↦{fullShare.right.left} G 8)
          ∗ (((c : Thread nD τ).loc main_arg3) ↦{fullShare.right.right} G 9)
          ∗ (((c : Thread nD τ).loc main_v0_0) ↦{fullShare} G 10) ∗ (((c : Thread nD τ).loc main_v0_1) ↦{fullShare} G 11)
          ∗ (((c : Thread nD τ).loc main_v0_2) ↦{fullShare} G 12) ∗ (((c : Thread nD τ).loc main_v0_3) ↦{fullShare} G 13)) := by
  rw [arrays_univ, bigSep_W0]
  rfl

theorem split3 {ℓ : Loc nD τ sig} (f : Buf (Elt F) ℓ) :
    ((ℓ ↦{fullShare} f) : sProp 𝕄)
      ⊢ iprop((ℓ ↦{fullShare.left} f) ∗ (ℓ ↦{fullShare.right.left} f) ∗ (ℓ ↦{fullShare.right.right} f)) := by
  iintro H
  ihave H := (pointsTo_share (PosShare.mem_left_op_right fullShare)).1 $$ H
  icases H with ⟨H1, H23⟩
  ihave H23 := (pointsTo_share (PosShare.mem_left_op_right fullShare.right)).1 $$ H23
  icases H23 with ⟨H2, H3⟩
  isplitl [H1]; · iexact H1
  isplitl [H2]; · iexact H2
  iexact H3

theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [show ((dats m 0 c).arrAt · 0) = fun w => V m c (Pipeline.arrRef spec0 w) from funext fun w => A_eq m c w]
  rw [arrBufs0_eq, arrays_chain]
  iintro ⟨H0, H1, H2, H3, H10, H11, H12, H13⟩
  ihave H0 := split3 (V m c main_arg0) $$ H0
  icases H0 with ⟨A0, A1, A2⟩
  ihave H1 := split3 (V m c main_arg1) $$ H1
  icases H1 with ⟨A3, A4, A5⟩
  ihave H3 := split3 (V m c main_arg3) $$ H3
  icases H3 with ⟨A7, A8, A9⟩
  isplitl [A0]; · iexact A0
  isplitl [A1]; · iexact A1
  isplitl [A2]; · iexact A2
  isplitl [A3]; · iexact A3
  isplitl [A4]; · iexact A4
  isplitl [A5]; · iexact A5
  isplitl [H2]; · iexact H2
  isplitl [A7]; · iexact A7
  isplitl [A8]; · iexact A8
  isplitl [A9]; · iexact A9
  isplitl [H10]; · iexact H10
  isplitl [H11]; · iexact H11
  isplitl [H12]; · iexact H12
  iexact H13

theorem arrays_exit (c : Dev nD) (G : (w : Fin cfg0.W) → Buf (Elt F) ((cfg0.win w).arr.view.loc (c : Thread nD τ))) :
    (dats m 0 c).arrays G
      ⊢ iprop(inArrays c G ∗ (((c : Thread nD τ).loc main_v0_0) ↦{fullShare} G 10) ∗ (((c : Thread nD τ).loc main_v0_1) ↦{fullShare} G 11)
          ∗ (((c : Thread nD τ).loc main_v0_2) ↦{fullShare} G 12) ∗ (((c : Thread nD τ).loc main_v0_3) ↦{fullShare} G 13)) := by
  rw [arrays_chain]; unfold inArrays
  iintro ⟨A0, A1, A2, A3, A4, A5, A6, A7, A8, A9, H10, H11, H12, H13⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [H10]; · iexact H10
  isplitl [H11]; · iexact H11
  isplitl [H12]; · iexact H12
  iexact H13

theorem inArrays_read (c : Dev nD) (G : (w : Fin cfg0.W) → Buf (Elt F) ((cfg0.win w).arr.view.loc (c : Thread nD τ)))
    (s' : Phys nD τ sig (Elt F)) :
    iprop(inArrays (F := F) c G ∗ SI s')
      ⊢ (iprop(⌜∀ w : Fin cfg0.W, w.val < 10 → s'.mem.mem ((cfg0.win w).arr.view.loc (c : Thread nD τ)) = G w⌝ ∗ SI s') : sProp 𝕄) := by
  unfold inArrays
  iintro ⟨⟨A0, A1, A2, A3, A4, A5, A6, A7, A8, A9⟩, HSI⟩
  icombine HSI A0 gives %h0
  icombine HSI A1 gives %h1
  icombine HSI A2 gives %h2
  icombine HSI A3 gives %h3
  icombine HSI A4 gives %h4
  icombine HSI A5 gives %h5
  icombine HSI A6 gives %h6
  icombine HSI A7 gives %h7
  icombine HSI A8 gives %h8
  icombine HSI A9 gives %h9
  isplitr
  · ipureintro
    intro w hw
    match w, hw with
    | ⟨0, _⟩, _ => exact Buf.eq_of_forall_mem_univ h0
    | ⟨1, _⟩, _ => exact Buf.eq_of_forall_mem_univ h1
    | ⟨2, _⟩, _ => exact Buf.eq_of_forall_mem_univ h2
    | ⟨3, _⟩, _ => exact Buf.eq_of_forall_mem_univ h3
    | ⟨4, _⟩, _ => exact Buf.eq_of_forall_mem_univ h4
    | ⟨5, _⟩, _ => exact Buf.eq_of_forall_mem_univ h5
    | ⟨6, _⟩, _ => exact Buf.eq_of_forall_mem_univ h6
    | ⟨7, _⟩, _ => exact Buf.eq_of_forall_mem_univ h7
    | ⟨8, _⟩, _ => exact Buf.eq_of_forall_mem_univ h8
    | ⟨9, _⟩, _ => exact Buf.eq_of_forall_mem_univ h9
    | ⟨n + 10, _⟩, hw => exact absurd hw (by simp)
  iexact HSI

end Cert.KernelIdeal.Hand

end
-- ==== Proof.KITail.lean ====
import proofs.«403124_j5119601017346_4_alg».proof.Proof.KIArrays
import Idealize.ShloMosaic.Lib.Pipeline.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev EP : Emb (UR sig nD τ) (MT nD τ sig Unit (Elt F) ℕ (UR sig nD τ) ℕ) := emb₁

abbrev 𝒱₀ : Variants := Variants.none

abbrev Lv : GSem nD τ sig → Finset Unit := fun _ => ∅
abbrev lv : GSem nD τ sig → Unit → ℕ := fun _ _ => 0

abbrev adm : (p : Fin 1) → (pcfgs (F := F) p).Adm := fun p => (cfgs p).toPCfg_adm

abbrev Rowes (c : Dev nD) : sProp 𝕄 := iprop(∃ W, owes (c : Thread nD τ) (0 : CellTallies nD τ sig Unit) W)

abbrev finA (c : Dev nD) (w : Fin cfg0.W) : Buf (Elt F) ((cfg0.win w).arr.view.loc (c : Thread nD τ)) := (dats m 0 c).arrAt w cfg0.N

def Vt (c : Dev nD) : Valuation τ sig (Elt F) :=
  Function.update (Function.update (Function.update (Function.update (fun b => m (c, b))
    (Proc.devRef .tc main_v0_0) (finA m c 10)) (Proc.devRef .tc main_v0_1) (finA m c 11)) (Proc.devRef .tc main_v0_2) (finA m c 12))
    (Proc.devRef .tc main_v0_3) (finA m c 13)

theorem Vt_out0 (c : Dev nD) : Vt m c (Proc.devRef .tc main_v0_0) = finA m c 10 := by
  unfold Vt
  rw [Function.update_of_ne (StableHlo.devRef_ne_of_ne (by decide)), Function.update_of_ne (StableHlo.devRef_ne_of_ne (by decide)),
    Function.update_of_ne (StableHlo.devRef_ne_of_ne (by decide)), Function.update_self]
theorem Vt_out1 (c : Dev nD) : Vt m c (Proc.devRef .tc main_v0_1) = finA m c 11 := by
  unfold Vt
  rw [Function.update_of_ne (StableHlo.devRef_ne_of_ne (by decide)), Function.update_of_ne (StableHlo.devRef_ne_of_ne (by decide)),
    Function.update_self]
theorem Vt_out2 (c : Dev nD) : Vt m c (Proc.devRef .tc main_v0_2) = finA m c 12 := by
  unfold Vt
  rw [Function.update_of_ne (StableHlo.devRef_ne_of_ne (by decide)), Function.update_self]
theorem Vt_out3 (c : Dev nD) : Vt m c (Proc.devRef .tc main_v0_3) = finA m c 13 := by
  unfold Vt
  rw [Function.update_self]

theorem Vt_other (c : Dev nD) (b : DevRef τ sig) (h0 : b ≠ Proc.devRef .tc main_v0_0) (h1 : b ≠ Proc.devRef .tc main_v0_1)
    (h2 : b ≠ Proc.devRef .tc main_v0_2) (h3 : b ≠ Proc.devRef .tc main_v0_3) : Vt m c b = m (c, b) := by
  unfold Vt
  rw [Function.update_of_ne h3, Function.update_of_ne h2, Function.update_of_ne h1, Function.update_of_ne h0]

theorem Vt_ref (c : Dev nD) (r : Ref sig .tc) (h0 : r ≠ main_v0_0) (h1 : r ≠ main_v0_1) (h2 : r ≠ main_v0_2) (h3 : r ≠ main_v0_3) :
    Vt m c (Proc.devRef .tc r) = m (c, Proc.devRef .tc r) :=
  Vt_other m c _ (StableHlo.devRef_ne_of_ne h0) (StableHlo.devRef_ne_of_ne h1) (StableHlo.devRef_ne_of_ne h2) (StableHlo.devRef_ne_of_ne h3)

abbrev tailRefL : List (Ref sig .tc) :=
  [main_v0_0, main_v0_1, main_v0_2, main_v0_3, main_v1, main_v2, main_v3, main_v4, main_v5, main_v6, main_v7]

abbrev tailList : List (DevRef τ sig) :=
  [Proc.devRef .tc main_v0_0, Proc.devRef .tc main_v0_1, Proc.devRef .tc main_v0_2, Proc.devRef .tc main_v0_3,
   Proc.devRef .tc main_v1, Proc.devRef .tc main_v2, Proc.devRef .tc main_v3, Proc.devRef .tc main_v4,
   Proc.devRef .tc main_v5, Proc.devRef .tc main_v6, Proc.devRef .tc main_v7]
abbrev tailRefs : Finset (DevRef τ sig) := tailList.toFinset

theorem tailList_nodup : (tailList : List (DevRef τ sig)).Nodup :=
  (show (tailList : List (DevRef τ sig)) = tailRefL.map (Proc.devRef .tc) from rfl) ▸
    List.Nodup.map (Proc.devRef_injective _) (by decide)

theorem held_tail (c : Dev nD) (W : Valuation τ sig (Elt F)) :
    (StableHlo.held (c : Thread nD τ) tailRefs W : sProp 𝕄)
      = iprop((((c : Thread nD τ).1, Proc.devRef .tc main_v0_0) ↦{fullShare} W (Proc.devRef .tc main_v0_0))
          ∗ (((c : Thread nD τ).1, Proc.devRef .tc main_v0_1) ↦{fullShare} W (Proc.devRef .tc main_v0_1))
          ∗ (((c : Thread nD τ).1, Proc.devRef .tc main_v0_2) ↦{fullShare} W (Proc.devRef .tc main_v0_2))
          ∗ (((c : Thread nD τ).1, Proc.devRef .tc main_v0_3) ↦{fullShare} W (Proc.devRef .tc main_v0_3))
          ∗ (((c : Thread nD τ).1, Proc.devRef .tc main_v1) ↦{fullShare} W (Proc.devRef .tc main_v1))
          ∗ (((c : Thread nD τ).1, Proc.devRef .tc main_v2) ↦{fullShare} W (Proc.devRef .tc main_v2))
          ∗ (((c : Thread nD τ).1, Proc.devRef .tc main_v3) ↦{fullShare} W (Proc.devRef .tc main_v3))
          ∗ (((c : Thread nD τ).1, Proc.devRef .tc main_v4) ↦{fullShare} W (Proc.devRef .tc main_v4))
          ∗ (((c : Thread nD τ).1, Proc.devRef .tc main_v5) ↦{fullShare} W (Proc.devRef .tc main_v5))
          ∗ (((c : Thread nD τ).1, Proc.devRef .tc main_v6) ↦{fullShare} W (Proc.devRef .tc main_v6))
          ∗ (((c : Thread nD τ).1, Proc.devRef .tc main_v7) ↦{fullShare} W (Proc.devRef .tc main_v7))) := by
  unfold StableHlo.held; exact bigSep_eq_bigSepL tailList tailList_nodup _

theorem tail_sub : ∀ op ∈ (hostOps1 : List (HloOp τ sig (Elt F))), op.bufs ⊆ tailRefs := by
  intro op hop
  simp only [List.mem_cons, List.mem_nil_iff, or_false] at hop
  rcases hop with rfl | rfl | rfl | rfl | rfl | rfl | rfl
  all_goals
    first
      | rw [StableHlo.reshape_bufs]
      | rw [StableHlo.binary_bufs]
  all_goals
    intro b hb
    simp only [Finset.mem_insert, Finset.mem_singleton] at hb
    rcases hb with rfl | rfl | rfl <;>
      simp only [List.mem_toFinset, List.mem_cons, List.mem_nil_iff, or_false, true_or, or_true]

theorem tail_fresh : ∀ op ∈ (hostOps1 : List (HloOp τ sig (Elt F))), op.fresh = ∅ := by
  intro op hop
  simp only [List.mem_cons, List.mem_nil_iff, or_false] at hop
  rcases hop with rfl | rfl | rfl | rfl | rfl | rfl | rfl <;> rfl

theorem exit_to_tail (c : Dev nD) :
    iprop((dats m 0 c).arrays (finA m c)
        ∗ Pipeline.unscopedRest (Ix := Unit) (Name := ℕ) (U := UR sig nD τ) (Lvl := ℕ) spec0 c (V m c))
      ⊢ (iprop(StableHlo.held (c : Thread nD τ) tailRefs (Vt m c) ∗ inArrays c (finA m c)) : sProp 𝕄) := by
  rw [unscopedRest0_eq, held_tail]
  rw [Vt_out0, Vt_out1, Vt_out2, Vt_out3,
    Vt_ref m c main_v1 (by decide) (by decide) (by decide) (by decide), Vt_ref m c main_v2 (by decide) (by decide) (by decide) (by decide),
    Vt_ref m c main_v3 (by decide) (by decide) (by decide) (by decide), Vt_ref m c main_v4 (by decide) (by decide) (by decide) (by decide),
    Vt_ref m c main_v5 (by decide) (by decide) (by decide) (by decide), Vt_ref m c main_v6 (by decide) (by decide) (by decide) (by decide),
    Vt_ref m c main_v7 (by decide) (by decide) (by decide) (by decide)]
  iintro ⟨Ha, R1, R2, R3, R4, R5, R6, R7⟩
  ihave Ha := (arrays_exit m c (finA m c)) $$ Ha
  icases Ha with ⟨Hin, O0, O1, O2, O3⟩
  isplitr [Hin]
  · isplitl [O0]; · iexact O0
    isplitl [O1]; · iexact O1
    isplitl [O2]; · iexact O2
    isplitl [O3]; · iexact O3
    isplitl [R1]; · iexact R1
    isplitl [R2]; · iexact R2
    isplitl [R3]; · iexact R3
    isplitl [R4]; · iexact R4
    isplitl [R5]; · iexact R5
    isplitl [R6]; · iexact R6
    iexact R7
  iexact Hin

theorem tail_read (c : Dev nD) (W : Valuation τ sig (Elt F)) (s' : Phys nD τ sig (Elt F)) :
    iprop(StableHlo.held (c : Thread nD τ) tailRefs W ∗ SI s')
      ⊢ (iprop(⌜s'.mem.mem ((c : Thread nD τ).loc main_v7) = W (Proc.devRef .tc main_v7)
            ∧ s'.mem.mem ((c : Thread nD τ).loc main_v1) = W (Proc.devRef .tc main_v1)
            ∧ s'.mem.mem ((c : Thread nD τ).loc main_v2) = W (Proc.devRef .tc main_v2)
            ∧ s'.mem.mem ((c : Thread nD τ).loc main_v3) = W (Proc.devRef .tc main_v3)
            ∧ s'.mem.mem ((c : Thread nD τ).loc main_v4) = W (Proc.devRef .tc main_v4)⌝ ∗ SI s') : sProp 𝕄) := by
  rw [held_tail]
  iintro ⟨⟨O0, O1, O2, O3, R1, R2, R3, R4, R5, R6, R7⟩, HSI⟩
  icombine HSI R7 gives %h7
  icombine HSI R1 gives %h1
  icombine HSI R2 gives %h2
  icombine HSI R3 gives %h3
  icombine HSI R4 gives %h4
  isplitr
  · ipureintro
    exact ⟨Buf.eq_of_forall_mem_univ h7, Buf.eq_of_forall_mem_univ h1, Buf.eq_of_forall_mem_univ h2, Buf.eq_of_forall_mem_univ h3,
      Buf.eq_of_forall_mem_univ h4⟩
  iexact HSI

abbrev scalarOf (x : (⟨S1x1, .f32⟩ : BufTy).Contents (Elt F)) : (⟨S_, .f32⟩ : BufTy).Contents (Elt F) :=
  shapeCast S_ x Gen.shapeCasts_S1x1_S_

theorem tail_v1 (c : Dev nD) :
    StableHlo.after hostOps1 (Vt m c) (Proc.devRef .tc main_v1) = scalarOf (finA m c 10) := by
  after_results
  rw [Vt_out0]
  rfl

theorem tail_v2 (c : Dev nD) :
    StableHlo.after hostOps1 (Vt m c) (Proc.devRef .tc main_v2) = scalarOf (finA m c 11) := by
  after_results
  rw [Vt_out1]
  rfl

theorem tail_v3 (c : Dev nD) :
    StableHlo.after hostOps1 (Vt m c) (Proc.devRef .tc main_v3) = scalarOf (finA m c 12) := by
  after_results
  rw [Vt_out2]
  rfl

theorem tail_v4 (c : Dev nD) :
    StableHlo.after hostOps1 (Vt m c) (Proc.devRef .tc main_v4) = scalarOf (finA m c 13) := by
  after_results
  rw [Vt_out3]
  rfl

theorem tail_v7 (c : Dev nD) :
    StableHlo.after hostOps1 (Vt m c) (Proc.devRef .tc main_v7)
      = addf (addf (addf (scalarOf (finA m c 10)) (scalarOf (finA m c 11))) (scalarOf (finA m c 12))) (scalarOf (finA m c 13)) := by
  after_results
  rw [Vt_out0, Vt_out1, Vt_out2, Vt_out3]
  rfl

end Cert.KernelIdeal.Hand

end
-- ==== Proof.KILaunch.lean ====
import proofs.«403124_j5119601017346_4_alg».proof.Proof.KIBody
import proofs.«403124_j5119601017346_4_alg».proof.Proof.KITail
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def seg1 : Pipeline.HostSeg (Name := ℕ) (U := UR sig nD τ) (pcfgs (F := F)) defs₀ 𝒱₀ Lv lv :=
  Pipeline.HostSeg.ofOps _ _ _ _ _ tailRefs hostOps1 tail_sub tail_fresh (Vt m)
    (fun c => iprop(inArrays c (finA m c) ∗ Rowes c))

set_option backward.isDefEq.respectTransparency.types false in
def reg0 : Pipeline.RegionSeg (pcfgs (F := F)) adm (dats m) () defs₀ 𝒱₀ Lv lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lv lv 0 fun _ _ => rfl
  pre c := iprop(unscopedBufs c (V m c) ∗ Rowes c)
  post c := iprop(StableHlo.held (c : Thread nD τ) tailRefs (Vt m c) ∗ (inArrays c (finA m c) ∗ Rowes c))
  X _ := iprop(emp)
  Y _ := iprop(emp)
  Z c := Pipeline.unscopedRest (Ix := Unit) (Name := ℕ) (U := UR sig nD τ) (Lvl := ℕ) spec0 c (V m c)
  hentry c := by
    rw [Pipeline.unscopedBufs_split₀ cfgs 0 winFacts₀0.arr_unscoped c (V m c)]
    iintro ⟨⟨⟨Ha, Hrest⟩, HO⟩, -, -⟩
    imodintro
    isplitl [Ha]; · iapply (arrays_entry m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_zero]
    iintro ⟨-, -, Hr⟩; iexact Hr
  hout c := by
    refine (Phi_last m c).trans ?_
    rw [Pipeline.ownSems0_none]
    iintro Hr
    isplitr; · iempintro
    isplitr; · iempintro
    iexact Hr
  hexit c := by
    iintro ⟨Ha, HO, -, HZ⟩
    imodintro
    ihave H := (exit_to_tail m c) $$ [Ha HZ]
    · isplitl [Ha] <;> iassumption
    icases H with ⟨Hh, Hin⟩
    isplitl [Hh]; · iexact Hh
    isplitl [Hin]; · iexact Hin
    unfold Pipeline.Dat.owesAt Pipeline.owesWithin
    icases HO with ⟨%W, -, HO⟩; iexists W; iexact HO

abbrev segs : List (Pipeline.Seg (pcfgs (F := F)) adm (dats m) () defs₀ 𝒱₀ Lv lv) := [.region (reg0 m), .host (seg1 m)]

abbrev Vend (c : Dev nD) : Valuation τ sig (Elt F) := StableHlo.after hostOps1 (Vt m c)

def QC : PUnit × MemSt nD τ sig (Elt F) → Prop := fun r =>
  ∀ c : Dev nD,
    r.2.mem ((c : Thread nD τ).loc main_v7) = Vend m c (Proc.devRef .tc main_v7)
    ∧ r.2.mem ((c : Thread nD τ).loc main_v1) = Vend m c (Proc.devRef .tc main_v1)
    ∧ r.2.mem ((c : Thread nD τ).loc main_v2) = Vend m c (Proc.devRef .tc main_v2)
    ∧ r.2.mem ((c : Thread nD τ).loc main_v3) = Vend m c (Proc.devRef .tc main_v3)
    ∧ r.2.mem ((c : Thread nD τ).loc main_v4) = Vend m c (Proc.devRef .tc main_v4)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

theorem finA_in (c : Dev nD) (w : Fin cfg0.W) (hw : (cfg0.win w).isOut = false) : finA m c w = V m c (Pipeline.arrRef spec0 w) :=
  ((dats m 0 c).arrAt_in w hw _).trans (A_eq m c w)

set_option backward.isDefEq.respectTransparency.types false in
theorem run_main : θ_run defs (onTc (τ := τ) (main (F := F))) ⟨m, fun _ => 0, ρ⟩ (QC m) :=
  Pipeline.θ_run_regions_kit (pcfgs (F := F)) adm (dats m) () cellOf_inj EP defs₀ 𝒱₀ Lv lv m ρ main (segs m)
    (fun c Q => by rw [main_segs adm (dats m) () 𝒱₀ Lv lv (seg1 m) (reg0 m) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ Rowes c))
    (Tₙ := fun c => iprop(StableHlo.held (c : Thread nD τ) tailRefs (Vend m c) ∗ inArrays c (finA m c)))
    (hch := ⟨fun _ => .rfl, fun _ => .rfl, fun c => by
      show iprop(StableHlo.held (c : Thread nD τ) tailRefs (Vend m c) ∗ (inArrays c (finA m c) ∗ Rowes c))
        ⊢ iprop((StableHlo.held (c : Thread nD τ) tailRefs (Vend m c) ∗ inArrays c (finA m c))
            ∗ ∃ W, owes (c : Thread nD τ) (0 : CellTallies nD τ sig Unit) W)
      iintro ⟨Hh, Hin, HR⟩
      isplitr [HR]
      · isplitl [Hh] <;> iassumption
      · iexact HR⟩)
    (hinit := by
      refine Pipeline.initEach Lv lv fun c => ?_
      iintro ⟨⟨Hh, -, HO, -, -, -⟩, -⟩
      imodintro
      isplitl [Hh]; · iexact Hh
      iexists ∅; iexact HO)
    (QY := fun c s =>
      s.mem ((c : Thread nD τ).loc main_v7) = Vend m c (Proc.devRef .tc main_v7)
      ∧ s.mem ((c : Thread nD τ).loc main_v1) = Vend m c (Proc.devRef .tc main_v1)
      ∧ s.mem ((c : Thread nD τ).loc main_v2) = Vend m c (Proc.devRef .tc main_v2)
      ∧ s.mem ((c : Thread nD τ).loc main_v3) = Vend m c (Proc.devRef .tc main_v3)
      ∧ s.mem ((c : Thread nD τ).loc main_v4) = Vend m c (Proc.devRef .tc main_v4)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3))
    (hfin := fun c s' => by
      iintro ⟨⟨Hh, Hin⟩, HSI⟩
      ihave Hr := (tail_read c (Vend m c) s') $$ [Hh HSI]
      · isplitl [Hh] <;> iassumption
      icases Hr with ⟨%hr, HSI⟩
      ihave Hi := (inArrays_read c (finA m c) s') $$ [Hin HSI]
      · isplitl [Hin] <;> iassumption
      icases Hi with ⟨%hi, HSI⟩
      imodintro
      isplitr
      · ipureintro
        exact ⟨hr.1, hr.2.1, hr.2.2.1, hr.2.2.2.1, hr.2.2.2.2,
          (hi 0 (by decide)).trans (finA_in m c 0 rfl), (hi 3 (by decide)).trans (finA_in m c 3 rfl),
          (hi 6 (by decide)).trans (finA_in m c 6 rfl), (hi 7 (by decide)).trans (finA_in m c 7 rfl)⟩
      iexact HSI)
    (hQ := fun _ h => h)

end Cert.KernelIdeal.Hand

end
-- ==== Proof.KPlane.lean ====
import proofs.«403124_j5119601017346_4_alg».proof.Proof.Gen.KernelIdeal.Skeleton

noncomputable section

namespace Cert.KernelIdeal.Hand

open Idealize.ShloMosaic Cert.KernelIdeal Cert.KernelIdeal.Gen

variable {F : FTy → Type} [FloatOps F]

def planeSum (sq : FVec F S256x512 .f32) : FVec F S1x1 .f32 :=
  shapeCast S1x1
    (multiReduction .add [0] S1
      (shapeCast S256x1
        (multiReduction .add [1] S256 sq 0x00000000#32 reduces_S256x512_S256 (.inl rfl) rfl)
        shapeCasts_S256_S256x1)
      0x00000000#32 reduces_S256x1_S1 (.inl rfl) rfl)
    shapeCasts_S1_S1x1

def accum (sq : FVec F S256x512 .f32) (a : Vec F S1x1 .f32) : FVec F S1x1 .f32 :=
  shapeCast S1x1 (addf a (planeSum sq)) shapeCasts_S1x1_S1x1

def u2 (uc : Vec F S1x1x256x512 .f32) : FVec F S256x512 .f32 := k0_pay10 uc

def v2 (vc : Vec F S1x1x256x512 .f32) : FVec F S256x512 .f32 := k0_pay11 vc

def p2 (pc : Vec F S1x1x256x512 .f32) : FVec F S256x512 .f32 := k0_pay12 pc

def s2 (sc : Vec F S1x1x256x512 .f32) : FVec F S256x512 .f32 := k0_pay13 sc

def uc_e (uc : Vec F S1x1x256x512 .f32) : FVec F S256x512 .f32 := k0_pay14 uc

def uc_w (uc : Vec F S1x1x256x512 .f32) : FVec F S256x512 .f32 := k0_pay15 uc

def vc_n (vc : Vec F S1x1x256x512 .f32) : FVec F S256x512 .f32 := k0_pay16 vc

def v_prev0 (vc : Vec F S1x1x256x512 .f32) : FVec F S256x512 .f32 := k0_pay17 vc

def vc_s (vc : Vec F S1x1x256x512 .f32) : FVec F S256x512 .f32 := k0_pay18 (v2 vc) (v_prev0 vc)

def div (uc vc : Vec F S1x1x256x512 .f32) : FVec F S256x512 .f32 :=
  k0_pay19 (v2 vc) (uc_e uc) (uc_w uc) (vc_n vc) (v_prev0 vc)

def du_dt (up un : Vec F S1x1x256x512 .f32) : FVec F S256x512 .f32 := k0_pay21 un up

def dpx (pc : Vec F S1x1x256x512 .f32) : FVec F S256x512 .f32 := k0_pay22 (p2 pc)

def mE_u (uc : Vec F S1x1x256x512 .f32) : IVec S256x512 1 := k0_pay23 (uc_e uc)

def u_x15 (uc : Vec F S1x1x256x512 .f32) : FVec F S256x512 .f32 := k0_pay24 (u2 uc)

def uFe (uc : Vec F S1x1x256x512 .f32) : FVec F S256x512 .f32 := k0_pay25 (u2 uc) (mE_u uc) (u_x15 uc)

def uFw (uc : Vec F S1x1x256x512 .f32) : FVec F S256x512 .f32 := k0_pay26 (u2 uc) (uc_w uc)

def mN_u (vc : Vec F S1x1x256x512 .f32) : IVec S256x512 1 := k0_pay27 (vc_n vc)

def uFn_pos (uc : Vec F S1x1x256x512 .f32) : FVec F S256x512 .f32 := k0_pay28 (u2 uc)

def uFn_neg_a (uc : Vec F S1x1x256x512 .f32) : FVec F S256x512 .f32 := k0_pay29 (u2 uc)

def ru_head (up uc un vc pc : Vec F S1x1x256x512 .f32) : FVec F S256x512 .f32 :=
  k0_pay30 (u2 uc) (uc_e uc) (uc_w uc) (vc_n vc) (vc_s vc) (du_dt up un) (dpx pc)
    (uFe uc) (uFw uc) (mN_u vc) (uFn_pos uc) (uFn_neg_a uc) 254#32

def u_lapx (uc : Vec F S1x1x256x512 .f32) : FVec F S256x512 .f32 := k0_pay31 (u2 uc)

def u_next0 (uc : Vec F S1x1x256x512 .f32) : FVec F S256x512 .f32 := k0_pay32 (u2 uc)

def r1_of (w d h lx n : FVec F S256x512 .f32) (two : F .f32) : FVec F S256x512 .f32 :=
  have t1 : FVec F S256x512 .f32 := broadcast S256x512 two
  have t2 : FVec F S256x512 .f32 := mulf t1 w
  have t3 : FVec F S256x512 .f32 := subf n t2
  have t4 : FVec F S256x512 .f32 := dynamicRotate 0 1#32 none w rotates_S256x512_d0
  have t5 : FVec F S256x512 .f32 := addf t3 t4
  have c1 : F .f32 := Scalar.ofBits .f32 0x37800000#32
  have t6 : FVec F S256x512 .f32 := broadcast S256x512 c1
  have t7 : FVec F S256x512 .f32 := divf t5 t6
  have t8 : FVec F S256x512 .f32 := addf lx t7
  have c2 : F .f32 := Scalar.ofBits .f32 0x38D1B717#32
  have t9 : FVec F S256x512 .f32 := broadcast S256x512 c2
  have t10 : FVec F S256x512 .f32 := mulf t9 t8
  have t11 : FVec F S256x512 .f32 := subf h t10
  have t12 : FVec F S256x512 .f32 := mulf w d
  subf t11 t12

def dv_dt (vp vn : Vec F S1x1x256x512 .f32) : FVec F S256x512 .f32 := k0_pay34 vn vp

def dpy (pc : Vec F S1x1x256x512 .f32) : FVec F S256x512 .f32 := k0_pay35 (p2 pc)

def mE_v (uc : Vec F S1x1x256x512 .f32) : IVec S256x512 1 := k0_pay36 (uc_e uc)

def vFe (uc vc : Vec F S1x1x256x512 .f32) : FVec F S256x512 .f32 := k0_pay37 (v2 vc) (mE_v uc)

def vFw (uc vc : Vec F S1x1x256x512 .f32) : FVec F S256x512 .f32 := k0_pay38 (v2 vc) (uc_w uc)

def mN_v (vc : Vec F S1x1x256x512 .f32) : IVec S256x512 1 := k0_pay39 (vc_n vc)

def vFn_pos (vc : Vec F S1x1x256x512 .f32) : FVec F S256x512 .f32 := k0_pay40 (v2 vc)

def v_next0 (vc : Vec F S1x1x256x512 .f32) : FVec F S256x512 .f32 := k0_pay41 (v2 vc)

def rv_head (uc vp vc vn pc : Vec F S1x1x256x512 .f32) : FVec F S256x512 .f32 :=
  k0_pay42 (v2 vc) (uc_e uc) (uc_w uc) (vc_n vc) (vc_s vc) (dv_dt vp vn) (dpy pc)
    (vFe uc vc) (vFw uc vc) (mN_v vc) (vFn_pos vc) (v_next0 vc) (Scalar.ofBits .f32 0x3FC00000#32)

def v_lapx (vc : Vec F S1x1x256x512 .f32) : FVec F S256x512 .f32 := k0_pay43 (v2 vc)

def r2_of (w d h lx : FVec F S256x512 .f32) : FVec F S256x512 .f32 :=
  have t0 : FVec F S256x512 .f32 := dynamicRotate 0 255#32 none w rotates_S256x512_d0
  have c0 : F .f32 := Scalar.ofBits .f32 0x40000000#32
  have t1 : FVec F S256x512 .f32 := broadcast S256x512 c0
  have t2 : FVec F S256x512 .f32 := mulf t1 w
  have t3 : FVec F S256x512 .f32 := subf t0 t2
  have t4 : FVec F S256x512 .f32 := dynamicRotate 0 1#32 none w rotates_S256x512_d0
  have t5 : FVec F S256x512 .f32 := addf t3 t4
  have c1 : F .f32 := Scalar.ofBits .f32 0x37800000#32
  have t6 : FVec F S256x512 .f32 := broadcast S256x512 c1
  have t7 : FVec F S256x512 .f32 := divf t5 t6
  have t8 : FVec F S256x512 .f32 := addf lx t7
  have c2 : F .f32 := Scalar.ofBits .f32 0x38D1B717#32
  have t9 : FVec F S256x512 .f32 := broadcast S256x512 c2
  have t10 : FVec F S256x512 .f32 := mulf t9 t8
  have t11 : FVec F S256x512 .f32 := subf h t10
  have t12 : FVec F S256x512 .f32 := mulf w d
  subf t11 t12

def ds_dt (sp sn : Vec F S1x1x256x512 .f32) : FVec F S256x512 .f32 := k0_pay45 sn sp

def mE_s (uc : Vec F S1x1x256x512 .f32) : IVec S256x512 1 := k0_pay46 (uc_e uc)

def s_x15 (sc : Vec F S1x1x256x512 .f32) : FVec F S256x512 .f32 := k0_pay47 (s2 sc)

def s_prev1 (sc : Vec F S1x1x256x512 .f32) : FVec F S256x512 .f32 := k0_pay48 (s2 sc)

def sFe (uc sc : Vec F S1x1x256x512 .f32) : FVec F S256x512 .f32 := k0_pay49 (s2 sc) (mE_s uc) (s_x15 sc) (s_prev1 sc)

def sFw (uc sc : Vec F S1x1x256x512 .f32) : FVec F S256x512 .f32 := k0_pay50 (s2 sc) (uc_w uc)

def mN_s (vc : Vec F S1x1x256x512 .f32) : IVec S256x512 1 := k0_pay51 (vc_n vc)

def sFn_pos (sc : Vec F S1x1x256x512 .f32) : FVec F S256x512 .f32 := k0_pay52 (s2 sc)

def sFn_neg_a (sc : Vec F S1x1x256x512 .f32) : FVec F S256x512 .f32 := k0_pay53 (s2 sc)

def s_next0x2 (sc : Vec F S1x1x256x512 .f32) : FVec F S256x512 .f32 := k0_pay54 (s2 sc)

def rs_head (uc vc sp sc sn : Vec F S1x1x256x512 .f32) : FVec F S256x512 .f32 :=
  k0_pay55 (s2 sc) (uc_e uc) (uc_w uc) (vc_n vc) (vc_s vc) (ds_dt sp sn)
    (sFe uc sc) (sFw uc sc) (mN_s vc) (sFn_pos sc) (sFn_neg_a sc) (s_next0x2 sc)
    (Scalar.ofBits .f32 0x3F000000#32)

def s_lapx (sc : Vec F S1x1x256x512 .f32) : FVec F S256x512 .f32 := k0_pay56 (s2 sc)

def s_lapy_a (sc : Vec F S1x1x256x512 .f32) : FVec F S256x512 .f32 := k0_pay57 (s2 sc)

def r3_of (w d h lx ly : FVec F S256x512 .f32) : FVec F S256x512 .f32 :=
  have t4 : FVec F S256x512 .f32 := dynamicRotate 0 1#32 none w rotates_S256x512_d0
  have t5 : FVec F S256x512 .f32 := addf ly t4
  have c1 : F .f32 := Scalar.ofBits .f32 0x37800000#32
  have t6 : FVec F S256x512 .f32 := broadcast S256x512 c1
  have t7 : FVec F S256x512 .f32 := divf t5 t6
  have t8 : FVec F S256x512 .f32 := addf lx t7
  have c2 : F .f32 := Scalar.ofBits .f32 0x3A83126F#32
  have t9 : FVec F S256x512 .f32 := broadcast S256x512 c2
  have t10 : FVec F S256x512 .f32 := mulf t9 t8
  have t11 : FVec F S256x512 .f32 := subf h t10
  have t12 : FVec F S256x512 .f32 := mulf w d
  subf t11 t12

def r0 (uc vc : Vec F S1x1x256x512 .f32) : FVec F S256x512 .f32 := div uc vc

def r1 (up uc un vc pc : Vec F S1x1x256x512 .f32) : FVec F S256x512 .f32 :=
  r1_of (u2 uc) (div uc vc) (ru_head up uc un vc pc) (u_lapx uc) (u_next0 uc)
    (Scalar.ofBits .f32 0x40000000#32)

def r2 (uc vp vc vn pc : Vec F S1x1x256x512 .f32) : FVec F S256x512 .f32 :=
  r2_of (v2 vc) (div uc vc) (rv_head uc vp vc vn pc) (v_lapx vc)

def r3 (uc vc sp sc sn : Vec F S1x1x256x512 .f32) : FVec F S256x512 .f32 :=
  r3_of (s2 sc) (div uc vc) (rs_head uc vc sp sc sn) (s_lapx sc) (s_lapy_a sc)

def sq0 (uc vc : Vec F S1x1x256x512 .f32) : FVec F S256x512 .f32 := mulf (r0 uc vc) (r0 uc vc)

def sq1 (up uc un vc pc : Vec F S1x1x256x512 .f32) : FVec F S256x512 .f32 :=
  mulf (r1 up uc un vc pc) (r1 up uc un vc pc)

def sq2 (uc vp vc vn pc : Vec F S1x1x256x512 .f32) : FVec F S256x512 .f32 :=
  mulf (r2 uc vp vc vn pc) (r2 uc vp vc vn pc)

def sq3 (uc vc sp sc sn : Vec F S1x1x256x512 .f32) : FVec F S256x512 .f32 :=
  mulf (r3 uc vc sp sc sn) (r3 uc vc sp sc sn)

def acc0 (uc vc : Vec F S1x1x256x512 .f32) (a : Vec F S1x1 .f32) : FVec F S1x1 .f32 :=
  k0_pay20 (v2 vc) (uc_e uc) (uc_w uc) (vc_n vc) (v_prev0 vc) a

def acc1 (up uc un vc pc : Vec F S1x1x256x512 .f32) (a : Vec F S1x1 .f32) : FVec F S1x1 .f32 :=
  k0_pay33 (u2 uc) (div uc vc) (ru_head up uc un vc pc) (u_lapx uc) (u_next0 uc)
    (Scalar.ofBits .f32 0x40000000#32) a

def acc2 (uc vp vc vn pc : Vec F S1x1x256x512 .f32) (a : Vec F S1x1 .f32) : FVec F S1x1 .f32 :=
  k0_pay44 (v2 vc) (div uc vc) (rv_head uc vp vc vn pc) (v_lapx vc) a

def acc3 (uc vc sp sc sn : Vec F S1x1x256x512 .f32) (a : Vec F S1x1 .f32) : FVec F S1x1 .f32 :=
  k0_pay1 (s2 sc) (div uc vc) (rs_head uc vc sp sc sn) (s_lapx sc) (s_lapy_a sc) a

def zero16 : FVec F S1x1 .f32 := k0_pay6 (F := F)

def zero17 : FVec F S1x1 .f32 := k0_pay7 (F := F)

def zero18 : FVec F S1x1 .f32 := k0_pay8 (F := F)

def zero19 : FVec F S1x1 .f32 := k0_pay9 (F := F)

theorem zero16_eq : zero16 (F := F)
    = shapeCast S1x1 (broadcast S1x1 (Scalar.ofBits .f32 0x00000000#32 : F .f32)) shapeCasts_S1x1_S1x1 := rfl

theorem zero17_eq : zero17 (F := F)
    = shapeCast S1x1 (broadcast S1x1 (Scalar.ofBits .f32 0x00000000#32 : F .f32)) shapeCasts_S1x1_S1x1 := rfl

theorem zero18_eq : zero18 (F := F)
    = shapeCast S1x1 (broadcast S1x1 (Scalar.ofBits .f32 0x00000000#32 : F .f32)) shapeCasts_S1x1_S1x1 := rfl

theorem zero19_eq : zero19 (F := F)
    = shapeCast S1x1 (broadcast S1x1 (Scalar.ofBits .f32 0x00000000#32 : F .f32)) shapeCasts_S1x1_S1x1 := rfl

def out0 (a : Vec F S1x1 .f32) : FVec F S1x1 .f32 := k0_pay2 a

def out1 (a : Vec F S1x1 .f32) : FVec F S1x1 .f32 := k0_pay3 a

def out2 (a : Vec F S1x1 .f32) : FVec F S1x1 .f32 := k0_pay4 a

def out3 (a : Vec F S1x1 .f32) : FVec F S1x1 .f32 := k0_pay5 a

end Cert.KernelIdeal.Hand

end
-- ==== Proof.KIPieces.lean ====
import proofs.«403124_j5119601017346_4_alg».proof.Proof.KIFrame
import proofs.«403124_j5119601017346_4_alg».proof.Proof.KPlane
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat)

open Cert.KernelIdeal Cert.KernelIdeal.Gen

variable {F : FTy → Type} [FloatOps F]

variable (m : (ℓ : Loc nD τ sig) → Buf (Elt F) ℓ)

theorem hz2 : (![0, 0] : Fin 2 → Nat) = fun _ => 0 := funext fun a => by fin_cases a <;> rfl
theorem hz4 : (![0, 0, 0, 0] : Fin 4 → Nat) = fun _ => 0 := funext fun a => by fin_cases a <;> rfl

abbrev bUp (c : Dev nD) (t : Fin cfg0.N) : Vec F S1x1x256x512 .f32 := iblk m c 0 t

abbrev bUc (c : Dev nD) (t : Fin cfg0.N) : Vec F S1x1x256x512 .f32 := iblk m c 1 t

abbrev bUn (c : Dev nD) (t : Fin cfg0.N) : Vec F S1x1x256x512 .f32 := iblk m c 2 t

abbrev bVp (c : Dev nD) (t : Fin cfg0.N) : Vec F S1x1x256x512 .f32 := iblk m c 3 t

abbrev bVc (c : Dev nD) (t : Fin cfg0.N) : Vec F S1x1x256x512 .f32 := iblk m c 4 t

abbrev bVn (c : Dev nD) (t : Fin cfg0.N) : Vec F S1x1x256x512 .f32 := iblk m c 5 t

abbrev bPc (c : Dev nD) (t : Fin cfg0.N) : Vec F S1x1x256x512 .f32 := iblk m c 6 t

abbrev bSp (c : Dev nD) (t : Fin cfg0.N) : Vec F S1x1x256x512 .f32 := iblk m c 7 t

abbrev bSc (c : Dev nD) (t : Fin cfg0.N) : Vec F S1x1x256x512 .f32 := iblk m c 8 t

abbrev bSn (c : Dev nD) (t : Fin cfg0.N) : Vec F S1x1x256x512 .f32 := iblk m c 9 t

theorem sout_A_0_eq (c : Dev nD) (t : Fin cfg0.N) (h0 : condFirst (grid0.coords t)) (h1 : ¬condLast (grid0.coords t)) :
    sout_A_0 m c t h0 h1 = acc0 (bUc m c t) (bVc m c t) zero16 := by
  unfold sout_A_0
  rw [View.read_writes_eq_canon _ _ _ (scover_A_0 m c t h0 h1)]
  unfold runA kernelRun_A
  dsimp only
  sl_unfold_words
  rw [View.canon_cons_unit_zero (S := S1x1) hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem sout_A_1_eq (c : Dev nD) (t : Fin cfg0.N) (h0 : condFirst (grid0.coords t)) (h1 : ¬condLast (grid0.coords t)) :
    sout_A_1 m c t h0 h1 = acc1 (bUp m c t) (bUc m c t) (bUn m c t) (bVc m c t) (bPc m c t) zero17 := by
  unfold sout_A_1
  rw [View.read_writes_eq_canon _ _ _ (scover_A_1 m c t h0 h1)]
  unfold runA kernelRun_A
  dsimp only
  sl_unfold_words
  rw [View.canon_cons_unit_zero (S := S1x1) hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem sout_A_2_eq (c : Dev nD) (t : Fin cfg0.N) (h0 : condFirst (grid0.coords t)) (h1 : ¬condLast (grid0.coords t)) :
    sout_A_2 m c t h0 h1 = acc2 (bUc m c t) (bVp m c t) (bVc m c t) (bVn m c t) (bPc m c t) zero18 := by
  unfold sout_A_2
  rw [View.read_writes_eq_canon _ _ _ (scover_A_2 m c t h0 h1)]
  unfold runA kernelRun_A
  dsimp only
  sl_unfold_words
  rw [View.canon_cons_unit_zero (S := S1x1) hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem sout_A_3_eq (c : Dev nD) (t : Fin cfg0.N) (h0 : condFirst (grid0.coords t)) (h1 : ¬condLast (grid0.coords t)) :
    sout_A_3 m c t h0 h1 = acc3 (bUc m c t) (bVc m c t) (bSp m c t) (bSc m c t) (bSn m c t) zero19 := by
  unfold sout_A_3
  rw [View.read_writes_eq_canon _ _ _ (scover_A_3 m c t h0 h1)]
  unfold runA kernelRun_A
  dsimp only
  sl_unfold_words
  rw [View.canon_cons_unit_zero (S := S1x1) hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem sout_B_0_eq (c : Dev nD) (t : Fin cfg0.N) (h0 : ¬condFirst (grid0.coords t)) (h1 : ¬condLast (grid0.coords t))
    (xs0 xs1 xs2 xs3 : Vec F S1x1 .f32) :
    sout_B_0 m c t h0 h1 xs0 xs1 xs2 xs3 = acc0 (bUc m c t) (bVc m c t) xs0 := by
  unfold sout_B_0
  rw [View.read_writes_eq_canon _ _ _ (scover_B_0 m c t h0 h1 xs0 xs1 xs2 xs3)]
  unfold runB kernelRun_B
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_B_1_eq (c : Dev nD) (t : Fin cfg0.N) (h0 : ¬condFirst (grid0.coords t)) (h1 : ¬condLast (grid0.coords t))
    (xs0 xs1 xs2 xs3 : Vec F S1x1 .f32) :
    sout_B_1 m c t h0 h1 xs0 xs1 xs2 xs3 = acc1 (bUp m c t) (bUc m c t) (bUn m c t) (bVc m c t) (bPc m c t) xs1 := by
  unfold sout_B_1
  rw [View.read_writes_eq_canon _ _ _ (scover_B_1 m c t h0 h1 xs0 xs1 xs2 xs3)]
  unfold runB kernelRun_B
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_B_2_eq (c : Dev nD) (t : Fin cfg0.N) (h0 : ¬condFirst (grid0.coords t)) (h1 : ¬condLast (grid0.coords t))
    (xs0 xs1 xs2 xs3 : Vec F S1x1 .f32) :
    sout_B_2 m c t h0 h1 xs0 xs1 xs2 xs3 = acc2 (bUc m c t) (bVp m c t) (bVc m c t) (bVn m c t) (bPc m c t) xs2 := by
  unfold sout_B_2
  rw [View.read_writes_eq_canon _ _ _ (scover_B_2 m c t h0 h1 xs0 xs1 xs2 xs3)]
  unfold runB kernelRun_B
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_B_3_eq (c : Dev nD) (t : Fin cfg0.N) (h0 : ¬condFirst (grid0.coords t)) (h1 : ¬condLast (grid0.coords t))
    (xs0 xs1 xs2 xs3 : Vec F S1x1 .f32) :
    sout_B_3 m c t h0 h1 xs0 xs1 xs2 xs3 = acc3 (bUc m c t) (bVc m c t) (bSp m c t) (bSc m c t) (bSn m c t) xs3 := by
  unfold sout_B_3
  rw [View.read_writes_eq_canon _ _ _ (scover_B_3 m c t h0 h1 xs0 xs1 xs2 xs3)]
  unfold runB kernelRun_B
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_C_0_eq (c : Dev nD) (t : Fin cfg0.N) (h0 : ¬condFirst (grid0.coords t)) (h1 : condLast (grid0.coords t))
    (xs0 xs1 xs2 xs3 : Vec F S1x1 .f32) :
    sout_C_0 m c t h0 h1 xs0 xs1 xs2 xs3 = acc0 (bUc m c t) (bVc m c t) xs0 := by
  unfold sout_C_0
  rw [View.read_writes_eq_canon _ _ _ (scover_C_0 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_C_1_eq (c : Dev nD) (t : Fin cfg0.N) (h0 : ¬condFirst (grid0.coords t)) (h1 : condLast (grid0.coords t))
    (xs0 xs1 xs2 xs3 : Vec F S1x1 .f32) :
    sout_C_1 m c t h0 h1 xs0 xs1 xs2 xs3 = acc1 (bUp m c t) (bUc m c t) (bUn m c t) (bVc m c t) (bPc m c t) xs1 := by
  unfold sout_C_1
  rw [View.read_writes_eq_canon _ _ _ (scover_C_1 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_C_2_eq (c : Dev nD) (t : Fin cfg0.N) (h0 : ¬condFirst (grid0.coords t)) (h1 : condLast (grid0.coords t))
    (xs0 xs1 xs2 xs3 : Vec F S1x1 .f32) :
    sout_C_2 m c t h0 h1 xs0 xs1 xs2 xs3 = acc2 (bUc m c t) (bVp m c t) (bVc m c t) (bVn m c t) (bPc m c t) xs2 := by
  unfold sout_C_2
  rw [View.read_writes_eq_canon _ _ _ (scover_C_2 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem sout_C_3_eq (c : Dev nD) (t : Fin cfg0.N) (h0 : ¬condFirst (grid0.coords t)) (h1 : condLast (grid0.coords t))
    (xs0 xs1 xs2 xs3 : Vec F S1x1 .f32) :
    sout_C_3 m c t h0 h1 xs0 xs1 xs2 xs3 = acc3 (bUc m c t) (bVc m c t) (bSp m c t) (bSc m c t) (bSn m c t) xs3 := by
  unfold sout_C_3
  rw [View.read_writes_eq_canon _ _ _ (scover_C_3 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2]
  rfl

theorem out_C_10_eq (c : Dev nD) (t : Fin cfg0.N) (h0 : ¬condFirst (grid0.coords t)) (h1 : condLast (grid0.coords t))
    (xs0 xs1 xs2 xs3 : Vec F S1x1 .f32) :
    out_C_10 m c t h0 h1 xs0 xs1 xs2 xs3 = out0 (acc0 (bUc m c t) (bVc m c t) xs0) := by
  unfold out_C_10
  rw [View.read_writes_eq_canon _ _ _ (cover_C_10 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem out_C_11_eq (c : Dev nD) (t : Fin cfg0.N) (h0 : ¬condFirst (grid0.coords t)) (h1 : condLast (grid0.coords t))
    (xs0 xs1 xs2 xs3 : Vec F S1x1 .f32) :
    out_C_11 m c t h0 h1 xs0 xs1 xs2 xs3 = out1 (acc1 (bUp m c t) (bUc m c t) (bUn m c t) (bVc m c t) (bPc m c t) xs1) := by
  unfold out_C_11
  rw [View.read_writes_eq_canon _ _ _ (cover_C_11 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem out_C_12_eq (c : Dev nD) (t : Fin cfg0.N) (h0 : ¬condFirst (grid0.coords t)) (h1 : condLast (grid0.coords t))
    (xs0 xs1 xs2 xs3 : Vec F S1x1 .f32) :
    out_C_12 m c t h0 h1 xs0 xs1 xs2 xs3 = out2 (acc2 (bUc m c t) (bVp m c t) (bVc m c t) (bVn m c t) (bPc m c t) xs2) := by
  unfold out_C_12
  rw [View.read_writes_eq_canon _ _ _ (cover_C_12 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

theorem out_C_13_eq (c : Dev nD) (t : Fin cfg0.N) (h0 : ¬condFirst (grid0.coords t)) (h1 : condLast (grid0.coords t))
    (xs0 xs1 xs2 xs3 : Vec F S1x1 .f32) :
    out_C_13 m c t h0 h1 xs0 xs1 xs2 xs3 = out3 (acc3 (bUc m c t) (bVc m c t) (bSp m c t) (bSc m c t) (bSn m c t) xs3) := by
  unfold out_C_13
  rw [View.read_writes_eq_canon _ _ _ (cover_C_13 m c t h0 h1 xs0 xs1 xs2 xs3)]
  unfold runC kernelRun_C
  dsimp only
  sl_unfold_words
  rw [View.canon_unit_zero hz2]
  simp only [View.readAt_eq_ld, Memref.IsWhole.read_unread, (Memref.isWhole_whole cc0_scratch0).read_unread,
    (Memref.isWhole_whole cc0_scratch1).read_unread, (Memref.isWhole_whole cc0_scratch2).read_unread,
    (Memref.isWhole_whole cc0_scratch3).read_unread, View.ld_unit_zero (S := S1x1x256x512) hz4,
    View.ld_unit_zero (S := S1x1) hz2, View.readCov_unit_zero (S := S1x1) _ hz2]
  rfl

def itF_0 (c : Dev nD) : (n : ℕ) → n < cfg0.N → Vec F S1x1 .f32
  | 0, h => acc0 (bUc m c ⟨0, h⟩) (bVc m c ⟨0, h⟩) zero16
  | n + 1, h => acc0 (bUc m c ⟨n + 1, h⟩) (bVc m c ⟨n + 1, h⟩) (itF_0 c n (Nat.lt_of_succ_lt h))

def itF_1 (c : Dev nD) : (n : ℕ) → n < cfg0.N → Vec F S1x1 .f32
  | 0, h => acc1 (bUp m c ⟨0, h⟩) (bUc m c ⟨0, h⟩) (bUn m c ⟨0, h⟩) (bVc m c ⟨0, h⟩) (bPc m c ⟨0, h⟩) zero17
  | n + 1, h => acc1 (bUp m c ⟨n + 1, h⟩) (bUc m c ⟨n + 1, h⟩) (bUn m c ⟨n + 1, h⟩) (bVc m c ⟨n + 1, h⟩) (bPc m c ⟨n + 1, h⟩) (itF_1 c n (Nat.lt_of_succ_lt h))

def itF_2 (c : Dev nD) : (n : ℕ) → n < cfg0.N → Vec F S1x1 .f32
  | 0, h => acc2 (bUc m c ⟨0, h⟩) (bVp m c ⟨0, h⟩) (bVc m c ⟨0, h⟩) (bVn m c ⟨0, h⟩) (bPc m c ⟨0, h⟩) zero18
  | n + 1, h => acc2 (bUc m c ⟨n + 1, h⟩) (bVp m c ⟨n + 1, h⟩) (bVc m c ⟨n + 1, h⟩) (bVn m c ⟨n + 1, h⟩) (bPc m c ⟨n + 1, h⟩) (itF_2 c n (Nat.lt_of_succ_lt h))

def itF_3 (c : Dev nD) : (n : ℕ) → n < cfg0.N → Vec F S1x1 .f32
  | 0, h => acc3 (bUc m c ⟨0, h⟩) (bVc m c ⟨0, h⟩) (bSp m c ⟨0, h⟩) (bSc m c ⟨0, h⟩) (bSn m c ⟨0, h⟩) zero19
  | n + 1, h => acc3 (bUc m c ⟨n + 1, h⟩) (bVc m c ⟨n + 1, h⟩) (bSp m c ⟨n + 1, h⟩) (bSc m c ⟨n + 1, h⟩) (bSn m c ⟨n + 1, h⟩) (itF_3 c n (Nat.lt_of_succ_lt h))

theorem scrAt_eq (c : Dev nD) : ∀ (n : ℕ) (hn : n < cfg0.N),
    scrAt m c n hn = (itF_0 m c n hn, itF_1 m c n hn, itF_2 m c n hn, itF_3 m c n hn)
  | 0, hn => by
    rw [scrAt_A m c ⟨0, hn⟩ rfl (first_of_zero _ rfl) (notLast_of _ (by show ¬0 % 76 = 75; decide))]; unfold soutsA
    rw [sout_A_0_eq, sout_A_1_eq, sout_A_2_eq, sout_A_3_eq]
    rfl
  | n + 1, hn => by
    have hp : prevS m c ⟨n + 1, hn⟩ = _ := scrAt_eq c n (Nat.lt_of_succ_lt hn)
    have h0 := notFirst_of_pos ⟨n + 1, hn⟩ (Nat.succ_ne_zero n)
    by_cases h1 : (n + 1) % 76 = 75
    · rw [scrAt_C m c ⟨n + 1, hn⟩ (Nat.succ_ne_zero n) h0 h1, hp]; unfold soutsC
      rw [sout_C_0_eq, sout_C_1_eq, sout_C_2_eq, sout_C_3_eq]
      rfl
    · rw [scrAt_B m c ⟨n + 1, hn⟩ (Nat.succ_ne_zero n) h0 h1, hp]; unfold soutsB
      rw [sout_B_0_eq, sout_B_1_eq, sout_B_2_eq, sout_B_3_eq]
      rfl

theorem outAt_last (c : Dev nD) (t : Fin cfg0.N) (h : t.val % 76 = 75) :
    outAt m c t = (out0 (itF_0 m c t.val t.isLt), out1 (itF_1 m c t.val t.isLt), out2 (itF_2 m c t.val t.isLt),
      out3 (itF_3 m c t.val t.isLt)) := by
  obtain ⟨n, hn⟩ := t
  cases n with
  | zero => exact absurd h (by show ¬(0 % 76 = 75); decide)
  | succ n =>
    have hp : prevS m c ⟨n + 1, hn⟩ = _ := scrAt_eq m c n (Nat.lt_of_succ_lt hn)
    rw [outAt_C m c ⟨n + 1, hn⟩ (notFirst_of_pos _ (Nat.succ_ne_zero n)) h, hp]; unfold outsC
    rw [out_C_10_eq, out_C_11_eq, out_C_12_eq, out_C_13_eq]
    rfl

end Cert.KernelIdeal.Hand

end
-- ==== Proof.PlaneProj.lean ====
import Idealize.ShloMosaic.Lib.ValueIdx
import Idealize.ShloMosaic.Lib.Pipeline.Value
import Idealize.ShloMosaic.Lib.KernelVsHost
import Idealize.ShloMosaic.PureOps.Ideal.Laws

noncomputable section

namespace Cert.Hand.Proj

open Idealize.ShloMosaic Idealize.ShloMosaic.ValueIdx

abbrev A19 : Shape := ⟨4, ![4, 19, 256, 512]⟩

abbrev A21 : Shape := ⟨4, ![4, 21, 256, 512]⟩

abbrev P2 : Shape := ⟨2, ![256, 512]⟩

abbrev B4 : Shape := ⟨4, ![1, 1, 256, 512]⟩

def plane {α : Type} (b : Fin 4) (i : Fin 19) (x : A19.Idx → α) : P2.Idx → α :=
  fun j => x (ix4 (n2 := 256) (n3 := 512) b i (j 0) (j 1))

def blk4 {α : Type} (b : Fin 4) (k : Fin 21) (X : A21.Idx → α) : B4.Idx → α :=
  fun j => X (ix4 (n2 := 256) (n3 := 512) b k (j 2) (j 3))

def blk2 {α : Type} (b : Fin 4) (k : Fin 21) (X : A21.Idx → α) : P2.Idx → α :=
  fun j => X (ix4 (n2 := 256) (n3 := 512) b k (j 0) (j 1))

theorem plane_apply {α : Type} (b : Fin 4) (i : Fin 19) (x : A19.Idx → α) (j : P2.Idx) :
    plane b i x j = x (ix4 (n2 := 256) (n3 := 512) b i (j 0) (j 1)) := rfl

section Pointwise
variable {F : FTy → Type} [FloatOps F] {φ : FTy} (b : Fin 4) (i : Fin 19)

theorem plane_mulf (x y : FVec F A19 φ) : plane b i (mulf x y) = mulf (plane b i x) (plane b i y) := rfl
theorem plane_addf (x y : FVec F A19 φ) : plane b i (addf x y) = addf (plane b i x) (plane b i y) := rfl
theorem plane_subf (x y : FVec F A19 φ) : plane b i (subf x y) = subf (plane b i x) (plane b i y) := rfl
theorem plane_cmpf (p : CmpFPredicate) (x y : FVec F A19 φ) :
    plane b i (cmpf p x y) = cmpf p (plane b i x) (plane b i y) := rfl
theorem plane_select {α : Type} (c : IVec A19 1) (x y : A19.Idx → α) :
    plane b i (select c x y) = select (plane b i c) (plane b i x) (plane b i y) := rfl

theorem plane_hostDivf (x y : FVec Ideal A19 φ) :
    plane b i (Host.divf x y) = divf (plane b i x) (plane b i y) := rfl

end Pointwise

section Slices
variable {α : Type} (b : Fin 4) (i : Fin 19)

theorem slice_off_le {k : Nat} (h : A21.Slices ![0, k, 0, 0] A19) : k + 19 ≤ 21 := h.2 (1 : Fin 4)

theorem plane_slice (k : Nat) (X : A21.Idx → α) (h : A21.Slices ![0, k, 0, 0] A19) :
    plane b i (extractStridedSlice A19 ![0, k, 0, 0] X h)
      = blk2 b ⟨i.val + k, by have := slice_off_le h; have := i.isLt; omega⟩ X := by
  have hk := slice_off_le h
  funext j
  exact extractStridedSlice_apply ![0, k, 0, 0] X h (ix4 (n2 := 256) (n3 := 512) b i (j 0) (j 1))
    (ix4 (n2 := 256) (n3 := 512) b ⟨i.val + k, by have := i.isLt; omega⟩ (j 0) (j 1)) (fun a => match a with
      | ⟨0, _⟩ => by show b.val = 0 + b.val; omega
      | ⟨1, _⟩ => by show i.val + k = k + i.val; omega
      | ⟨2, _⟩ => by show (j 0).val = 0 + (j 0).val; omega
      | ⟨3, _⟩ => by show (j 1).val = 0 + (j 1).val; omega)

theorem plane_slice0 (X : A21.Idx → α) (h : A21.Slices ![0, 0, 0, 0] A19) :
    plane b i (extractStridedSlice A19 ![0, 0, 0, 0] X h) = blk2 b ⟨i.val, by have := i.isLt; omega⟩ X :=
  plane_slice b i 0 X h

theorem plane_slice1 (X : A21.Idx → α) (h : A21.Slices ![0, 1, 0, 0] A19) :
    plane b i (extractStridedSlice A19 ![0, 1, 0, 0] X h) = blk2 b ⟨i.val + 1, by have := i.isLt; omega⟩ X :=
  plane_slice b i 1 X h

theorem plane_slice2 (X : A21.Idx → α) (h : A21.Slices ![0, 2, 0, 0] A19) :
    plane b i (extractStridedSlice A19 ![0, 2, 0, 0] X h) = blk2 b ⟨i.val + 2, by have := i.isLt; omega⟩ X :=
  plane_slice b i 2 X h

theorem shapeCast_blk4 (k : Fin 21) (X : A21.Idx → α) (h : B4.ShapeCasts P2) :
    shapeCast P2 (blk4 b k X) h = blk2 b k X := by
  funext j
  have h0 := idx2_lt0 j
  have h1 := idx2_lt1 j
  exact shapeCast_apply (blk4 b k X) h j
    (ix4 (n0 := 1) (n1 := 1) (n2 := 256) (n3 := 512) ⟨0, Nat.one_pos⟩ ⟨0, Nat.one_pos⟩ (j 0) (j 1)) (by
      rw [Shape.rowMajor_val_four, Shape.rowMajor_val_two]
      show ((0 * 1 + 0) * 256 + (j 0).val) * 512 + (j 1).val = (j 0).val * 512 + (j 1).val
      omega)

end Slices

section Rolls
variable {α : Type}

theorem rot_ax1 : P2.Rotates 1 none := ⟨Nat.le_refl 2, fun _ hq => nomatch hq⟩
theorem rot_ax0 : P2.Rotates 0 none := ⟨Nat.le_refl 2, fun _ hq => nomatch hq⟩

theorem plane_roll3_gen (m p o : Nat) (s : BitVec 32) (hmp : m + p = 512) (ho : o + m = 512) (hs : s.toNat = m)
    (b : Fin 4) (i : Fin 19) (x : A19.Idx → α)
    (h₁ : A19.Slices ![0, 0, 0, o] ⟨4, ![4, 19, 256, m]⟩) (h₂ : A19.Slices ![0, 0, 0, 0] ⟨4, ![4, 19, 256, p]⟩)
    (hc : Shape.Concatenates [(⟨4, ![4, 19, 256, m]⟩ : Shape), ⟨4, ![4, 19, 256, p]⟩] A19 3)
    (hr : P2.Rotates 1 none) :
    plane b i (concatenate A19 3
        [⟨⟨4, ![4, 19, 256, m]⟩, extractStridedSlice ⟨4, ![4, 19, 256, m]⟩ ![0, 0, 0, o] x h₁⟩,
         ⟨⟨4, ![4, 19, 256, p]⟩, extractStridedSlice ⟨4, ![4, 19, 256, p]⟩ ![0, 0, 0, 0] x h₂⟩] hc)
      = dynamicRotate 1 s none (plane b i x) hr := by
  funext j
  have hj1 : (j 1).val < 512 := idx2_lt1 j
  have hrot : dynamicRotate 1 s none (plane b i x) hr j
      = x (ix4 (n2 := 256) (n3 := 512) b i (j 0) ⟨((j 1).val + 512 - m) % 512, Nat.mod_lt _ (by omega)⟩) :=
    dynamicRotate_apply (1 : Fin 2) s (plane b i x) hr j
      (ix2 (n0 := 256) (n1 := 512) (j 0) ⟨((j 1).val + 512 - m) % 512, Nat.mod_lt _ (by omega)⟩) (fun a => match a with
        | ⟨0, _⟩ => rfl
        | ⟨1, _⟩ => by
          show ((j 1).val + 512 - m) % 512 = ((j 1).val + 512 - s.toNat % 512) % 512
          rw [hs]
          omega)
  rw [hrot, plane_apply]
  by_cases hlt : (j 1).val < m
  ·
    refine (concatenate_pair_apply_left (t := A19) (s₁ := ⟨4, ![4, 19, 256, m]⟩) (s₂ := ⟨4, ![4, 19, 256, p]⟩) (3 : Fin 4)
      _ _ hc _ rfl (ix4 (n2 := 256) (n3 := m) b i (j 0) ⟨(j 1).val, hlt⟩) (fun a => match a with
        | ⟨0, _⟩ => rfl
        | ⟨1, _⟩ => rfl
        | ⟨2, _⟩ => rfl
        | ⟨3, _⟩ => rfl)).trans ?_
    refine (extractStridedSlice_apply ![0, 0, 0, o] x h₁ _
      (ix4 (n2 := 256) (n3 := 512) b i (j 0) ⟨o + (j 1).val, by omega⟩) (fun a => match a with
        | ⟨0, _⟩ => by show b.val = 0 + b.val; omega
        | ⟨1, _⟩ => by show i.val = 0 + i.val; omega
        | ⟨2, _⟩ => by show (j 0).val = 0 + (j 0).val; omega
        | ⟨3, _⟩ => by show o + (j 1).val = o + (j 1).val; rfl)).trans ?_
    refine congrArg x (congrArg (ix4 (n2 := 256) (n3 := 512) b i (j 0)) (Fin.ext ?_))
    show o + (j 1).val = ((j 1).val + 512 - m) % 512
    omega
  ·
    refine (concatenate_pair_apply_right (t := A19) (s₁ := ⟨4, ![4, 19, 256, m]⟩) (s₂ := ⟨4, ![4, 19, 256, p]⟩) (3 : Fin 4)
      _ _ hc _ rfl rfl (ix4 (n2 := 256) (n3 := p) b i (j 0) ⟨(j 1).val - m, by omega⟩) (fun a ha => match a with
        | ⟨0, _⟩ => rfl
        | ⟨1, _⟩ => rfl
        | ⟨2, _⟩ => rfl
        | ⟨3, _⟩ => absurd rfl ha) (by
        show (j 1).val - m + m = (j 1).val; omega)).trans ?_
    refine (extractStridedSlice_apply ![0, 0, 0, 0] x h₂ _
      (ix4 (n2 := 256) (n3 := 512) b i (j 0) ⟨(j 1).val - m, by omega⟩) (fun a => match a with
        | ⟨0, _⟩ => by show b.val = 0 + b.val; omega
        | ⟨1, _⟩ => by show i.val = 0 + i.val; omega
        | ⟨2, _⟩ => by show (j 0).val = 0 + (j 0).val; omega
        | ⟨3, _⟩ => by show (j 1).val - m = 0 + ((j 1).val - m); omega)).trans ?_
    refine congrArg x (congrArg (ix4 (n2 := 256) (n3 := 512) b i (j 0)) (Fin.ext ?_))
    show (j 1).val - m = ((j 1).val + 512 - m) % 512
    omega

theorem plane_roll2_gen (m p o : Nat) (s : BitVec 32) (hmp : m + p = 256) (ho : o + m = 256) (hs : s.toNat = m)
    (b : Fin 4) (i : Fin 19) (x : A19.Idx → α)
    (h₁ : A19.Slices ![0, 0, o, 0] ⟨4, ![4, 19, m, 512]⟩) (h₂ : A19.Slices ![0, 0, 0, 0] ⟨4, ![4, 19, p, 512]⟩)
    (hc : Shape.Concatenates [(⟨4, ![4, 19, m, 512]⟩ : Shape), ⟨4, ![4, 19, p, 512]⟩] A19 2)
    (hr : P2.Rotates 0 none) :
    plane b i (concatenate A19 2
        [⟨⟨4, ![4, 19, m, 512]⟩, extractStridedSlice ⟨4, ![4, 19, m, 512]⟩ ![0, 0, o, 0] x h₁⟩,
         ⟨⟨4, ![4, 19, p, 512]⟩, extractStridedSlice ⟨4, ![4, 19, p, 512]⟩ ![0, 0, 0, 0] x h₂⟩] hc)
      = dynamicRotate 0 s none (plane b i x) hr := by
  funext j
  have hj0 : (j 0).val < 256 := idx2_lt0 j
  have hrot : dynamicRotate 0 s none (plane b i x) hr j
      = x (ix4 (n2 := 256) (n3 := 512) b i ⟨((j 0).val + 256 - m) % 256, Nat.mod_lt _ (by omega)⟩ (j 1)) :=
    dynamicRotate_apply (0 : Fin 2) s (plane b i x) hr j
      (ix2 (n0 := 256) (n1 := 512) ⟨((j 0).val + 256 - m) % 256, Nat.mod_lt _ (by omega)⟩ (j 1)) (fun a => match a with
        | ⟨0, _⟩ => by
          show ((j 0).val + 256 - m) % 256 = ((j 0).val + 256 - s.toNat % 256) % 256
          rw [hs]
          omega
        | ⟨1, _⟩ => rfl)
  rw [hrot, plane_apply]
  by_cases hlt : (j 0).val < m
  ·
    refine (concatenate_pair_apply_left (t := A19) (s₁ := ⟨4, ![4, 19, m, 512]⟩) (s₂ := ⟨4, ![4, 19, p, 512]⟩) (2 : Fin 4)
      _ _ hc _ rfl (ix4 (n2 := m) (n3 := 512) b i ⟨(j 0).val, hlt⟩ (j 1)) (fun a => match a with
        | ⟨0, _⟩ => rfl
        | ⟨1, _⟩ => rfl
        | ⟨2, _⟩ => rfl
        | ⟨3, _⟩ => rfl)).trans ?_
    refine (extractStridedSlice_apply ![0, 0, o, 0] x h₁ _
      (ix4 (n2 := 256) (n3 := 512) b i ⟨o + (j 0).val, by omega⟩ (j 1)) (fun a => match a with
        | ⟨0, _⟩ => by show b.val = 0 + b.val; omega
        | ⟨1, _⟩ => by show i.val = 0 + i.val; omega
        | ⟨2, _⟩ => by show o + (j 0).val = o + (j 0).val; rfl
        | ⟨3, _⟩ => by show (j 1).val = 0 + (j 1).val; omega)).trans ?_
    refine congrArg x (congrArg (fun c => ix4 (n2 := 256) (n3 := 512) b i c (j 1)) (Fin.ext ?_))
    show o + (j 0).val = ((j 0).val + 256 - m) % 256
    omega
  ·
    refine (concatenate_pair_apply_right (t := A19) (s₁ := ⟨4, ![4, 19, m, 512]⟩) (s₂ := ⟨4, ![4, 19, p, 512]⟩) (2 : Fin 4)
      _ _ hc _ rfl rfl (ix4 (n2 := p) (n3 := 512) b i ⟨(j 0).val - m, by omega⟩ (j 1)) (fun a ha => match a with
        | ⟨0, _⟩ => rfl
        | ⟨1, _⟩ => rfl
        | ⟨2, _⟩ => absurd rfl ha
        | ⟨3, _⟩ => rfl) (by
        show (j 0).val - m + m = (j 0).val; omega)).trans ?_
    refine (extractStridedSlice_apply ![0, 0, 0, 0] x h₂ _
      (ix4 (n2 := 256) (n3 := 512) b i ⟨(j 0).val - m, by omega⟩ (j 1)) (fun a => match a with
        | ⟨0, _⟩ => by show b.val = 0 + b.val; omega
        | ⟨1, _⟩ => by show i.val = 0 + i.val; omega
        | ⟨2, _⟩ => by show (j 0).val - m = 0 + ((j 0).val - m); omega
        | ⟨3, _⟩ => by show (j 1).val = 0 + (j 1).val; omega)).trans ?_
    refine congrArg x (congrArg (fun c => ix4 (n2 := 256) (n3 := 512) b i c (j 1)) (Fin.ext ?_))
    show (j 0).val - m = ((j 0).val + 256 - m) % 256
    omega

variable (b : Fin 4) (i : Fin 19) (x : A19.Idx → α)

theorem plane_roll3_m1 (h₁ : A19.Slices ![0, 0, 0, 1] ⟨4, ![4, 19, 256, 511]⟩)
    (h₂ : A19.Slices ![0, 0, 0, 0] ⟨4, ![4, 19, 256, 1]⟩)
    (hc : Shape.Concatenates [(⟨4, ![4, 19, 256, 511]⟩ : Shape), ⟨4, ![4, 19, 256, 1]⟩] A19 3) (hr : P2.Rotates 1 none) :
    plane b i (concatenate A19 3
        [⟨⟨4, ![4, 19, 256, 511]⟩, extractStridedSlice ⟨4, ![4, 19, 256, 511]⟩ ![0, 0, 0, 1] x h₁⟩,
         ⟨⟨4, ![4, 19, 256, 1]⟩, extractStridedSlice ⟨4, ![4, 19, 256, 1]⟩ ![0, 0, 0, 0] x h₂⟩] hc)
      = dynamicRotate 1 511#32 none (plane b i x) hr :=
  plane_roll3_gen 511 1 1 511#32 rfl rfl rfl b i x h₁ h₂ hc hr
theorem plane_roll3_m1' (h₁ : A19.Slices ![0, 0, 0, 1] ⟨4, ![4, 19, 256, 511]⟩)
    (h₂ : A19.Slices ![0, 0, 0, 0] ⟨4, ![4, 19, 256, 1]⟩)
    (hc : Shape.Concatenates [(⟨4, ![4, 19, 256, 511]⟩ : Shape), ⟨4, ![4, 19, 256, 1]⟩] A19 3) :
    plane b i (concatenate A19 3
        [⟨⟨4, ![4, 19, 256, 511]⟩, extractStridedSlice ⟨4, ![4, 19, 256, 511]⟩ ![0, 0, 0, 1] x h₁⟩,
         ⟨⟨4, ![4, 19, 256, 1]⟩, extractStridedSlice ⟨4, ![4, 19, 256, 1]⟩ ![0, 0, 0, 0] x h₂⟩] hc)
      = dynamicRotate 1 511#32 none (plane b i x) rot_ax1 :=
  plane_roll3_m1 b i x h₁ h₂ hc rot_ax1

theorem plane_roll3_p1 (h₁ : A19.Slices ![0, 0, 0, 511] ⟨4, ![4, 19, 256, 1]⟩)
    (h₂ : A19.Slices ![0, 0, 0, 0] ⟨4, ![4, 19, 256, 511]⟩)
    (hc : Shape.Concatenates [(⟨4, ![4, 19, 256, 1]⟩ : Shape), ⟨4, ![4, 19, 256, 511]⟩] A19 3) (hr : P2.Rotates 1 none) :
    plane b i (concatenate A19 3
        [⟨⟨4, ![4, 19, 256, 1]⟩, extractStridedSlice ⟨4, ![4, 19, 256, 1]⟩ ![0, 0, 0, 511] x h₁⟩,
         ⟨⟨4, ![4, 19, 256, 511]⟩, extractStridedSlice ⟨4, ![4, 19, 256, 511]⟩ ![0, 0, 0, 0] x h₂⟩] hc)
      = dynamicRotate 1 1#32 none (plane b i x) hr :=
  plane_roll3_gen 1 511 511 1#32 rfl rfl rfl b i x h₁ h₂ hc hr
theorem plane_roll3_p1' (h₁ : A19.Slices ![0, 0, 0, 511] ⟨4, ![4, 19, 256, 1]⟩)
    (h₂ : A19.Slices ![0, 0, 0, 0] ⟨4, ![4, 19, 256, 511]⟩)
    (hc : Shape.Concatenates [(⟨4, ![4, 19, 256, 1]⟩ : Shape), ⟨4, ![4, 19, 256, 511]⟩] A19 3) :
    plane b i (concatenate A19 3
        [⟨⟨4, ![4, 19, 256, 1]⟩, extractStridedSlice ⟨4, ![4, 19, 256, 1]⟩ ![0, 0, 0, 511] x h₁⟩,
         ⟨⟨4, ![4, 19, 256, 511]⟩, extractStridedSlice ⟨4, ![4, 19, 256, 511]⟩ ![0, 0, 0, 0] x h₂⟩] hc)
      = dynamicRotate 1 1#32 none (plane b i x) rot_ax1 :=
  plane_roll3_p1 b i x h₁ h₂ hc rot_ax1

theorem plane_roll3_m2 (h₁ : A19.Slices ![0, 0, 0, 2] ⟨4, ![4, 19, 256, 510]⟩)
    (h₂ : A19.Slices ![0, 0, 0, 0] ⟨4, ![4, 19, 256, 2]⟩)
    (hc : Shape.Concatenates [(⟨4, ![4, 19, 256, 510]⟩ : Shape), ⟨4, ![4, 19, 256, 2]⟩] A19 3) (hr : P2.Rotates 1 none) :
    plane b i (concatenate A19 3
        [⟨⟨4, ![4, 19, 256, 510]⟩, extractStridedSlice ⟨4, ![4, 19, 256, 510]⟩ ![0, 0, 0, 2] x h₁⟩,
         ⟨⟨4, ![4, 19, 256, 2]⟩, extractStridedSlice ⟨4, ![4, 19, 256, 2]⟩ ![0, 0, 0, 0] x h₂⟩] hc)
      = dynamicRotate 1 510#32 none (plane b i x) hr :=
  plane_roll3_gen 510 2 2 510#32 rfl rfl rfl b i x h₁ h₂ hc hr
theorem plane_roll3_m2' (h₁ : A19.Slices ![0, 0, 0, 2] ⟨4, ![4, 19, 256, 510]⟩)
    (h₂ : A19.Slices ![0, 0, 0, 0] ⟨4, ![4, 19, 256, 2]⟩)
    (hc : Shape.Concatenates [(⟨4, ![4, 19, 256, 510]⟩ : Shape), ⟨4, ![4, 19, 256, 2]⟩] A19 3) :
    plane b i (concatenate A19 3
        [⟨⟨4, ![4, 19, 256, 510]⟩, extractStridedSlice ⟨4, ![4, 19, 256, 510]⟩ ![0, 0, 0, 2] x h₁⟩,
         ⟨⟨4, ![4, 19, 256, 2]⟩, extractStridedSlice ⟨4, ![4, 19, 256, 2]⟩ ![0, 0, 0, 0] x h₂⟩] hc)
      = dynamicRotate 1 510#32 none (plane b i x) rot_ax1 :=
  plane_roll3_m2 b i x h₁ h₂ hc rot_ax1

theorem plane_roll3_p2 (h₁ : A19.Slices ![0, 0, 0, 510] ⟨4, ![4, 19, 256, 2]⟩)
    (h₂ : A19.Slices ![0, 0, 0, 0] ⟨4, ![4, 19, 256, 510]⟩)
    (hc : Shape.Concatenates [(⟨4, ![4, 19, 256, 2]⟩ : Shape), ⟨4, ![4, 19, 256, 510]⟩] A19 3) (hr : P2.Rotates 1 none) :
    plane b i (concatenate A19 3
        [⟨⟨4, ![4, 19, 256, 2]⟩, extractStridedSlice ⟨4, ![4, 19, 256, 2]⟩ ![0, 0, 0, 510] x h₁⟩,
         ⟨⟨4, ![4, 19, 256, 510]⟩, extractStridedSlice ⟨4, ![4, 19, 256, 510]⟩ ![0, 0, 0, 0] x h₂⟩] hc)
      = dynamicRotate 1 2#32 none (plane b i x) hr :=
  plane_roll3_gen 2 510 510 2#32 rfl rfl rfl b i x h₁ h₂ hc hr
theorem plane_roll3_p2' (h₁ : A19.Slices ![0, 0, 0, 510] ⟨4, ![4, 19, 256, 2]⟩)
    (h₂ : A19.Slices ![0, 0, 0, 0] ⟨4, ![4, 19, 256, 510]⟩)
    (hc : Shape.Concatenates [(⟨4, ![4, 19, 256, 2]⟩ : Shape), ⟨4, ![4, 19, 256, 510]⟩] A19 3) :
    plane b i (concatenate A19 3
        [⟨⟨4, ![4, 19, 256, 2]⟩, extractStridedSlice ⟨4, ![4, 19, 256, 2]⟩ ![0, 0, 0, 510] x h₁⟩,
         ⟨⟨4, ![4, 19, 256, 510]⟩, extractStridedSlice ⟨4, ![4, 19, 256, 510]⟩ ![0, 0, 0, 0] x h₂⟩] hc)
      = dynamicRotate 1 2#32 none (plane b i x) rot_ax1 :=
  plane_roll3_p2 b i x h₁ h₂ hc rot_ax1

theorem plane_roll2_m1 (h₁ : A19.Slices ![0, 0, 1, 0] ⟨4, ![4, 19, 255, 512]⟩)
    (h₂ : A19.Slices ![0, 0, 0, 0] ⟨4, ![4, 19, 1, 512]⟩)
    (hc : Shape.Concatenates [(⟨4, ![4, 19, 255, 512]⟩ : Shape), ⟨4, ![4, 19, 1, 512]⟩] A19 2) (hr : P2.Rotates 0 none) :
    plane b i (concatenate A19 2
        [⟨⟨4, ![4, 19, 255, 512]⟩, extractStridedSlice ⟨4, ![4, 19, 255, 512]⟩ ![0, 0, 1, 0] x h₁⟩,
         ⟨⟨4, ![4, 19, 1, 512]⟩, extractStridedSlice ⟨4, ![4, 19, 1, 512]⟩ ![0, 0, 0, 0] x h₂⟩] hc)
      = dynamicRotate 0 255#32 none (plane b i x) hr :=
  plane_roll2_gen 255 1 1 255#32 rfl rfl rfl b i x h₁ h₂ hc hr
theorem plane_roll2_m1' (h₁ : A19.Slices ![0, 0, 1, 0] ⟨4, ![4, 19, 255, 512]⟩)
    (h₂ : A19.Slices ![0, 0, 0, 0] ⟨4, ![4, 19, 1, 512]⟩)
    (hc : Shape.Concatenates [(⟨4, ![4, 19, 255, 512]⟩ : Shape), ⟨4, ![4, 19, 1, 512]⟩] A19 2) :
    plane b i (concatenate A19 2
        [⟨⟨4, ![4, 19, 255, 512]⟩, extractStridedSlice ⟨4, ![4, 19, 255, 512]⟩ ![0, 0, 1, 0] x h₁⟩,
         ⟨⟨4, ![4, 19, 1, 512]⟩, extractStridedSlice ⟨4, ![4, 19, 1, 512]⟩ ![0, 0, 0, 0] x h₂⟩] hc)
      = dynamicRotate 0 255#32 none (plane b i x) rot_ax0 :=
  plane_roll2_m1 b i x h₁ h₂ hc rot_ax0

theorem plane_roll2_p1 (h₁ : A19.Slices ![0, 0, 255, 0] ⟨4, ![4, 19, 1, 512]⟩)
    (h₂ : A19.Slices ![0, 0, 0, 0] ⟨4, ![4, 19, 255, 512]⟩)
    (hc : Shape.Concatenates [(⟨4, ![4, 19, 1, 512]⟩ : Shape), ⟨4, ![4, 19, 255, 512]⟩] A19 2) (hr : P2.Rotates 0 none) :
    plane b i (concatenate A19 2
        [⟨⟨4, ![4, 19, 1, 512]⟩, extractStridedSlice ⟨4, ![4, 19, 1, 512]⟩ ![0, 0, 255, 0] x h₁⟩,
         ⟨⟨4, ![4, 19, 255, 512]⟩, extractStridedSlice ⟨4, ![4, 19, 255, 512]⟩ ![0, 0, 0, 0] x h₂⟩] hc)
      = dynamicRotate 0 1#32 none (plane b i x) hr :=
  plane_roll2_gen 1 255 255 1#32 rfl rfl rfl b i x h₁ h₂ hc hr
theorem plane_roll2_p1' (h₁ : A19.Slices ![0, 0, 255, 0] ⟨4, ![4, 19, 1, 512]⟩)
    (h₂ : A19.Slices ![0, 0, 0, 0] ⟨4, ![4, 19, 255, 512]⟩)
    (hc : Shape.Concatenates [(⟨4, ![4, 19, 1, 512]⟩ : Shape), ⟨4, ![4, 19, 255, 512]⟩] A19 2) :
    plane b i (concatenate A19 2
        [⟨⟨4, ![4, 19, 1, 512]⟩, extractStridedSlice ⟨4, ![4, 19, 1, 512]⟩ ![0, 0, 255, 0] x h₁⟩,
         ⟨⟨4, ![4, 19, 255, 512]⟩, extractStridedSlice ⟨4, ![4, 19, 255, 512]⟩ ![0, 0, 0, 0] x h₂⟩] hc)
      = dynamicRotate 0 1#32 none (plane b i x) rot_ax0 :=
  plane_roll2_p1 b i x h₁ h₂ hc rot_ax0

theorem plane_roll2_m2 (h₁ : A19.Slices ![0, 0, 2, 0] ⟨4, ![4, 19, 254, 512]⟩)
    (h₂ : A19.Slices ![0, 0, 0, 0] ⟨4, ![4, 19, 2, 512]⟩)
    (hc : Shape.Concatenates [(⟨4, ![4, 19, 254, 512]⟩ : Shape), ⟨4, ![4, 19, 2, 512]⟩] A19 2) (hr : P2.Rotates 0 none) :
    plane b i (concatenate A19 2
        [⟨⟨4, ![4, 19, 254, 512]⟩, extractStridedSlice ⟨4, ![4, 19, 254, 512]⟩ ![0, 0, 2, 0] x h₁⟩,
         ⟨⟨4, ![4, 19, 2, 512]⟩, extractStridedSlice ⟨4, ![4, 19, 2, 512]⟩ ![0, 0, 0, 0] x h₂⟩] hc)
      = dynamicRotate 0 254#32 none (plane b i x) hr :=
  plane_roll2_gen 254 2 2 254#32 rfl rfl rfl b i x h₁ h₂ hc hr
theorem plane_roll2_m2' (h₁ : A19.Slices ![0, 0, 2, 0] ⟨4, ![4, 19, 254, 512]⟩)
    (h₂ : A19.Slices ![0, 0, 0, 0] ⟨4, ![4, 19, 2, 512]⟩)
    (hc : Shape.Concatenates [(⟨4, ![4, 19, 254, 512]⟩ : Shape), ⟨4, ![4, 19, 2, 512]⟩] A19 2) :
    plane b i (concatenate A19 2
        [⟨⟨4, ![4, 19, 254, 512]⟩, extractStridedSlice ⟨4, ![4, 19, 254, 512]⟩ ![0, 0, 2, 0] x h₁⟩,
         ⟨⟨4, ![4, 19, 2, 512]⟩, extractStridedSlice ⟨4, ![4, 19, 2, 512]⟩ ![0, 0, 0, 0] x h₂⟩] hc)
      = dynamicRotate 0 254#32 none (plane b i x) rot_ax0 :=
  plane_roll2_m2 b i x h₁ h₂ hc rot_ax0

theorem plane_roll2_p2 (h₁ : A19.Slices ![0, 0, 254, 0] ⟨4, ![4, 19, 2, 512]⟩)
    (h₂ : A19.Slices ![0, 0, 0, 0] ⟨4, ![4, 19, 254, 512]⟩)
    (hc : Shape.Concatenates [(⟨4, ![4, 19, 2, 512]⟩ : Shape), ⟨4, ![4, 19, 254, 512]⟩] A19 2) (hr : P2.Rotates 0 none) :
    plane b i (concatenate A19 2
        [⟨⟨4, ![4, 19, 2, 512]⟩, extractStridedSlice ⟨4, ![4, 19, 2, 512]⟩ ![0, 0, 254, 0] x h₁⟩,
         ⟨⟨4, ![4, 19, 254, 512]⟩, extractStridedSlice ⟨4, ![4, 19, 254, 512]⟩ ![0, 0, 0, 0] x h₂⟩] hc)
      = dynamicRotate 0 2#32 none (plane b i x) hr :=
  plane_roll2_gen 2 254 254 2#32 rfl rfl rfl b i x h₁ h₂ hc hr
theorem plane_roll2_p2' (h₁ : A19.Slices ![0, 0, 254, 0] ⟨4, ![4, 19, 2, 512]⟩)
    (h₂ : A19.Slices ![0, 0, 0, 0] ⟨4, ![4, 19, 254, 512]⟩)
    (hc : Shape.Concatenates [(⟨4, ![4, 19, 2, 512]⟩ : Shape), ⟨4, ![4, 19, 254, 512]⟩] A19 2) :
    plane b i (concatenate A19 2
        [⟨⟨4, ![4, 19, 2, 512]⟩, extractStridedSlice ⟨4, ![4, 19, 2, 512]⟩ ![0, 0, 254, 0] x h₁⟩,
         ⟨⟨4, ![4, 19, 254, 512]⟩, extractStridedSlice ⟨4, ![4, 19, 254, 512]⟩ ![0, 0, 0, 0] x h₂⟩] hc)
      = dynamicRotate 0 2#32 none (plane b i x) rot_ax0 :=
  plane_roll2_p2 b i x h₁ h₂ hc rot_ax0

end Rolls

end Cert.Hand.Proj

end
-- ==== Proof.KIBlocks.lean ====
import proofs.«403124_j5119601017346_4_alg».proof.Proof.KIFrame
import proofs.«403124_j5119601017346_4_alg».proof.Proof.PlaneProj

noncomputable section

namespace Cert.KernelIdeal.Hand

open Idealize.ShloMosaic Idealize.ShloMosaic.TcCoe
open Idealize.SL Idealize.SL.Sem
open Cert.KernelIdeal Cert.KernelIdeal.Gen

theorem pt_lt (t : Fin cfg0.N) : t.val < 76 := by
  have ht : t.val < grid0.N := t.isLt
  rw [N_0] at ht; exact ht

theorem emb_eq_ix4 (q : Fin 4 → Nat) (T off : Nat) (hT : T < 76)
    (e : q 0 = T / 19 ∧ q 1 = T % 19 + off ∧ q 2 = 0 ∧ q 3 = 0)
    (y : S1x1x256x512.Idx) (z : S4x21x256x512.Idx)
    (hz : ∀ a : Fin 4, (z a).val = q a * S1x1x256x512.size a + 1 * (y a).val)
    (h0 : T / 19 % 4 < 4) (h1 : T % 19 + off < 21) :
    z = ValueIdx.ix4 (n0 := 4) (n1 := 21) (n2 := 256) (n3 := 512) ⟨T / 19 % 4, h0⟩ ⟨T % 19 + off, h1⟩ (y 2) (y 3) := by
  obtain ⟨e0, e1, e2, e3⟩ := e
  funext a; apply Fin.ext
  match a with
  | ⟨0, _⟩ =>
    have hz0 : (z 0).val = q 0 * 1 + 1 * (y 0).val := hz 0
    have hy : (y 0).val < 1 := (y 0).isLt
    show (z 0).val = T / 19 % 4; omega
  | ⟨1, _⟩ =>
    have hz1 : (z 1).val = q 1 * 1 + 1 * (y 1).val := hz 1
    have hy : (y 1).val < 1 := (y 1).isLt
    show (z 1).val = T % 19 + off; omega
  | ⟨2, _⟩ =>
    have hz2 : (z 2).val = q 2 * 256 + 1 * (y 2).val := hz 2
    show (z 2).val = (y 2).val; omega
  | ⟨3, _⟩ =>
    have hz3 : (z 3).val = q 3 * 512 + 1 * (y 3).val := hz 3
    show (z 3).val = (y 3).val; omega

end Cert.KernelIdeal.Hand
-- ==== Proof.KIBlocksTab.lean ====
import proofs.«403124_j5119601017346_4_alg».proof.Proof.KIBlocks

/-!
# The kernel's loaded blocks are blocks of the argument arrays

At point t of the 76-point grid each of the ten input windows reads one [1, 1, 256, 512] block of a [4, 21, 256, 512]
argument array: the block at batch t / 19 and time t % 19 + k, where the window's offset k is 0, 1 or 2. The first
argument is read at k = 0, 1, 2 (windows 0, 1, 2), the second likewise (windows 3, 4, 5), the third at k = 1 only
(window 6), the fourth at k = 0, 1, 2 (windows 7, 8, 9). Per window: its block indices at every point, decided once over
the grid; then its block as that block of the array.
-/

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-! ## The block indices of the ten input windows, decided over the grid -/

theorem idx_facts_0 : ∀ t : Fin cfg0.N, win0_0.index t (0 : Fin 4) = t.val / 19 ∧ win0_0.index t (1 : Fin 4) = t.val % 19 + 0
    ∧ win0_0.index t (2 : Fin 4) = 0 ∧ win0_0.index t (3 : Fin 4) = 0 :=
  (by decide +kernel : ∀ t : Fin grid0.N, _)

theorem idx_facts_1 : ∀ t : Fin cfg0.N, win0_1.index t (0 : Fin 4) = t.val / 19 ∧ win0_1.index t (1 : Fin 4) = t.val % 19 + 1
    ∧ win0_1.index t (2 : Fin 4) = 0 ∧ win0_1.index t (3 : Fin 4) = 0 :=
  (by decide +kernel : ∀ t : Fin grid0.N, _)

theorem idx_facts_2 : ∀ t : Fin cfg0.N, win0_2.index t (0 : Fin 4) = t.val / 19 ∧ win0_2.index t (1 : Fin 4) = t.val % 19 + 2
    ∧ win0_2.index t (2 : Fin 4) = 0 ∧ win0_2.index t (3 : Fin 4) = 0 :=
  (by decide +kernel : ∀ t : Fin grid0.N, _)

theorem idx_facts_3 : ∀ t : Fin cfg0.N, win0_3.index t (0 : Fin 4) = t.val / 19 ∧ win0_3.index t (1 : Fin 4) = t.val % 19 + 0
    ∧ win0_3.index t (2 : Fin 4) = 0 ∧ win0_3.index t (3 : Fin 4) = 0 :=
  (by decide +kernel : ∀ t : Fin grid0.N, _)

theorem idx_facts_4 : ∀ t : Fin cfg0.N, win0_4.index t (0 : Fin 4) = t.val / 19 ∧ win0_4.index t (1 : Fin 4) = t.val % 19 + 1
    ∧ win0_4.index t (2 : Fin 4) = 0 ∧ win0_4.index t (3 : Fin 4) = 0 :=
  (by decide +kernel : ∀ t : Fin grid0.N, _)

theorem idx_facts_5 : ∀ t : Fin cfg0.N, win0_5.index t (0 : Fin 4) = t.val / 19 ∧ win0_5.index t (1 : Fin 4) = t.val % 19 + 2
    ∧ win0_5.index t (2 : Fin 4) = 0 ∧ win0_5.index t (3 : Fin 4) = 0 :=
  (by decide +kernel : ∀ t : Fin grid0.N, _)

theorem idx_facts_6 : ∀ t : Fin cfg0.N, win0_6.index t (0 : Fin 4) = t.val / 19 ∧ win0_6.index t (1 : Fin 4) = t.val % 19 + 1
    ∧ win0_6.index t (2 : Fin 4) = 0 ∧ win0_6.index t (3 : Fin 4) = 0 :=
  (by decide +kernel : ∀ t : Fin grid0.N, _)

theorem idx_facts_7 : ∀ t : Fin cfg0.N, win0_7.index t (0 : Fin 4) = t.val / 19 ∧ win0_7.index t (1 : Fin 4) = t.val % 19 + 0
    ∧ win0_7.index t (2 : Fin 4) = 0 ∧ win0_7.index t (3 : Fin 4) = 0 :=
  (by decide +kernel : ∀ t : Fin grid0.N, _)

theorem idx_facts_8 : ∀ t : Fin cfg0.N, win0_8.index t (0 : Fin 4) = t.val / 19 ∧ win0_8.index t (1 : Fin 4) = t.val % 19 + 1
    ∧ win0_8.index t (2 : Fin 4) = 0 ∧ win0_8.index t (3 : Fin 4) = 0 :=
  (by decide +kernel : ∀ t : Fin grid0.N, _)

theorem idx_facts_9 : ∀ t : Fin cfg0.N, win0_9.index t (0 : Fin 4) = t.val / 19 ∧ win0_9.index t (1 : Fin 4) = t.val % 19 + 2
    ∧ win0_9.index t (2 : Fin 4) = 0 ∧ win0_9.index t (3 : Fin 4) = 0 :=
  (by decide +kernel : ∀ t : Fin grid0.N, _)

/-! ## Each window's block is a block of its argument array -/

/-- Window 0 at point t: the first argument's block at batch t / 19, time t % 19. -/
theorem iblk_0 (c : Dev nD) (t : Fin cfg0.N) :
    (iblk m c 0 t : Vec F S1x1x256x512 .f32)
      = Cert.Hand.Proj.blk4 ⟨t.val / 19 % 4, by omega⟩ ⟨t.val % 19, by omega⟩ (m ((c : Thread nD τ).loc main_arg0)) := by
  funext y
  exact congrArg (V m c main_arg0)
    (emb_eq_ix4 (win0_0.index t) t.val 0 (pt_lt t) (idx_facts_0 t) y (((cfg0.win 0).blk t).view.emb y) (fun _ => rfl) _ _)

/-- Window 1 at point t: the first argument's block at batch t / 19, time t % 19 + 1. -/
theorem iblk_1 (c : Dev nD) (t : Fin cfg0.N) :
    (iblk m c 1 t : Vec F S1x1x256x512 .f32)
      = Cert.Hand.Proj.blk4 ⟨t.val / 19 % 4, by omega⟩ ⟨t.val % 19 + 1, by omega⟩ (m ((c : Thread nD τ).loc main_arg0)) := by
  funext y
  exact congrArg (V m c main_arg0)
    (emb_eq_ix4 (win0_1.index t) t.val 1 (pt_lt t) (idx_facts_1 t) y (((cfg0.win 1).blk t).view.emb y) (fun _ => rfl) _ _)

/-- Window 2 at point t: the first argument's block at batch t / 19, time t % 19 + 2. -/
theorem iblk_2 (c : Dev nD) (t : Fin cfg0.N) :
    (iblk m c 2 t : Vec F S1x1x256x512 .f32)
      = Cert.Hand.Proj.blk4 ⟨t.val / 19 % 4, by omega⟩ ⟨t.val % 19 + 2, by omega⟩ (m ((c : Thread nD τ).loc main_arg0)) := by
  funext y
  exact congrArg (V m c main_arg0)
    (emb_eq_ix4 (win0_2.index t) t.val 2 (pt_lt t) (idx_facts_2 t) y (((cfg0.win 2).blk t).view.emb y) (fun _ => rfl) _ _)

/-- Window 3 at point t: the second argument's block at batch t / 19, time t % 19. -/
theorem iblk_3 (c : Dev nD) (t : Fin cfg0.N) :
    (iblk m c 3 t : Vec F S1x1x256x512 .f32)
      = Cert.Hand.Proj.blk4 ⟨t.val / 19 % 4, by omega⟩ ⟨t.val % 19, by omega⟩ (m ((c : Thread nD τ).loc main_arg1)) := by
  funext y
  exact congrArg (V m c main_arg1)
    (emb_eq_ix4 (win0_3.index t) t.val 0 (pt_lt t) (idx_facts_3 t) y (((cfg0.win 3).blk t).view.emb y) (fun _ => rfl) _ _)

/-- Window 4 at point t: the second argument's block at batch t / 19, time t % 19 + 1. -/
theorem iblk_4 (c : Dev nD) (t : Fin cfg0.N) :
    (iblk m c 4 t : Vec F S1x1x256x512 .f32)
      = Cert.Hand.Proj.blk4 ⟨t.val / 19 % 4, by omega⟩ ⟨t.val % 19 + 1, by omega⟩ (m ((c : Thread nD τ).loc main_arg1)) := by
  funext y
  exact congrArg (V m c main_arg1)
    (emb_eq_ix4 (win0_4.index t) t.val 1 (pt_lt t) (idx_facts_4 t) y (((cfg0.win 4).blk t).view.emb y) (fun _ => rfl) _ _)

/-- Window 5 at point t: the second argument's block at batch t / 19, time t % 19 + 2. -/
theorem iblk_5 (c : Dev nD) (t : Fin cfg0.N) :
    (iblk m c 5 t : Vec F S1x1x256x512 .f32)
      = Cert.Hand.Proj.blk4 ⟨t.val / 19 % 4, by omega⟩ ⟨t.val % 19 + 2, by omega⟩ (m ((c : Thread nD τ).loc main_arg1)) := by
  funext y
  exact congrArg (V m c main_arg1)
    (emb_eq_ix4 (win0_5.index t) t.val 2 (pt_lt t) (idx_facts_5 t) y (((cfg0.win 5).blk t).view.emb y) (fun _ => rfl) _ _)

/-- Window 6 at point t: the third argument's block at batch t / 19, time t % 19 + 1. -/
theorem iblk_6 (c : Dev nD) (t : Fin cfg0.N) :
    (iblk m c 6 t : Vec F S1x1x256x512 .f32)
      = Cert.Hand.Proj.blk4 ⟨t.val / 19 % 4, by omega⟩ ⟨t.val % 19 + 1, by omega⟩ (m ((c : Thread nD τ).loc main_arg2)) := by
  funext y
  exact congrArg (V m c main_arg2)
    (emb_eq_ix4 (win0_6.index t) t.val 1 (pt_lt t) (idx_facts_6 t) y (((cfg0.win 6).blk t).view.emb y) (fun _ => rfl) _ _)

/-- Window 7 at point t: the fourth argument's block at batch t / 19, time t % 19. -/
theorem iblk_7 (c : Dev nD) (t : Fin cfg0.N) :
    (iblk m c 7 t : Vec F S1x1x256x512 .f32)
      = Cert.Hand.Proj.blk4 ⟨t.val / 19 % 4, by omega⟩ ⟨t.val % 19, by omega⟩ (m ((c : Thread nD τ).loc main_arg3)) := by
  funext y
  exact congrArg (V m c main_arg3)
    (emb_eq_ix4 (win0_7.index t) t.val 0 (pt_lt t) (idx_facts_7 t) y (((cfg0.win 7).blk t).view.emb y) (fun _ => rfl) _ _)

/-- Window 8 at point t: the fourth argument's block at batch t / 19, time t % 19 + 1. -/
theorem iblk_8 (c : Dev nD) (t : Fin cfg0.N) :
    (iblk m c 8 t : Vec F S1x1x256x512 .f32)
      = Cert.Hand.Proj.blk4 ⟨t.val / 19 % 4, by omega⟩ ⟨t.val % 19 + 1, by omega⟩ (m ((c : Thread nD τ).loc main_arg3)) := by
  funext y
  exact congrArg (V m c main_arg3)
    (emb_eq_ix4 (win0_8.index t) t.val 1 (pt_lt t) (idx_facts_8 t) y (((cfg0.win 8).blk t).view.emb y) (fun _ => rfl) _ _)

/-- Window 9 at point t: the fourth argument's block at batch t / 19, time t % 19 + 2. -/
theorem iblk_9 (c : Dev nD) (t : Fin cfg0.N) :
    (iblk m c 9 t : Vec F S1x1x256x512 .f32)
      = Cert.Hand.Proj.blk4 ⟨t.val / 19 % 4, by omega⟩ ⟨t.val % 19 + 2, by omega⟩ (m ((c : Thread nD τ).loc main_arg3)) := by
  funext y
  exact congrArg (V m c main_arg3)
    (emb_eq_ix4 (win0_9.index t) t.val 2 (pt_lt t) (idx_facts_9 t) y (((cfg0.win 9).blk t).view.emb y) (fun _ => rfl) _ _)

end Cert.KernelIdeal.Hand
-- ==== Proof.KIFinal.lean ====
import proofs.«403124_j5119601017346_4_alg».proof.Proof.KIFrame
import Idealize.ShloMosaic.Lib.Pipeline.Value

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

abbrev lastPt : Fin cfg0.N := ⟨75, by show 75 < grid0.N; rw [N_0]; decide⟩

theorem eq_lastPt (t : Fin cfg0.N) (h : t.val % 76 = 75) : t = lastPt := by
  have ht : t.val < grid0.N := t.isLt
  rw [N_0] at ht
  apply Fin.ext; show t.val = 75; omega

theorem unit_emb (q : Fin 2 → Nat) (e : q 0 = 0 ∧ q 1 = 0) (y z : S1x1.Idx)
    (hz : ∀ a : Fin 2, (z a).val = q a * S1x1.size a + 1 * (y a).val) : z = y := by
  obtain ⟨e0, e1⟩ := e
  funext a; apply Fin.ext
  match a with
  | ⟨0, _⟩ => have h0 : (z 0).val = q 0 * 1 + 1 * (y 0).val := hz 0; show (z 0).val = (y 0).val; omega
  | ⟨1, _⟩ => have h1 : (z 1).val = q 1 * 1 + 1 * (y 1).val := hz 1; show (z 1).val = (y 1).val; omega

theorem idx_out10 : ∀ t : Fin cfg0.N, win0_10.index t (0 : Fin 2) = 0 ∧ win0_10.index t (1 : Fin 2) = 0 :=
  (by decide +kernel : ∀ t : Fin grid0.N, _)

theorem emb_out10 (y : S1x1.Idx) : ((cfg0.win 10).blk lastPt).view.emb y = y :=
  unit_emb (win0_10.index lastPt) (idx_out10 lastPt) y _ (fun _ => rfl)

theorem arrAt_out10 (c : Dev nD) :
    (dats m 0 c).arrAt 10 cfg0.N = (fun i => (outAt m c lastPt).1 i) := by
  refine (dats m 0 c).arrAt_eq_of_cover 10 _ (fun t hf => ?_) (fun i => ?_)
  · obtain rfl := eq_lastPt t ((flush0_10 t).mp hf)
    funext y
    show (outAt m c lastPt).1 y = (outAt m c lastPt).1 (((cfg0.win 10).blk lastPt).view.emb y)
    rw [emb_out10]
  · refine ⟨lastPt, (flush0_10 lastPt).mpr rfl, ?_⟩
    have h := ((cfg0.win 10).blk lastPt).view.emb_mem_set i
    rw [emb_out10] at h
    exact h

theorem idx_out11 : ∀ t : Fin cfg0.N, win0_11.index t (0 : Fin 2) = 0 ∧ win0_11.index t (1 : Fin 2) = 0 :=
  (by decide +kernel : ∀ t : Fin grid0.N, _)

theorem emb_out11 (y : S1x1.Idx) : ((cfg0.win 11).blk lastPt).view.emb y = y :=
  unit_emb (win0_11.index lastPt) (idx_out11 lastPt) y _ (fun _ => rfl)

theorem arrAt_out11 (c : Dev nD) :
    (dats m 0 c).arrAt 11 cfg0.N = (fun i => (outAt m c lastPt).2.1 i) := by
  refine (dats m 0 c).arrAt_eq_of_cover 11 _ (fun t hf => ?_) (fun i => ?_)
  · obtain rfl := eq_lastPt t ((flush0_11 t).mp hf)
    funext y
    show (outAt m c lastPt).2.1 y = (outAt m c lastPt).2.1 (((cfg0.win 11).blk lastPt).view.emb y)
    rw [emb_out11]
  · refine ⟨lastPt, (flush0_11 lastPt).mpr rfl, ?_⟩
    have h := ((cfg0.win 11).blk lastPt).view.emb_mem_set i
    rw [emb_out11] at h
    exact h

theorem idx_out12 : ∀ t : Fin cfg0.N, win0_12.index t (0 : Fin 2) = 0 ∧ win0_12.index t (1 : Fin 2) = 0 :=
  (by decide +kernel : ∀ t : Fin grid0.N, _)

theorem emb_out12 (y : S1x1.Idx) : ((cfg0.win 12).blk lastPt).view.emb y = y :=
  unit_emb (win0_12.index lastPt) (idx_out12 lastPt) y _ (fun _ => rfl)

theorem arrAt_out12 (c : Dev nD) :
    (dats m 0 c).arrAt 12 cfg0.N = (fun i => (outAt m c lastPt).2.2.1 i) := by
  refine (dats m 0 c).arrAt_eq_of_cover 12 _ (fun t hf => ?_) (fun i => ?_)
  · obtain rfl := eq_lastPt t ((flush0_12 t).mp hf)
    funext y
    show (outAt m c lastPt).2.2.1 y = (outAt m c lastPt).2.2.1 (((cfg0.win 12).blk lastPt).view.emb y)
    rw [emb_out12]
  · refine ⟨lastPt, (flush0_12 lastPt).mpr rfl, ?_⟩
    have h := ((cfg0.win 12).blk lastPt).view.emb_mem_set i
    rw [emb_out12] at h
    exact h

theorem idx_out13 : ∀ t : Fin cfg0.N, win0_13.index t (0 : Fin 2) = 0 ∧ win0_13.index t (1 : Fin 2) = 0 :=
  (by decide +kernel : ∀ t : Fin grid0.N, _)

theorem emb_out13 (y : S1x1.Idx) : ((cfg0.win 13).blk lastPt).view.emb y = y :=
  unit_emb (win0_13.index lastPt) (idx_out13 lastPt) y _ (fun _ => rfl)

theorem arrAt_out13 (c : Dev nD) :
    (dats m 0 c).arrAt 13 cfg0.N = (fun i => (outAt m c lastPt).2.2.2 i) := by
  refine (dats m 0 c).arrAt_eq_of_cover 13 _ (fun t hf => ?_) (fun i => ?_)
  · obtain rfl := eq_lastPt t ((flush0_13 t).mp hf)
    funext y
    show (outAt m c lastPt).2.2.2 y = (outAt m c lastPt).2.2.2 (((cfg0.win 13).blk lastPt).view.emb y)
    rw [emb_out13]
  · refine ⟨lastPt, (flush0_13 lastPt).mpr rfl, ?_⟩
    have h := ((cfg0.win 13).blk lastPt).view.emb_mem_set i
    rw [emb_out13] at h
    exact h

end Cert.KernelIdeal.Hand
-- ==== Proof.SumReorg.lean ====
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Mathlib.Algebra.BigOperators.Fin
import Mathlib.Algebra.BigOperators.Group.Finset.Defs
import Mathlib.Data.Fintype.BigOperators

noncomputable section

open scoped BigOperators

namespace Cert.Hand.Sums

open Idealize.ShloMosaic Idealize.ShloMosaic.ValueIdx

abbrev A19 : Shape := ⟨4, ![4, 19, 256, 512]⟩

abbrev P2 : Shape := ⟨2, ![256, 512]⟩

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

def psum (Y : FVec Ideal P2 .f32) : EReal := ∑ h : Fin 256, ∑ w : Fin 512, Y (ix2 h w)

theorem plane_sum_eq (Y : FVec Ideal P2 .f32)
    (hr1 : P2.Reduces [1] ⟨1, ![256]⟩) (hφ1 : FKind.Formats .f32)
    (ha1 : (0x00000000#32 : BitVec (FTy.bits .f32)) = FKind.add.neutral .f32 hφ1)
    (hc1 : (⟨1, ![256]⟩ : Shape).ShapeCasts ⟨2, ![256, 1]⟩)
    (hr2 : (⟨2, ![256, 1]⟩ : Shape).Reduces [0] ⟨1, ![1]⟩) (hφ2 : FKind.Formats .f32)
    (ha2 : (0x00000000#32 : BitVec (FTy.bits .f32)) = FKind.add.neutral .f32 hφ2)
    (hc2 : (⟨1, ![1]⟩ : Shape).ShapeCasts ⟨2, ![1, 1]⟩) :
    shapeCast ⟨2, ![1, 1]⟩
        (multiReduction (F := Ideal) (φ := .f32) .add [0] ⟨1, ![1]⟩
          (shapeCast ⟨2, ![256, 1]⟩
            (multiReduction (F := Ideal) (φ := .f32) .add [1] ⟨1, ![256]⟩ Y 0x00000000#32 hr1 hφ1 ha1) hc1)
          0x00000000#32 hr2 hφ2 ha2) hc2 (ix2 0 0)
      = ∑ h : Fin 256, ∑ w : Fin 512, Y (ix2 h w) := by
  refine (shapeCast_a_1a_apply _ hc2 0 0).trans ?_
  refine (Ideal.multiReduction_add_single _ _ hr2 hφ2 ha2 (ix1 0)).trans ?_
  refine Finset.sum_congr rfl fun h _ => ?_
  have e2 : hr2.lift (ix1 0) h = ix2 (n0 := 256) (n1 := 1) h 0 := by
    funext a
    match a with
    | ⟨0, _⟩ => rfl
    | ⟨1, _⟩ => rfl
  rw [e2]
  refine (shapeCast_a_a1_apply _ hc1 h 0).trans ?_
  refine (Ideal.multiReduction_add_single Y _ hr1 hφ1 ha1 (ix1 h)).trans ?_
  refine Finset.sum_congr rfl fun w _ => ?_
  refine congrArg Y ?_
  funext a
  match a with
  | ⟨0, _⟩ => rfl
  | ⟨1, _⟩ => rfl

theorem plane_sum_printed (Y : FVec Ideal P2 .f32)
    (hr1 : P2.Reduces [1] ⟨1, ![256]⟩) (hc1 : (⟨1, ![256]⟩ : Shape).ShapeCasts ⟨2, ![256, 1]⟩)
    (hr2 : (⟨2, ![256, 1]⟩ : Shape).Reduces [0] ⟨1, ![1]⟩) (hc2 : (⟨1, ![1]⟩ : Shape).ShapeCasts ⟨2, ![1, 1]⟩) :
    shapeCast ⟨2, ![1, 1]⟩
        (multiReduction (F := Ideal) (φ := .f32) .add [0] ⟨1, ![1]⟩
          (shapeCast ⟨2, ![256, 1]⟩
            (multiReduction (F := Ideal) (φ := .f32) .add [1] ⟨1, ![256]⟩ Y 0x00000000#32 hr1 (.inl rfl) rfl) hc1)
          0x00000000#32 hr2 (.inl rfl) rfl) hc2 (ix2 0 0)
      = psum Y :=
  plane_sum_eq Y hr1 _ _ hc1 hr2 _ _ hc2

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

def gridEquiv : Fin 76 ≃ Fin 4 × Fin 19 where
  toFun t := (⟨t.val / 19, by omega⟩, ⟨t.val % 19, by omega⟩)
  invFun p := ⟨p.1.val * 19 + p.2.val, by omega⟩
  left_inv t := Fin.ext (by show t.val / 19 * 19 + t.val % 19 = t.val; omega)
  right_inv p := Prod.ext
    (Fin.ext (by show (p.1.val * 19 + p.2.val) / 19 = p.1.val; omega))
    (Fin.ext (by show (p.1.val * 19 + p.2.val) % 19 = p.2.val; omega))

theorem sum_grid {M : Type*} [AddCommMonoid M] (g : Fin 4 → Fin 19 → M) :
    ∑ b : Fin 4, ∑ i : Fin 19, g b i
      = ∑ t : Fin 76, g ⟨t.val / 19, by omega⟩ ⟨t.val % 19, by omega⟩ :=
  (Fintype.sum_prod_type' g).symm.trans (Equiv.sum_comp gridEquiv fun p : Fin 4 × Fin 19 => g p.1 p.2).symm

theorem sum_A19_by_grid {M : Type*} [AddCommMonoid M] (X : A19.Idx → M) :
    ∑ j : A19.Idx, X j
      = ∑ t : Fin 76, ∑ h : Fin 256, ∑ w : Fin 512,
          X (ix4 (⟨t.val / 19, by omega⟩ : Fin 4) (⟨t.val % 19, by omega⟩ : Fin 19) h w) :=
  (sum_idx4 X).trans (sum_grid fun b i => ∑ h : Fin 256, ∑ w : Fin 512, X (ix4 b i h w))

def accFold (f : ℕ → EReal) : ℕ → EReal
  | 0 => 0 + f 0
  | n + 1 => accFold f n + f (n + 1)

theorem accFold_eq_sum (f : ℕ → EReal) (n : ℕ) : accFold f n = ∑ t : Fin (n + 1), f t.val := by
  induction n with
  | zero =>
    show 0 + f 0 = ∑ t : Fin 1, f t.val
    rw [zero_add, Fin.sum_univ_one]
    rfl
  | succ n ih =>
    show accFold f n + f (n + 1) = ∑ t : Fin (n + 1 + 1), f t.val
    rw [ih, Fin.sum_univ_castSucc (f := fun t : Fin (n + 1 + 1) => f t.val)]
    rfl

theorem accFold_planes_eq_total (X : A19.Idx → EReal) (f : ℕ → EReal)
    (hf : ∀ t : Fin 76, f t.val
      = ∑ h : Fin 256, ∑ w : Fin 512, X (ix4 (⟨t.val / 19, by omega⟩ : Fin 4) (⟨t.val % 19, by omega⟩ : Fin 19) h w)) :
    accFold f 75 = ∑ j : A19.Idx, X j := by
  rw [accFold_eq_sum, sum_A19_by_grid]
  exact Finset.sum_congr rfl fun t _ => hf t

theorem ofBits_zero : (Ideal.ofBits .f32 0x00000000#32 : EReal) = 0 := Ideal.ofBits_zero_f32

end Cert.Hand.Sums

end
-- ==== Proof.PushShared.lean ====
import proofs.«403124_j5119601017346_4_alg».proof.Proof.PlaneProj
import proofs.«403124_j5119601017346_4_alg».proof.Proof.KPlane
import proofs.«403124_j5119601017346_4_alg».proof.Proof.RefStages

noncomputable section

namespace Cert.Hand.Push

open Idealize.ShloMosaic Cert.Hand.Proj Cert.ReferenceIdeal Cert.ReferenceIdeal.Stages Cert.KernelIdeal.Hand

abbrev t0 (i : Fin 19) : Fin 21 := ⟨i.val, by have := i.isLt; omega⟩

abbrev t1 (i : Fin 19) : Fin 21 := ⟨i.val + 1, by have := i.isLt; omega⟩

abbrev t2 (i : Fin 19) : Fin 21 := ⟨i.val + 2, by have := i.isLt; omega⟩

section
variable (b : Fin 4) (i : Fin 19)

theorem plane_cst (w : BitVec 32) (h : S_.BroadcastsInDim S4x19x256x512 ![]) :
    plane (α := Ideal .f32) b i
        (broadcastInDim (α := Elt Ideal (⟨S4x19x256x512, .f32⟩ : BufTy).elt) S4x19x256x512 ![] h
          (constant (F := Ideal) S_ .f32 w))
      = broadcast P2 (Scalar.ofBits (F := Ideal) .f32 w) := rfl

theorem plane_elt (x : A19.Idx → Elt Ideal (⟨S4x19x256x512, .f32⟩ : BufTy).elt) :
    plane (α := Elt Ideal (⟨S4x19x256x512, .f32⟩ : BufTy).elt) b i x = plane (α := Ideal .f32) b i x := rfl

theorem plane_sl0 (X : A21.Idx → EReal) (h : A21.Slices ![0, 0, 0, 0] A19) :
    plane b i (extractStridedSlice A19 ![0, 0, 0, 0] X h)
      = shapeCast Cert.KernelIdeal.S256x512 (blk4 b (t0 i) X)
          Cert.KernelIdeal.Gen.shapeCasts_S1x1x256x512_S256x512 :=
  (plane_slice0 b i X h).trans (shapeCast_blk4 b (t0 i) X _).symm

theorem plane_sl1 (X : A21.Idx → EReal) (h : A21.Slices ![0, 1, 0, 0] A19) :
    plane b i (extractStridedSlice A19 ![0, 1, 0, 0] X h)
      = shapeCast Cert.KernelIdeal.S256x512 (blk4 b (t1 i) X)
          Cert.KernelIdeal.Gen.shapeCasts_S1x1x256x512_S256x512 :=
  (plane_slice1 b i X h).trans (shapeCast_blk4 b (t1 i) X _).symm

theorem plane_sl2 (X : A21.Idx → EReal) (h : A21.Slices ![0, 2, 0, 0] A19) :
    plane b i (extractStridedSlice A19 ![0, 2, 0, 0] X h)
      = shapeCast Cert.KernelIdeal.S256x512 (blk4 b (t2 i) X)
          Cert.KernelIdeal.Gen.shapeCasts_S1x1x256x512_S256x512 :=
  (plane_slice2 b i X h).trans (shapeCast_blk4 b (t2 i) X _).symm

theorem plane_v0 (x0 : A21.Idx → EReal) :
    plane (α := Ideal .f32) b i (val_main_v0 (F := Ideal) x0) = u2 (F := Ideal) (blk4 b (t1 i) x0) :=
  plane_sl1 b i x0 _

theorem plane_v1 (x1 : A21.Idx → EReal) :
    plane (α := Ideal .f32) b i (val_main_v1 (F := Ideal) x1) = v2 (F := Ideal) (blk4 b (t1 i) x1) :=
  plane_sl1 b i x1 _

theorem plane_v2 (x2 : A21.Idx → EReal) :
    plane (α := Ideal .f32) b i (val_main_v2 (F := Ideal) x2) = p2 (F := Ideal) (blk4 b (t1 i) x2) :=
  plane_sl1 b i x2 _

theorem plane_v3 (x3 : A21.Idx → EReal) :
    plane (α := Ideal .f32) b i (val_main_v3 (F := Ideal) x3) = s2 (F := Ideal) (blk4 b (t1 i) x3) :=
  plane_sl1 b i x3 _

theorem plane_v7 (x0 : A21.Idx → EReal) :
    plane (α := Ideal .f32) b i (val_main_v7 (F := Ideal) x0) = uc_e (F := Ideal) (blk4 b (t1 i) x0) := by
  simp only [val_main_v7, val_main_v6, val_main_cst, val_main_v5, val_main_v4, val_main_call0_v0,
    val_main_call0_v1, plane_elt, plane_mulf, plane_addf, plane_cst, plane_roll3_m1', plane_v0]
  rfl

theorem plane_v11 (x0 : A21.Idx → EReal) :
    plane (α := Ideal .f32) b i (val_main_v11 (F := Ideal) x0) = uc_w (F := Ideal) (blk4 b (t1 i) x0) := by
  simp only [val_main_v11, val_main_v10, val_main_cst_0, val_main_v9, val_main_v8, val_main_call1_v0,
    val_main_call1_v1, plane_elt, plane_mulf, plane_addf, plane_cst, plane_roll3_p1', plane_v0]
  rfl

theorem plane_v15 (x1 : A21.Idx → EReal) :
    plane (α := Ideal .f32) b i (val_main_v15 (F := Ideal) x1) = vc_n (F := Ideal) (blk4 b (t1 i) x1) := by
  simp only [val_main_v15, val_main_v14, val_main_cst_1, val_main_v13, val_main_v12, val_main_call2_v0,
    val_main_call2_v1, plane_elt, plane_mulf, plane_addf, plane_cst, plane_roll2_m1', plane_v1]
  rfl

theorem plane_v19 (x1 : A21.Idx → EReal) :
    plane (α := Ideal .f32) b i (val_main_v19 (F := Ideal) x1) = vc_s (F := Ideal) (blk4 b (t1 i) x1) := by
  simp only [val_main_v19, val_main_v18, val_main_cst_2, val_main_v17, val_main_v16, val_main_call3_v0,
    val_main_call3_v1, plane_elt, plane_mulf, plane_addf, plane_cst, plane_roll2_p1', plane_v1]
  rfl

theorem plane_v26 (x0 x1 : A21.Idx → EReal) :
    plane (α := Ideal .f32) b i (val_main_v26 (F := Ideal) x0 x1)
      = div (F := Ideal) (blk4 b (t1 i) x0) (blk4 b (t1 i) x1) := by
  simp only [val_main_v26, val_main_v25, val_main_v24, val_main_cst_4, val_main_v23, val_main_v22,
    val_main_v21, val_main_cst_3, val_main_v20, plane_elt, plane_addf, plane_subf, plane_hostDivf, plane_cst,
    plane_v7, plane_v11, plane_v15, plane_v19]
  rfl

end

end Cert.Hand.Push

end
-- ==== Proof.Push0.lean ====
import proofs.«403124_j5119601017346_4_alg».proof.Proof.PushShared

noncomputable section

namespace Cert.Hand.Push

open Idealize.ShloMosaic Cert.Hand.Proj Cert.ReferenceIdeal Cert.ReferenceIdeal.Stages Cert.KernelIdeal.Hand

theorem push0 (x0 x1 : (⟨4, ![4, 21, 256, 512]⟩ : Shape).Idx → EReal) (b : Fin 4) (i : Fin 19) :
    Proj.plane b i (Stages.val_main_v27 (F := Ideal) x0 x1)
      = Cert.KernelIdeal.Hand.sq0 (F := Ideal) (Proj.blk4 b ⟨i.val + 1, by omega⟩ x0)
          (Proj.blk4 b ⟨i.val + 1, by omega⟩ x1) := by
  simp only [val_main_v27, plane_elt, plane_mulf, plane_v26]
  rfl

end Cert.Hand.Push

end
-- ==== Proof.Push1.lean ====
import proofs.«403124_j5119601017346_4_alg».proof.Proof.PushShared

noncomputable section

namespace Cert.Hand.Push

open Idealize.ShloMosaic Cert.Hand.Proj Cert.ReferenceIdeal Cert.ReferenceIdeal.Stages Cert.KernelIdeal.Hand

section
variable (b : Fin 4) (i : Fin 19)

theorem plane_v30 (x0 : A21.Idx → EReal) :
    plane (α := Ideal .f32) b i (val_main_v30 (F := Ideal) x0)
      = shapeCast Cert.KernelIdeal.S256x512 (blk4 b (t2 i) x0)
          Cert.KernelIdeal.Gen.shapeCasts_S1x1x256x512_S256x512 :=
  plane_sl2 b i x0 _

theorem plane_v31 (x0 : A21.Idx → EReal) :
    plane (α := Ideal .f32) b i (val_main_v31 (F := Ideal) x0)
      = shapeCast Cert.KernelIdeal.S256x512 (blk4 b (t0 i) x0)
          Cert.KernelIdeal.Gen.shapeCasts_S1x1x256x512_S256x512 :=
  plane_sl0 b i x0 _

theorem plane_v34 (x0 : A21.Idx → EReal) :
    plane (α := Ideal .f32) b i (val_main_v34 (F := Ideal) x0)
      = du_dt (F := Ideal) (blk4 b (t0 i) x0) (blk4 b (t2 i) x0) := by
  simp only [val_main_v34, val_main_v33, val_main_cst_7, val_main_v32, plane_elt, plane_hostDivf,
    plane_subf, plane_cst, plane_v30, plane_v31]
  rfl

theorem plane_v39 (x2 : A21.Idx → EReal) :
    plane (α := Ideal .f32) b i (val_main_v39 (F := Ideal) x2) = dpx (F := Ideal) (blk4 b (t1 i) x2) := by
  simp only [val_main_v39, val_main_v38, val_main_cst_8, val_main_v37, val_main_v36, val_main_call5_v0,
    val_main_call5_v1, val_main_v35, val_main_call4_v0, val_main_call4_v1, plane_elt, plane_hostDivf,
    plane_subf, plane_cst, plane_roll3_m1', plane_roll3_p1', plane_v2]
  rfl

theorem plane_v41 (x0 : A21.Idx → EReal) :
    plane (α := BitVec 1) b i (val_main_v41 (F := Ideal) x0) = mE_u (F := Ideal) (blk4 b (t1 i) x0) := by
  simp only [val_main_v41, val_main_v40, val_main_cst_9, plane_cmpf, plane_cst, plane_v7]
  rfl

theorem plane_v43 (x0 : A21.Idx → EReal) :
    plane (α := Ideal .f32) b i (val_main_v43 (F := Ideal) x0) = u_x15 (F := Ideal) (blk4 b (t1 i) x0) := by
  simp only [val_main_v43, val_main_v42, val_main_cst_10, plane_elt, plane_mulf, plane_cst, plane_v0]
  rfl

theorem plane_v55 (x0 : A21.Idx → EReal) :
    plane (α := Ideal .f32) b i (val_main_v55 (F := Ideal) x0) = uFe (F := Ideal) (blk4 b (t1 i) x0) := by
  simp only [val_main_v55, val_main_v54, val_main_v53, val_main_v52, val_main_cst_13, val_main_v51,
    val_main_call8_v0, val_main_call8_v1, val_main_v50, val_main_v49, val_main_cst_12, val_main_v48,
    val_main_call7_v0, val_main_call7_v1, val_main_v47, val_main_v46, val_main_v45, val_main_cst_11,
    val_main_v44, val_main_call6_v0, val_main_call6_v1, plane_elt, plane_select, plane_subf, plane_mulf,
    plane_cst, plane_roll3_p1', plane_roll3_m1', plane_roll3_m2', plane_v41, plane_v43, plane_v0]
  rfl

theorem plane_v71 (x0 : A21.Idx → EReal) :
    plane (α := Ideal .f32) b i (val_main_v71 (F := Ideal) x0) = uFw (F := Ideal) (blk4 b (t1 i) x0) := by
  simp only [val_main_v71, val_main_v70, val_main_v69, val_main_v68, val_main_cst_18, val_main_v67,
    val_main_call12_v0, val_main_call12_v1, val_main_v66, val_main_v65, val_main_cst_17, val_main_v64,
    val_main_v63, val_main_v62, val_main_cst_16, val_main_v61, val_main_call11_v0, val_main_call11_v1,
    val_main_v60, val_main_v59, val_main_cst_15, val_main_v58, val_main_call10_v0, val_main_call10_v1,
    val_main_v57, val_main_v56, val_main_cst_14, plane_elt, plane_select, plane_cmpf, plane_subf,
    plane_mulf, plane_cst, plane_roll3_p1', plane_roll3_p2', plane_roll3_m1', plane_v11, plane_v0]
  rfl

theorem plane_v73 (x1 : A21.Idx → EReal) :
    plane (α := BitVec 1) b i (val_main_v73 (F := Ideal) x1) = mN_u (F := Ideal) (blk4 b (t1 i) x1) := by
  simp only [val_main_v73, val_main_v72, val_main_cst_19, plane_cmpf, plane_cst, plane_v15]
  rfl

theorem plane_v79 (x0 : A21.Idx → EReal) :
    plane (α := Ideal .f32) b i (val_main_v79 (F := Ideal) x0) = uFn_pos (F := Ideal) (blk4 b (t1 i) x0) := by
  simp only [val_main_v79, val_main_v78, val_main_v77, val_main_cst_21, val_main_v76, val_main_call14_v0,
    val_main_call14_v1, val_main_v75, val_main_v74, val_main_cst_20, plane_elt, plane_subf, plane_mulf,
    plane_cst, plane_roll2_p1', plane_v0]
  rfl

theorem plane_v82 (x0 : A21.Idx → EReal) :
    plane (α := Ideal .f32) b i (val_main_v82 (F := Ideal) x0) = uFn_neg_a (F := Ideal) (blk4 b (t1 i) x0) := by
  simp only [val_main_v82, val_main_v81, val_main_cst_22, val_main_v80, val_main_call15_v0,
    val_main_call15_v1, plane_elt, plane_mulf, plane_cst, plane_roll2_m1', plane_v0]
  rfl

theorem plane_v116 (x0 x1 x2 : A21.Idx → EReal) :
    plane (α := Ideal .f32) b i (val_main_v116 (F := Ideal) x0 x1 x2)
      = ru_head (F := Ideal) (blk4 b (t0 i) x0) (blk4 b (t1 i) x0) (blk4 b (t2 i) x0) (blk4 b (t1 i) x1)
          (blk4 b (t1 i) x2) := by
  simp only [val_main_v116, val_main_v115, val_main_v114, val_main_v113, val_main_v112, val_main_cst_30,
    val_main_v111, val_main_v110, val_main_v109, val_main_v108, val_main_v107, val_main_cst_29,
    val_main_v106, val_main_v105, val_main_v104, val_main_v103, val_main_v102, val_main_v101,
    val_main_v100, val_main_cst_28, val_main_v99, val_main_call20_v0, val_main_call20_v1, val_main_v98,
    val_main_v97, val_main_cst_27, val_main_v96, val_main_v95, val_main_v94, val_main_cst_26,
    val_main_v93, val_main_call19_v0, val_main_call19_v1, val_main_v92, val_main_v91, val_main_cst_25,
    val_main_v90, val_main_call18_v0, val_main_call18_v1, val_main_v89, val_main_v88, val_main_cst_24,
    val_main_v87, val_main_v86, val_main_v85, val_main_v84, val_main_cst_23, val_main_v83,
    val_main_call16_v0, val_main_call16_v1,
    plane_elt, plane_addf, plane_subf, plane_mulf, plane_hostDivf, plane_select, plane_cmpf, plane_cst,
    plane_roll2_m2', plane_roll2_p1', plane_roll2_p2', plane_roll2_m1',
    plane_v34, plane_v39, plane_v7, plane_v11, plane_v15, plane_v19, plane_v55, plane_v71, plane_v73,
    plane_v79, plane_v82, plane_v0]
  rfl

theorem plane_v124 (x0 : A21.Idx → EReal) :
    plane (α := Ideal .f32) b i (val_main_v124 (F := Ideal) x0) = u_lapx (F := Ideal) (blk4 b (t1 i) x0) := by
  simp only [val_main_v124, val_main_v123, val_main_cst_32, val_main_v122, val_main_v121,
    val_main_call23_v0, val_main_call23_v1, val_main_v120, val_main_v119, val_main_v118, val_main_cst_31,
    val_main_v117, val_main_call22_v0, val_main_call22_v1, plane_elt, plane_hostDivf, plane_addf,
    plane_subf, plane_mulf, plane_cst, plane_roll3_m1', plane_roll3_p1', plane_v0]
  rfl

theorem plane_v125 (x0 : A21.Idx → EReal) :
    plane (α := Ideal .f32) b i (val_main_v125 (F := Ideal) x0) = u_next0 (F := Ideal) (blk4 b (t1 i) x0) := by
  simp only [val_main_v125, val_main_call24_v0, val_main_call24_v1, plane_roll2_m1', plane_v0]
  rfl

theorem plane_v138 (x0 x1 x2 : A21.Idx → EReal) :
    plane (α := Ideal .f32) b i (val_main_v138 (F := Ideal) x0 x1 x2)
      = r1 (F := Ideal) (blk4 b (t0 i) x0) (blk4 b (t1 i) x0) (blk4 b (t2 i) x0) (blk4 b (t1 i) x1)
          (blk4 b (t1 i) x2) := by
  simp only [val_main_v138, val_main_v137, val_main_v136, val_main_v135, val_main_v134, val_main_cst_35,
    val_main_v133, val_main_v132, val_main_v131, val_main_cst_34, val_main_v130, val_main_v129,
    val_main_call25_v0, val_main_call25_v1, val_main_v128, val_main_v127, val_main_v126, val_main_cst_33,
    plane_elt, plane_subf, plane_mulf, plane_addf, plane_hostDivf, plane_cst, plane_roll2_p1',
    plane_v116, plane_v124, plane_v125, plane_v26, plane_v0]
  rfl

end

theorem push1 (x0 x1 x2 : (⟨4, ![4, 21, 256, 512]⟩ : Shape).Idx → EReal) (b : Fin 4) (i : Fin 19) :
    Proj.plane b i (Stages.val_main_v139 (F := Ideal) x0 x1 x2)
      = Cert.KernelIdeal.Hand.sq1 (F := Ideal) (Proj.blk4 b ⟨i.val, by omega⟩ x0)
          (Proj.blk4 b ⟨i.val + 1, by omega⟩ x0) (Proj.blk4 b ⟨i.val + 2, by omega⟩ x0)
          (Proj.blk4 b ⟨i.val + 1, by omega⟩ x1) (Proj.blk4 b ⟨i.val + 1, by omega⟩ x2) := by
  simp only [val_main_v139, plane_elt, plane_mulf, plane_v138]
  rfl

end Cert.Hand.Push

end
-- ==== Proof.Push2.lean ====
import proofs.«403124_j5119601017346_4_alg».proof.Proof.PlaneProj
import proofs.«403124_j5119601017346_4_alg».proof.Proof.KPlane
import proofs.«403124_j5119601017346_4_alg».proof.Proof.RefStages
import proofs.«403124_j5119601017346_4_alg».proof.Proof.PushShared

noncomputable section

namespace Cert.Hand.Push

open Idealize.ShloMosaic Cert.Hand.Proj Cert.ReferenceIdeal.Stages Cert.KernelIdeal.Hand

theorem push2 (x0 x1 x2 : A21.Idx → EReal) (b : Fin 4) (i : Fin 19) :
    plane b i (val_main_v251 (F := Ideal) x0 x1 x2)
      = sq2 (F := Ideal) (blk4 b (t1 i) x0) (blk4 b (t0 i) x1) (blk4 b (t1 i) x1) (blk4 b (t2 i) x1)
          (blk4 b (t1 i) x2) := by
  simp only [
    val_main_v142, val_main_v143, val_main_v144, val_main_cst_38, val_main_v145, val_main_v146, val_main_cst_40,
    val_main_v152, val_main_v153, val_main_cst_41, val_main_v154, val_main_v155, val_main_cst_42, val_main_v157,
    val_main_call28_v0, val_main_call28_v1, val_main_v156, val_main_v158, val_main_v159, val_main_cst_43,
    val_main_v161, val_main_call29_v0, val_main_call29_v1, val_main_v160, val_main_v162, val_main_cst_44,
    val_main_v164, val_main_call30_v0, val_main_call30_v1, val_main_v163, val_main_v165, val_main_v166,
    val_main_v167, val_main_v216, val_main_cst_45, val_main_v168, val_main_v169, val_main_cst_46, val_main_v171,
    val_main_call32_v0, val_main_call32_v1, val_main_v170, val_main_v172, val_main_cst_47, val_main_v174,
    val_main_call33_v0, val_main_call33_v1, val_main_v173, val_main_v175, val_main_v176, val_main_cst_48,
    val_main_v177, val_main_v178, val_main_cst_49, val_main_v180, val_main_call34_v0, val_main_call34_v1,
    val_main_v179, val_main_v181, val_main_v182, val_main_v183, val_main_v217, val_main_v218, val_main_cst_60,
    val_main_v219, val_main_v220, val_main_cst_50, val_main_v184, val_main_v185, val_main_cst_51, val_main_v186,
    val_main_v187, val_main_cst_52, val_main_v189, val_main_call36_v0, val_main_call36_v1, val_main_v188,
    val_main_v190, val_main_v191, val_main_cst_53, val_main_v193, val_main_call37_v0, val_main_call37_v1,
    val_main_v192, val_main_v194, val_main_cst_54, val_main_v196, val_main_call38_v0, val_main_call38_v1,
    val_main_v195, val_main_v197, val_main_v198, val_main_v199, val_main_v221, val_main_cst_55, val_main_v200,
    val_main_v201, val_main_cst_56, val_main_v203, val_main_call40_v0, val_main_call40_v1, val_main_v202,
    val_main_v204, val_main_cst_57, val_main_v206, val_main_call41_v0, val_main_call41_v1, val_main_v205,
    val_main_v207, val_main_v208, val_main_cst_58, val_main_v209, val_main_v210, val_main_cst_59, val_main_v212,
    val_main_call42_v0, val_main_call42_v1, val_main_v211, val_main_v213, val_main_v214, val_main_v215,
    val_main_v222, val_main_v223, val_main_cst_61, val_main_v224, val_main_v225, val_main_v226, val_main_v227,
    val_main_call26_v0, val_main_call26_v1, val_main_v147, val_main_call27_v0, val_main_call27_v1, val_main_v148,
    val_main_v149, val_main_cst_39, val_main_v150, val_main_v151, val_main_v228, val_main_cst_66, val_main_v246,
    val_main_call44_v0, val_main_call44_v1, val_main_v229, val_main_cst_62, val_main_v230, val_main_v231,
    val_main_v232, val_main_call45_v0, val_main_call45_v1, val_main_v233, val_main_v234, val_main_cst_63,
    val_main_v235, val_main_v236, val_main_call46_v0, val_main_call46_v1, val_main_v237, val_main_cst_64,
    val_main_v238, val_main_v239, val_main_v240, val_main_call47_v0, val_main_call47_v1, val_main_v241,
    val_main_v242, val_main_cst_65, val_main_v243, val_main_v244, val_main_v245, val_main_v247, val_main_v248,
    val_main_v249, val_main_v250, val_main_v251,
    plane_elt, plane_mulf, plane_addf, plane_subf, plane_hostDivf, plane_select, plane_cmpf, plane_cst,
    plane_roll3_m1', plane_roll3_p1', plane_roll3_m2', plane_roll3_p2', plane_roll2_m1', plane_roll2_p1',
    plane_roll2_m2', plane_roll2_p2', plane_sl0, plane_sl1, plane_sl2, plane_v1, plane_v2, plane_v7, plane_v11,
    plane_v15, plane_v19, plane_v26]
  rfl

end Cert.Hand.Push

end
-- ==== Proof.Push3.lean ====
import proofs.«403124_j5119601017346_4_alg».proof.Proof.PlaneProj
import proofs.«403124_j5119601017346_4_alg».proof.Proof.KPlane
import proofs.«403124_j5119601017346_4_alg».proof.Proof.RefStages
import proofs.«403124_j5119601017346_4_alg».proof.Proof.PushShared

noncomputable section

namespace Cert.Hand.Push

open Idealize.ShloMosaic Cert.Hand.Proj Cert.ReferenceIdeal.Stages Cert.KernelIdeal.Hand

theorem push3 (x0 x1 x3 : A21.Idx → EReal) (b : Fin 4) (i : Fin 19) :
    plane b i (val_main_v357 (F := Ideal) x0 x1 x3)
      = sq3 (F := Ideal) (blk4 b (t1 i) x0) (blk4 b (t1 i) x1) (blk4 b (t0 i) x3) (blk4 b (t1 i) x3)
          (blk4 b (t2 i) x3) := by
  simp only [
    val_main_v254, val_main_v255, val_main_v256, val_main_cst_69, val_main_v257, val_main_v258, val_main_cst_70,
    val_main_v259, val_main_v260, val_main_cst_71, val_main_v261, val_main_v262, val_main_cst_72, val_main_v264,
    val_main_call48_v0, val_main_call48_v1, val_main_v263, val_main_v265, val_main_v266, val_main_cst_73,
    val_main_v268, val_main_call49_v0, val_main_call49_v1, val_main_v267, val_main_v269, val_main_cst_74,
    val_main_v271, val_main_call50_v0, val_main_call50_v1, val_main_v270, val_main_v272, val_main_v273,
    val_main_v274, val_main_v323, val_main_cst_75, val_main_v275, val_main_v276, val_main_cst_76, val_main_v278,
    val_main_call52_v0, val_main_call52_v1, val_main_v277, val_main_v279, val_main_cst_77, val_main_v281,
    val_main_call53_v0, val_main_call53_v1, val_main_v280, val_main_v282, val_main_v283, val_main_cst_78,
    val_main_v284, val_main_v285, val_main_cst_79, val_main_v287, val_main_call54_v0, val_main_call54_v1,
    val_main_v286, val_main_v288, val_main_v289, val_main_v290, val_main_v324, val_main_v325, val_main_cst_90,
    val_main_v326, val_main_v327, val_main_cst_80, val_main_v291, val_main_v292, val_main_cst_81, val_main_v293,
    val_main_v294, val_main_cst_82, val_main_v296, val_main_call56_v0, val_main_call56_v1, val_main_v295,
    val_main_v297, val_main_v298, val_main_cst_83, val_main_v300, val_main_call57_v0, val_main_call57_v1,
    val_main_v299, val_main_v301, val_main_cst_84, val_main_v303, val_main_call58_v0, val_main_call58_v1,
    val_main_v302, val_main_v304, val_main_v305, val_main_v306, val_main_v328, val_main_cst_85, val_main_v307,
    val_main_v308, val_main_cst_86, val_main_v310, val_main_call60_v0, val_main_call60_v1, val_main_v309,
    val_main_v311, val_main_cst_87, val_main_v313, val_main_call61_v0, val_main_call61_v1, val_main_v312,
    val_main_v314, val_main_v315, val_main_cst_88, val_main_v316, val_main_v317, val_main_cst_89, val_main_v319,
    val_main_call62_v0, val_main_call62_v1, val_main_v318, val_main_v320, val_main_v321, val_main_v322,
    val_main_v329, val_main_v330, val_main_cst_91, val_main_v331, val_main_v332, val_main_v333, val_main_v334,
    val_main_cst_96, val_main_v352, val_main_call64_v0, val_main_call64_v1, val_main_v335, val_main_cst_92,
    val_main_v336, val_main_v337, val_main_v338, val_main_call65_v0, val_main_call65_v1, val_main_v339,
    val_main_v340, val_main_cst_93, val_main_v341, val_main_v342, val_main_call66_v0, val_main_call66_v1,
    val_main_v343, val_main_cst_94, val_main_v344, val_main_v345, val_main_v346, val_main_call67_v0,
    val_main_call67_v1, val_main_v347, val_main_v348, val_main_cst_95, val_main_v349, val_main_v350, val_main_v351,
    val_main_v353, val_main_v354, val_main_v355, val_main_v356, val_main_v357,
    plane_elt, plane_mulf, plane_addf, plane_subf, plane_hostDivf, plane_select, plane_cmpf, plane_cst,
    plane_roll3_m1', plane_roll3_p1', plane_roll3_m2', plane_roll3_p2', plane_roll2_m1', plane_roll2_p1',
    plane_roll2_m2', plane_roll2_p2', plane_sl0, plane_sl1, plane_sl2, plane_v3, plane_v7, plane_v11, plane_v15,
    plane_v19, plane_v26]
  rfl

end Cert.Hand.Push

end
-- ==== Proof.RefVal.lean ====
import proofs.«403124_j5119601017346_4_alg».proof.Proof.RefStages
import Idealize.ShloMosaic.PureOps.Ideal.Laws

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

abbrev In : Type := (⟨S4x21x256x512, .f32⟩ : BufTy).Contents (Elt Ideal)

theorem loss_cont_eq (x0 x1 : In) :
    val_main_v29 (F := Ideal) x0 x1
      = fun _ => Ideal.div ((0 : EReal) + ∑ j : S4x19x256x512.Idx, val_main_v27 (F := Ideal) x0 x1 j)
          (Ideal.ofBits .f32 0x4B180000#32) := by
  funext i
  simp only [val_main_v29_apply, val_main_v28_apply, val_main_cst_5_apply, val_main_cst_6_apply, Ideal.hostDivf_def,
    Ideal.ofBits_def, Ideal.ofBits_zero_f32]

theorem loss_u_eq (x0 x1 x2 : In) :
    val_main_v141 (F := Ideal) x0 x1 x2
      = fun _ => Ideal.div ((0 : EReal) + ∑ j : S4x19x256x512.Idx, val_main_v139 (F := Ideal) x0 x1 x2 j)
          (Ideal.ofBits .f32 0x4B180000#32) := by
  funext i
  simp only [val_main_v141_apply, val_main_v140_apply, val_main_cst_36_apply, val_main_cst_37_apply, Ideal.hostDivf_def,
    Ideal.ofBits_def, Ideal.ofBits_zero_f32]

theorem loss_v_eq (x0 x1 x2 : In) :
    val_main_v253 (F := Ideal) x0 x1 x2
      = fun _ => Ideal.div ((0 : EReal) + ∑ j : S4x19x256x512.Idx, val_main_v251 (F := Ideal) x0 x1 x2 j)
          (Ideal.ofBits .f32 0x4B180000#32) := by
  funext i
  simp only [val_main_v253_apply, val_main_v252_apply, val_main_cst_67_apply, val_main_cst_68_apply, Ideal.hostDivf_def,
    Ideal.ofBits_def, Ideal.ofBits_zero_f32]

theorem loss_s_eq (x0 x1 x3 : In) :
    val_main_v359 (F := Ideal) x0 x1 x3
      = fun _ => Ideal.div ((0 : EReal) + ∑ j : S4x19x256x512.Idx, val_main_v357 (F := Ideal) x0 x1 x3 j)
          (Ideal.ofBits .f32 0x4B180000#32) := by
  funext i
  simp only [val_main_v359_apply, val_main_v358_apply, val_main_cst_97_apply, val_main_cst_98_apply, Ideal.hostDivf_def,
    Ideal.ofBits_def, Ideal.ofBits_zero_f32]

theorem total_eq (x0 x1 x2 x3 : In) :
    val_main_v362 (F := Ideal) x0 x1 x2 x3
      = addf (F := Ideal) (s := S_) (φ := .f32)
          (addf (F := Ideal) (s := S_) (φ := .f32)
            (addf (F := Ideal) (s := S_) (φ := .f32) (val_main_v29 (F := Ideal) x0 x1) (val_main_v141 (F := Ideal) x0 x1 x2))
            (val_main_v253 (F := Ideal) x0 x1 x2))
          (val_main_v359 (F := Ideal) x0 x1 x3) := rfl

end Cert.ReferenceIdeal.Hand
-- ==== Proof.IdealSum.lean ====
import proofs.«403124_j5119601017346_4_alg».proof.Proof.KPlane
import proofs.«403124_j5119601017346_4_alg».proof.Proof.SumReorg
import proofs.«403124_j5119601017346_4_alg».proof.Proof.PlaneProj
import proofs.«403124_j5119601017346_4_alg».proof.Proof.PushShared
import proofs.«403124_j5119601017346_4_alg».proof.Proof.Push0
import proofs.«403124_j5119601017346_4_alg».proof.Proof.Push1
import proofs.«403124_j5119601017346_4_alg».proof.Proof.Push2
import proofs.«403124_j5119601017346_4_alg».proof.Proof.Push3
import proofs.«403124_j5119601017346_4_alg».proof.Proof.RefVal

noncomputable section

open scoped BigOperators

namespace Cert.Hand.Total

open Idealize.ShloMosaic Idealize.ShloMosaic.ValueIdx Cert.Hand.Proj Cert.Hand.Push Cert.ReferenceIdeal.Stages
  Cert.KernelIdeal.Hand

def gridB (t : ℕ) : Fin 4 := ⟨t / 19 % 4, Nat.mod_lt _ (by decide)⟩

def gridI (t : ℕ) : Fin 19 := ⟨t % 19, Nat.mod_lt _ (by decide)⟩

theorem gridB_of_lt (t : Fin 76) : gridB t.val = ⟨t.val / 19, by omega⟩ :=
  Fin.ext (by show t.val / 19 % 4 = t.val / 19; omega)

theorem gridI_of_lt (t : Fin 76) : gridI t.val = ⟨t.val % 19, by omega⟩ := rfl

def blkP (x : A21.Idx → EReal) (t : ℕ) : B4.Idx → EReal := blk4 (gridB t) (t0 (gridI t)) x

def blkC (x : A21.Idx → EReal) (t : ℕ) : B4.Idx → EReal := blk4 (gridB t) (t1 (gridI t)) x

def blkN (x : A21.Idx → EReal) (t : ℕ) : B4.Idx → EReal := blk4 (gridB t) (t2 (gridI t)) x

theorem accum_apply (sq : FVec Ideal Cert.KernelIdeal.S256x512 .f32) (a : Vec Ideal Cert.KernelIdeal.S1x1 .f32) :
    (accum (F := Ideal) sq a (ix2 0 0) : EReal) = (a (ix2 0 0) : EReal) + Sums.psum sq := by
  unfold accum
  rw [shapeCast_self]
  show (a (ix2 0 0) : EReal) + planeSum (F := Ideal) sq (ix2 0 0) = _
  unfold planeSum
  rw [Sums.plane_sum_printed]

theorem zero_apply {z : FVec Ideal Cert.KernelIdeal.S1x1 .f32}
    (hz : z = shapeCast Cert.KernelIdeal.S1x1
      (broadcast Cert.KernelIdeal.S1x1 (Scalar.ofBits .f32 0x00000000#32 : Ideal .f32))
      Cert.KernelIdeal.Gen.shapeCasts_S1x1_S1x1) :
    (z (ix2 0 0) : EReal) = 0 := by
  rw [hz, shapeCast_self]
  exact Sums.ofBits_zero

theorem scalar_view_apply {α : Type} (x : Cert.KernelIdeal.S1x1.Idx → α)
    (h : Cert.KernelIdeal.S1x1.ShapeCasts Cert.KernelIdeal.S_) (k : Cert.KernelIdeal.S_.Idx) :
    shapeCast Cert.KernelIdeal.S_ x h k = x (ix2 0 0) :=
  shapeCast_apply x h k (ix2 0 0) (by
    rw [Shape.rowMajor_val_two]
    exact (Shape.rowMajorPi_zero _ k).symm)

def iter (step : ℕ → Vec Ideal Cert.KernelIdeal.S1x1 .f32 → Vec Ideal Cert.KernelIdeal.S1x1 .f32) (z : Vec Ideal Cert.KernelIdeal.S1x1 .f32) :
    ℕ → Vec Ideal Cert.KernelIdeal.S1x1 .f32
  | 0 => step 0 z
  | n + 1 => step (n + 1) (iter step z n)

section Sweep

variable {step : ℕ → Vec Ideal Cert.KernelIdeal.S1x1 .f32 → Vec Ideal Cert.KernelIdeal.S1x1 .f32} {z : Vec Ideal Cert.KernelIdeal.S1x1 .f32}
  (sq : ℕ → FVec Ideal Cert.KernelIdeal.S256x512 .f32) (X : A19.Idx → EReal)
  (hstep : ∀ t a, step t a = accum (F := Ideal) (sq t) a)
  (hz : z = shapeCast Cert.KernelIdeal.S1x1 (broadcast Cert.KernelIdeal.S1x1 (Scalar.ofBits .f32 0x00000000#32 : Ideal .f32))
    Cert.KernelIdeal.Gen.shapeCasts_S1x1_S1x1)

include hstep hz in
theorem iter_apply (n : ℕ) : (iter step z n (ix2 0 0) : EReal) = Sums.accFold (fun t => Sums.psum (sq t)) n := by
  induction n with
  | zero => exact (congrFun (hstep 0 z) _).trans ((accum_apply _ _).trans (congrArg (· + Sums.psum (sq 0)) (zero_apply hz)))
  | succ n ih =>
    exact (congrFun (hstep (n + 1) _) _).trans ((accum_apply _ _).trans (congrArg (· + Sums.psum (sq (n + 1))) ih))

include hstep hz in
/-- Point t adds the sum over plane t of X, and the 76 planes tile X: the sweep leaves the sum of X. -/
theorem iter_total (hpush : ∀ t, sq t = plane (gridB t) (gridI t) X) :
    (iter step z 75 (ix2 0 0) : EReal) = ∑ j : A19.Idx, X j := by
  rw [iter_apply sq hstep hz]
  refine Sums.accFold_planes_eq_total X _ fun t => ?_
  show Sums.psum (sq t.val) = _
  rw [hpush, gridB_of_lt t, gridI_of_lt t]
  rfl

end Sweep

theorem mean_of {it : Vec Ideal Cert.KernelIdeal.S1x1 .f32} {X : A19.Idx → EReal} (out : Vec Ideal Cert.KernelIdeal.S1x1 .f32 → FVec Ideal Cert.KernelIdeal.S1x1 .f32)
    (hout : ∀ a, out a = divf a (broadcast Cert.KernelIdeal.S1x1 (Scalar.ofBits .f32 0x4B180000#32 : Ideal .f32)))
    (hit : (it (ix2 0 0) : EReal) = ∑ j : A19.Idx, X j) (h : Cert.KernelIdeal.S1x1.ShapeCasts Cert.KernelIdeal.S_) :
    shapeCast Cert.KernelIdeal.S_ (out it) h
      = fun _ => Ideal.div ((0 : EReal) + ∑ j : A19.Idx, X j) (Ideal.ofBits .f32 0x4B180000#32) := by
  funext k
  refine (scalar_view_apply _ h k).trans ?_
  rw [hout]
  show Ideal.div (it (ix2 0 0) : EReal) (Ideal.ofBits .f32 0x4B180000#32) = _
  rw [hit, zero_add]

def sqAt0 (x0 x1 : A21.Idx → EReal) (t : ℕ) : FVec Ideal Cert.KernelIdeal.S256x512 .f32 :=
  sq0 (F := Ideal) (blkC x0 t) (blkC x1 t)

def accIter0 (x0 x1 : A21.Idx → EReal) : ℕ → Vec Ideal Cert.KernelIdeal.S1x1 .f32 :=
  iter (fun t a => acc0 (F := Ideal) (blkC x0 t) (blkC x1 t) a) (zero16 (F := Ideal))

theorem loss0 (x0 x1 : A21.Idx → EReal) (h : Cert.KernelIdeal.S1x1.ShapeCasts Cert.KernelIdeal.S_) :
    shapeCast Cert.KernelIdeal.S_ (out0 (F := Ideal) (accIter0 x0 x1 75)) h = val_main_v29 (F := Ideal) x0 x1 :=
  (mean_of out0 (fun _ => rfl)
    (iter_total (sqAt0 x0 x1) (val_main_v27 (F := Ideal) x0 x1) (fun _ _ => rfl) zero16_eq
      fun t => (push0 x0 x1 (gridB t) (gridI t)).symm) h).trans (Cert.ReferenceIdeal.Hand.loss_cont_eq x0 x1).symm

def sqAt1 (x0 x1 x2 : A21.Idx → EReal) (t : ℕ) : FVec Ideal Cert.KernelIdeal.S256x512 .f32 :=
  sq1 (F := Ideal) (blkP x0 t) (blkC x0 t) (blkN x0 t) (blkC x1 t) (blkC x2 t)

def accIter1 (x0 x1 x2 : A21.Idx → EReal) : ℕ → Vec Ideal Cert.KernelIdeal.S1x1 .f32 :=
  iter (fun t a => acc1 (F := Ideal) (blkP x0 t) (blkC x0 t) (blkN x0 t) (blkC x1 t) (blkC x2 t) a) (zero17 (F := Ideal))

theorem loss1 (x0 x1 x2 : A21.Idx → EReal) (h : Cert.KernelIdeal.S1x1.ShapeCasts Cert.KernelIdeal.S_) :
    shapeCast Cert.KernelIdeal.S_ (out1 (F := Ideal) (accIter1 x0 x1 x2 75)) h = val_main_v141 (F := Ideal) x0 x1 x2 :=
  (mean_of out1 (fun _ => rfl)
    (iter_total (sqAt1 x0 x1 x2) (val_main_v139 (F := Ideal) x0 x1 x2) (fun _ _ => rfl) zero17_eq
      fun t => (push1 x0 x1 x2 (gridB t) (gridI t)).symm) h).trans (Cert.ReferenceIdeal.Hand.loss_u_eq x0 x1 x2).symm

def sqAt2 (x0 x1 x2 : A21.Idx → EReal) (t : ℕ) : FVec Ideal Cert.KernelIdeal.S256x512 .f32 :=
  sq2 (F := Ideal) (blkC x0 t) (blkP x1 t) (blkC x1 t) (blkN x1 t) (blkC x2 t)

def accIter2 (x0 x1 x2 : A21.Idx → EReal) : ℕ → Vec Ideal Cert.KernelIdeal.S1x1 .f32 :=
  iter (fun t a => acc2 (F := Ideal) (blkC x0 t) (blkP x1 t) (blkC x1 t) (blkN x1 t) (blkC x2 t) a) (zero18 (F := Ideal))

theorem loss2 (x0 x1 x2 : A21.Idx → EReal) (h : Cert.KernelIdeal.S1x1.ShapeCasts Cert.KernelIdeal.S_) :
    shapeCast Cert.KernelIdeal.S_ (out2 (F := Ideal) (accIter2 x0 x1 x2 75)) h = val_main_v253 (F := Ideal) x0 x1 x2 :=
  (mean_of out2 (fun _ => rfl)
    (iter_total (sqAt2 x0 x1 x2) (val_main_v251 (F := Ideal) x0 x1 x2) (fun _ _ => rfl) zero18_eq
      fun t => (push2 x0 x1 x2 (gridB t) (gridI t)).symm) h).trans (Cert.ReferenceIdeal.Hand.loss_v_eq x0 x1 x2).symm

def sqAt3 (x0 x1 x3 : A21.Idx → EReal) (t : ℕ) : FVec Ideal Cert.KernelIdeal.S256x512 .f32 :=
  sq3 (F := Ideal) (blkC x0 t) (blkC x1 t) (blkP x3 t) (blkC x3 t) (blkN x3 t)

def accIter3 (x0 x1 x3 : A21.Idx → EReal) : ℕ → Vec Ideal Cert.KernelIdeal.S1x1 .f32 :=
  iter (fun t a => acc3 (F := Ideal) (blkC x0 t) (blkC x1 t) (blkP x3 t) (blkC x3 t) (blkN x3 t) a) (zero19 (F := Ideal))

theorem loss3 (x0 x1 x3 : A21.Idx → EReal) (h : Cert.KernelIdeal.S1x1.ShapeCasts Cert.KernelIdeal.S_) :
    shapeCast Cert.KernelIdeal.S_ (out3 (F := Ideal) (accIter3 x0 x1 x3 75)) h = val_main_v359 (F := Ideal) x0 x1 x3 :=
  (mean_of out3 (fun _ => rfl)
    (iter_total (sqAt3 x0 x1 x3) (val_main_v357 (F := Ideal) x0 x1 x3) (fun _ _ => rfl) zero19_eq
      fun t => (push3 x0 x1 x3 (gridB t) (gridI t)).symm) h).trans (Cert.ReferenceIdeal.Hand.loss_s_eq x0 x1 x3).symm

theorem total (x0 x1 x2 x3 : A21.Idx → EReal) (h : Cert.KernelIdeal.S1x1.ShapeCasts Cert.KernelIdeal.S_) :
    addf (F := Ideal) (s := Cert.KernelIdeal.S_) (φ := .f32)
        (addf (F := Ideal) (s := Cert.KernelIdeal.S_) (φ := .f32)
          (addf (F := Ideal) (s := Cert.KernelIdeal.S_) (φ := .f32)
            (shapeCast Cert.KernelIdeal.S_ (out0 (F := Ideal) (accIter0 x0 x1 75)) h)
            (shapeCast Cert.KernelIdeal.S_ (out1 (F := Ideal) (accIter1 x0 x1 x2 75)) h))
          (shapeCast Cert.KernelIdeal.S_ (out2 (F := Ideal) (accIter2 x0 x1 x2 75)) h))
        (shapeCast Cert.KernelIdeal.S_ (out3 (F := Ideal) (accIter3 x0 x1 x3 75)) h)
      = val_main_v362 (F := Ideal) x0 x1 x2 x3 := by
  rw [loss0, loss1, loss2, loss3]
  exact (Cert.ReferenceIdeal.Hand.total_eq x0 x1 x2 x3).symm

end Cert.Hand.Total

end
-- ==== Proof.KIValue.lean ====
import proofs.«403124_j5119601017346_4_alg».proof.Proof.KITail
import proofs.«403124_j5119601017346_4_alg».proof.Proof.KIPieces
import proofs.«403124_j5119601017346_4_alg».proof.Proof.KIBlocksTab
import proofs.«403124_j5119601017346_4_alg».proof.Proof.KIFinal
import proofs.«403124_j5119601017346_4_alg».proof.Proof.IdealSum

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

open Cert.Hand.Proj (A21 B4 blk4)
open Cert.Hand

variable (m : (ℓ : Loc nD τ sig) → Buf (Elt Ideal) ℓ)

abbrev X0 (c : Dev nD) : A21.Idx → EReal := m ((c : Thread nD τ).loc main_arg0)

abbrev X1 (c : Dev nD) : A21.Idx → EReal := m ((c : Thread nD τ).loc main_arg1)

abbrev X2 (c : Dev nD) : A21.Idx → EReal := m ((c : Thread nD τ).loc main_arg2)

abbrev X3 (c : Dev nD) : A21.Idx → EReal := m ((c : Thread nD τ).loc main_arg3)

theorem bUp_eq (c : Dev nD) (t : Fin cfg0.N) : bUp m c t = Total.blkP (X0 m c) t.val := (iblk_0 m c t).trans rfl
theorem bUc_eq (c : Dev nD) (t : Fin cfg0.N) : bUc m c t = Total.blkC (X0 m c) t.val := (iblk_1 m c t).trans rfl
theorem bUn_eq (c : Dev nD) (t : Fin cfg0.N) : bUn m c t = Total.blkN (X0 m c) t.val := (iblk_2 m c t).trans rfl
theorem bVp_eq (c : Dev nD) (t : Fin cfg0.N) : bVp m c t = Total.blkP (X1 m c) t.val := (iblk_3 m c t).trans rfl
theorem bVc_eq (c : Dev nD) (t : Fin cfg0.N) : bVc m c t = Total.blkC (X1 m c) t.val := (iblk_4 m c t).trans rfl
theorem bVn_eq (c : Dev nD) (t : Fin cfg0.N) : bVn m c t = Total.blkN (X1 m c) t.val := (iblk_5 m c t).trans rfl
theorem bPc_eq (c : Dev nD) (t : Fin cfg0.N) : bPc m c t = Total.blkC (X2 m c) t.val := (iblk_6 m c t).trans rfl
theorem bSp_eq (c : Dev nD) (t : Fin cfg0.N) : bSp m c t = Total.blkP (X3 m c) t.val := (iblk_7 m c t).trans rfl
theorem bSc_eq (c : Dev nD) (t : Fin cfg0.N) : bSc m c t = Total.blkC (X3 m c) t.val := (iblk_8 m c t).trans rfl
theorem bSn_eq (c : Dev nD) (t : Fin cfg0.N) : bSn m c t = Total.blkN (X3 m c) t.val := (iblk_9 m c t).trans rfl

theorem itF_0_eq (c : Dev nD) : ∀ (n : ℕ) (hn : n < cfg0.N), itF_0 m c n hn = Total.accIter0 (X0 m c) (X1 m c) n
  | 0, hn => by
    show acc0 (bUc m c ⟨0, hn⟩) (bVc m c ⟨0, hn⟩) (zero16 (F := Ideal)) = _
    rw [bUc_eq, bVc_eq]; rfl
  | n + 1, hn => by
    show acc0 (bUc m c ⟨n + 1, hn⟩) (bVc m c ⟨n + 1, hn⟩) (itF_0 m c n (Nat.lt_of_succ_lt hn)) = _
    rw [bUc_eq, bVc_eq, itF_0_eq c n (Nat.lt_of_succ_lt hn)]; rfl

theorem itF_1_eq (c : Dev nD) : ∀ (n : ℕ) (hn : n < cfg0.N), itF_1 m c n hn = Total.accIter1 (X0 m c) (X1 m c) (X2 m c) n
  | 0, hn => by
    show acc1 (bUp m c ⟨0, hn⟩) (bUc m c ⟨0, hn⟩) (bUn m c ⟨0, hn⟩) (bVc m c ⟨0, hn⟩) (bPc m c ⟨0, hn⟩) (zero17 (F := Ideal)) = _
    rw [bUp_eq, bUc_eq, bUn_eq, bVc_eq, bPc_eq]; rfl
  | n + 1, hn => by
    show acc1 (bUp m c ⟨n + 1, hn⟩) (bUc m c ⟨n + 1, hn⟩) (bUn m c ⟨n + 1, hn⟩) (bVc m c ⟨n + 1, hn⟩) (bPc m c ⟨n + 1, hn⟩)
      (itF_1 m c n (Nat.lt_of_succ_lt hn)) = _
    rw [bUp_eq, bUc_eq, bUn_eq, bVc_eq, bPc_eq, itF_1_eq c n (Nat.lt_of_succ_lt hn)]; rfl

theorem itF_2_eq (c : Dev nD) : ∀ (n : ℕ) (hn : n < cfg0.N), itF_2 m c n hn = Total.accIter2 (X0 m c) (X1 m c) (X2 m c) n
  | 0, hn => by
    show acc2 (bUc m c ⟨0, hn⟩) (bVp m c ⟨0, hn⟩) (bVc m c ⟨0, hn⟩) (bVn m c ⟨0, hn⟩) (bPc m c ⟨0, hn⟩) (zero18 (F := Ideal)) = _
    rw [bUc_eq, bVp_eq, bVc_eq, bVn_eq, bPc_eq]; rfl
  | n + 1, hn => by
    show acc2 (bUc m c ⟨n + 1, hn⟩) (bVp m c ⟨n + 1, hn⟩) (bVc m c ⟨n + 1, hn⟩) (bVn m c ⟨n + 1, hn⟩) (bPc m c ⟨n + 1, hn⟩)
      (itF_2 m c n (Nat.lt_of_succ_lt hn)) = _
    rw [bUc_eq, bVp_eq, bVc_eq, bVn_eq, bPc_eq, itF_2_eq c n (Nat.lt_of_succ_lt hn)]; rfl

theorem itF_3_eq (c : Dev nD) : ∀ (n : ℕ) (hn : n < cfg0.N), itF_3 m c n hn = Total.accIter3 (X0 m c) (X1 m c) (X3 m c) n
  | 0, hn => by
    show acc3 (bUc m c ⟨0, hn⟩) (bVc m c ⟨0, hn⟩) (bSp m c ⟨0, hn⟩) (bSc m c ⟨0, hn⟩) (bSn m c ⟨0, hn⟩) (zero19 (F := Ideal)) = _
    rw [bUc_eq, bVc_eq, bSp_eq, bSc_eq, bSn_eq]; rfl
  | n + 1, hn => by
    show acc3 (bUc m c ⟨n + 1, hn⟩) (bVc m c ⟨n + 1, hn⟩) (bSp m c ⟨n + 1, hn⟩) (bSc m c ⟨n + 1, hn⟩) (bSn m c ⟨n + 1, hn⟩)
      (itF_3 m c n (Nat.lt_of_succ_lt hn)) = _
    rw [bUc_eq, bVc_eq, bSp_eq, bSc_eq, bSn_eq, itF_3_eq c n (Nat.lt_of_succ_lt hn)]; rfl

theorem fin10 (c : Dev nD) : finA m c 10 = (fun i => out0 (F := Ideal) (Total.accIter0 (X0 m c) (X1 m c) 75) i) := by
  show (dats m 0 c).arrAt 10 cfg0.N = _
  rw [arrAt_out10 m c, outAt_last m c lastPt rfl]
  show (fun i => out0 (itF_0 m c lastPt.val lastPt.isLt) i) = _
  rw [itF_0_eq m c lastPt.val lastPt.isLt]

theorem fin11 (c : Dev nD) : finA m c 11 = (fun i => out1 (F := Ideal) (Total.accIter1 (X0 m c) (X1 m c) (X2 m c) 75) i) := by
  show (dats m 0 c).arrAt 11 cfg0.N = _
  rw [arrAt_out11 m c, outAt_last m c lastPt rfl]
  show (fun i => out1 (itF_1 m c lastPt.val lastPt.isLt) i) = _
  rw [itF_1_eq m c lastPt.val lastPt.isLt]

theorem fin12 (c : Dev nD) : finA m c 12 = (fun i => out2 (F := Ideal) (Total.accIter2 (X0 m c) (X1 m c) (X2 m c) 75) i) := by
  show (dats m 0 c).arrAt 12 cfg0.N = _
  rw [arrAt_out12 m c, outAt_last m c lastPt rfl]
  show (fun i => out2 (itF_2 m c lastPt.val lastPt.isLt) i) = _
  rw [itF_2_eq m c lastPt.val lastPt.isLt]

theorem fin13 (c : Dev nD) : finA m c 13 = (fun i => out3 (F := Ideal) (Total.accIter3 (X0 m c) (X1 m c) (X3 m c) 75) i) := by
  show (dats m 0 c).arrAt 13 cfg0.N = _
  rw [arrAt_out13 m c, outAt_last m c lastPt rfl]
  show (fun i => out3 (itF_3 m c lastPt.val lastPt.isLt) i) = _
  rw [itF_3_eq m c lastPt.val lastPt.isLt]

theorem results (c : Dev nD) :
    StableHlo.after hostOps1 (Vt m c) (Proc.devRef .tc main_v7)
        = Cert.ReferenceIdeal.Stages.val_main_v362 (F := Ideal) (m ((c : Thread nD τ).loc main_arg0)) (m ((c : Thread nD τ).loc main_arg1))
            (m ((c : Thread nD τ).loc main_arg2)) (m ((c : Thread nD τ).loc main_arg3))
      ∧ StableHlo.after hostOps1 (Vt m c) (Proc.devRef .tc main_v1)
        = Cert.ReferenceIdeal.Stages.val_main_v29 (F := Ideal) (m ((c : Thread nD τ).loc main_arg0)) (m ((c : Thread nD τ).loc main_arg1))
      ∧ StableHlo.after hostOps1 (Vt m c) (Proc.devRef .tc main_v2)
        = Cert.ReferenceIdeal.Stages.val_main_v141 (F := Ideal) (m ((c : Thread nD τ).loc main_arg0)) (m ((c : Thread nD τ).loc main_arg1))
            (m ((c : Thread nD τ).loc main_arg2))
      ∧ StableHlo.after hostOps1 (Vt m c) (Proc.devRef .tc main_v3)
        = Cert.ReferenceIdeal.Stages.val_main_v253 (F := Ideal) (m ((c : Thread nD τ).loc main_arg0)) (m ((c : Thread nD τ).loc main_arg1))
            (m ((c : Thread nD τ).loc main_arg2))
      ∧ StableHlo.after hostOps1 (Vt m c) (Proc.devRef .tc main_v4)
        = Cert.ReferenceIdeal.Stages.val_main_v359 (F := Ideal) (m ((c : Thread nD τ).loc main_arg0)) (m ((c : Thread nD τ).loc main_arg1))
            (m ((c : Thread nD τ).loc main_arg3)) := by
  refine ⟨?_, ?_, ?_, ?_, ?_⟩
  · rw [tail_v7 m c, fin10 m c, fin11 m c, fin12 m c, fin13 m c]
    exact Total.total (X0 m c) (X1 m c) (X2 m c) (X3 m c) Gen.shapeCasts_S1x1_S_
  · rw [tail_v1 m c, fin10 m c]
    exact Total.loss0 (X0 m c) (X1 m c) Gen.shapeCasts_S1x1_S_
  · rw [tail_v2 m c, fin11 m c]
    exact Total.loss1 (X0 m c) (X1 m c) (X2 m c) Gen.shapeCasts_S1x1_S_
  · rw [tail_v3 m c, fin12 m c]
    exact Total.loss2 (X0 m c) (X1 m c) (X2 m c) Gen.shapeCasts_S1x1_S_
  · rw [tail_v4 m c, fin13 m c]
    exact Total.loss3 (X0 m c) (X1 m c) (X3 m c) Gen.shapeCasts_S1x1_S_

end Cert.KernelIdeal.Hand

end
-- ==== Proof.RefRunInv.lean ====
import proofs.«403124_j5119601017346_4_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

structure Inv0 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3

structure Inv1 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v0 : W (Proc.devRef .tc main_v0) = Stages.val_main_v0 (F := F) a0
  e_main_v1 : W (Proc.devRef .tc main_v1) = Stages.val_main_v1 (F := F) a1
  e_main_v2 : W (Proc.devRef .tc main_v2) = Stages.val_main_v2 (F := F) a2
  e_main_v3 : W (Proc.devRef .tc main_v3) = Stages.val_main_v3 (F := F) a3
  e_main_v7 : W (Proc.devRef .tc main_v7) = Stages.val_main_v7 (F := F) a0
  e_main_v11 : W (Proc.devRef .tc main_v11) = Stages.val_main_v11 (F := F) a0
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v34 : W (Proc.devRef .tc main_v34) = Stages.val_main_v34 (F := F) a0
  e_main_v39 : W (Proc.devRef .tc main_v39) = Stages.val_main_v39 (F := F) a2
  e_main_v41 : W (Proc.devRef .tc main_v41) = Stages.val_main_v41 (F := F) a0
  e_main_v43 : W (Proc.devRef .tc main_v43) = Stages.val_main_v43 (F := F) a0
  e_main_v46 : W (Proc.devRef .tc main_v46) = Stages.val_main_v46 (F := F) a0

structure Inv2 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v0 : W (Proc.devRef .tc main_v0) = Stages.val_main_v0 (F := F) a0
  e_main_v1 : W (Proc.devRef .tc main_v1) = Stages.val_main_v1 (F := F) a1
  e_main_v2 : W (Proc.devRef .tc main_v2) = Stages.val_main_v2 (F := F) a2
  e_main_v3 : W (Proc.devRef .tc main_v3) = Stages.val_main_v3 (F := F) a3
  e_main_v7 : W (Proc.devRef .tc main_v7) = Stages.val_main_v7 (F := F) a0
  e_main_v11 : W (Proc.devRef .tc main_v11) = Stages.val_main_v11 (F := F) a0
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v34 : W (Proc.devRef .tc main_v34) = Stages.val_main_v34 (F := F) a0
  e_main_v39 : W (Proc.devRef .tc main_v39) = Stages.val_main_v39 (F := F) a2
  e_main_v55 : W (Proc.devRef .tc main_v55) = Stages.val_main_v55 (F := F) a0
  e_main_v71 : W (Proc.devRef .tc main_v71) = Stages.val_main_v71 (F := F) a0
  e_main_v87 : W (Proc.devRef .tc main_v87) = Stages.val_main_v87 (F := F) a0 a1
  e_main_v89 : W (Proc.devRef .tc main_v89) = Stages.val_main_v89 (F := F) a1
  e_main_v92 : W (Proc.devRef .tc main_v92) = Stages.val_main_v92 (F := F) a0

structure Inv3 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v1 : W (Proc.devRef .tc main_v1) = Stages.val_main_v1 (F := F) a1
  e_main_v2 : W (Proc.devRef .tc main_v2) = Stages.val_main_v2 (F := F) a2
  e_main_v3 : W (Proc.devRef .tc main_v3) = Stages.val_main_v3 (F := F) a3
  e_main_v7 : W (Proc.devRef .tc main_v7) = Stages.val_main_v7 (F := F) a0
  e_main_v11 : W (Proc.devRef .tc main_v11) = Stages.val_main_v11 (F := F) a0
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v140 : W (Proc.devRef .tc main_v140) = Stages.val_main_v140 (F := F) a0 a1 a2
  e_main_cst_37 : W (Proc.devRef .tc main_cst_37) = Stages.val_main_cst_37 (F := F)

structure Inv4 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v1 : W (Proc.devRef .tc main_v1) = Stages.val_main_v1 (F := F) a1
  e_main_v3 : W (Proc.devRef .tc main_v3) = Stages.val_main_v3 (F := F) a3
  e_main_v7 : W (Proc.devRef .tc main_v7) = Stages.val_main_v7 (F := F) a0
  e_main_v11 : W (Proc.devRef .tc main_v11) = Stages.val_main_v11 (F := F) a0
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v141 : W (Proc.devRef .tc main_v141) = Stages.val_main_v141 (F := F) a0 a1 a2
  e_main_v146 : W (Proc.devRef .tc main_v146) = Stages.val_main_v146 (F := F) a1
  e_main_v151 : W (Proc.devRef .tc main_v151) = Stages.val_main_v151 (F := F) a2
  e_main_v167 : W (Proc.devRef .tc main_v167) = Stages.val_main_v167 (F := F) a0 a1
  e_main_v183 : W (Proc.devRef .tc main_v183) = Stages.val_main_v183 (F := F) a0 a1
  e_main_v185 : W (Proc.devRef .tc main_v185) = Stages.val_main_v185 (F := F) a1
  e_main_v186 : W (Proc.devRef .tc main_v186) = Stages.val_main_v186 (F := F)

structure Inv5 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v1 : W (Proc.devRef .tc main_v1) = Stages.val_main_v1 (F := F) a1
  e_main_v3 : W (Proc.devRef .tc main_v3) = Stages.val_main_v3 (F := F) a3
  e_main_v7 : W (Proc.devRef .tc main_v7) = Stages.val_main_v7 (F := F) a0
  e_main_v11 : W (Proc.devRef .tc main_v11) = Stages.val_main_v11 (F := F) a0
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v141 : W (Proc.devRef .tc main_v141) = Stages.val_main_v141 (F := F) a0 a1 a2
  e_main_v228 : W (Proc.devRef .tc main_v228) = Stages.val_main_v228 (F := F) a0 a1 a2
  e_main_v234 : W (Proc.devRef .tc main_v234) = Stages.val_main_v234 (F := F) a1
  e_main_cst_63 : W (Proc.devRef .tc main_cst_63) = Stages.val_main_cst_63 (F := F)

structure Inv6 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v3 : W (Proc.devRef .tc main_v3) = Stages.val_main_v3 (F := F) a3
  e_main_v7 : W (Proc.devRef .tc main_v7) = Stages.val_main_v7 (F := F) a0
  e_main_v11 : W (Proc.devRef .tc main_v11) = Stages.val_main_v11 (F := F) a0
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v141 : W (Proc.devRef .tc main_v141) = Stages.val_main_v141 (F := F) a0 a1 a2
  e_main_v253 : W (Proc.devRef .tc main_v253) = Stages.val_main_v253 (F := F) a0 a1 a2
  e_main_v258 : W (Proc.devRef .tc main_v258) = Stages.val_main_v258 (F := F) a3
  e_main_v274 : W (Proc.devRef .tc main_v274) = Stages.val_main_v274 (F := F) a0 a3
  e_main_v276 : W (Proc.devRef .tc main_v276) = Stages.val_main_v276 (F := F) a0
  e_main_v279 : W (Proc.devRef .tc main_v279) = Stages.val_main_v279 (F := F) a3
  e_main_v280 : W (Proc.devRef .tc main_v280) = Stages.val_main_v280 (F := F) a3
  e_main_cst_77 : W (Proc.devRef .tc main_cst_77) = Stages.val_main_cst_77 (F := F)

structure Inv7 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v3 : W (Proc.devRef .tc main_v3) = Stages.val_main_v3 (F := F) a3
  e_main_v15 : W (Proc.devRef .tc main_v15) = Stages.val_main_v15 (F := F) a1
  e_main_v19 : W (Proc.devRef .tc main_v19) = Stages.val_main_v19 (F := F) a1
  e_main_v26 : W (Proc.devRef .tc main_v26) = Stages.val_main_v26 (F := F) a0 a1
  e_main_v29 : W (Proc.devRef .tc main_v29) = Stages.val_main_v29 (F := F) a0 a1
  e_main_v141 : W (Proc.devRef .tc main_v141) = Stages.val_main_v141 (F := F) a0 a1 a2
  e_main_v253 : W (Proc.devRef .tc main_v253) = Stages.val_main_v253 (F := F) a0 a1 a2
  e_main_v258 : W (Proc.devRef .tc main_v258) = Stages.val_main_v258 (F := F) a3
  e_main_v306 : W (Proc.devRef .tc main_v306) = Stages.val_main_v306 (F := F) a1 a3
  e_main_v322 : W (Proc.devRef .tc main_v322) = Stages.val_main_v322 (F := F) a1 a3
  e_main_v327 : W (Proc.devRef .tc main_v327) = Stages.val_main_v327 (F := F) a0 a3

structure Inv8 (a0 a1 a2 a3 : (⟨S4x21x256x512, .f32⟩ : BufTy).Contents (Elt F)) (W : Valuation τ sig (Elt F)) : Prop where
  e_main_arg0 : W (Proc.devRef .tc main_arg0) = a0
  e_main_arg1 : W (Proc.devRef .tc main_arg1) = a1
  e_main_arg2 : W (Proc.devRef .tc main_arg2) = a2
  e_main_arg3 : W (Proc.devRef .tc main_arg3) = a3
  e_main_v29 : W (Proc.devRef .tc main_v29) = Stages.val_main_v29 (F := F) a0 a1
  e_main_v141 : W (Proc.devRef .tc main_v141) = Stages.val_main_v141 (F := F) a0 a1 a2
  e_main_v253 : W (Proc.devRef .tc main_v253) = Stages.val_main_v253 (F := F) a0 a1 a2
  e_main_v359 : W (Proc.devRef .tc main_v359) = Stages.val_main_v359 (F := F) a0 a1 a3
  e_main_v362 : W (Proc.devRef .tc main_v362) = Stages.val_main_v362 (F := F) a0 a1 a2 a3

end Cert.ReferenceIdeal.Hand

end
-- ==== Proof.RefRunStep0.lean ====
import proofs.«403124_j5119601017346_4_alg».proof.Proof.RefRunOps0
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) := [main_v0, main_v1, main_v2, main_v3, main_call0_v0, main_call0_v1, main_v4, main_v5, main_cst, main_v6, main_v7, main_call1_v0, main_call1_v1, main_v8, main_v9, main_cst_0, main_v10, main_v11, main_call2_v0, main_call2_v1, main_v12, main_v13, main_cst_1, main_v14, main_v15, main_call3_v0, main_call3_v1, main_v16, main_v17, main_cst_2, main_v18, main_v19, main_v20, main_cst_3, main_v21, main_v22, main_v23, main_cst_4, main_v24, main_v25, main_v26, main_v27, main_cst_5, main_v28, main_cst_6, main_v29, main_v30, main_v31, main_v32, main_cst_7, main_v33, main_v34, main_call4_v0, main_call4_v1, main_v35, main_call5_v0, main_call5_v1, main_v36, main_v37, main_cst_8, main_v38, main_v39, main_cst_9, main_v40, main_v41, main_cst_10, main_v42, main_v43, main_call6_v0, main_call6_v1, main_v44, main_cst_11, main_v45, main_v46]

set_option maxRecDepth 8192 in
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops0_keep (W : Valuation τ sig (Elt F)) (r : Ref sig .tc) (h : r ∉ ops0_W) :
    after ops0 W (Proc.devRef .tc r) = W (Proc.devRef .tc r) :=
  after_of_writes_sub ops0 W ops0_writes h

section Step

variable {a0 a1 a2 a3 : (⟨S4x21x256x512, .f32⟩ : BufTy).Contents (Elt F)} {W : Valuation τ sig (Elt F)}

set_option maxRecDepth 8192 in
set_option maxHeartbeats 4000000 in
theorem step0_main_v0 (h : Inv0 a0 a1 a2 a3 W) :
    after ops0 W (Proc.devRef .tc main_v0) = Stages.val_main_v0 (F := F) a0 := by
  simp only [Stages.val_main_v0]
  rw [← h.e_main_arg0]
  rfl

set_option maxRecDepth 8192 in
set_option maxHeartbeats 4000000 in
theorem step0_main_v1 (h : Inv0 a0 a1 a2 a3 W) :
    after ops0 W (Proc.devRef .tc main_v1) = Stages.val_main_v1 (F := F) a1 := by
  simp only [Stages.val_main_v1]
  rw [← h.e_main_arg1]
  rfl

set_option maxRecDepth 8192 in
set_option maxHeartbeats 4000000 in
theorem step0_main_v2 (h : Inv0 a0 a1 a2 a3 W) :
    after ops0 W (Proc.devRef .tc main_v2) = Stages.val_main_v2 (F := F) a2 := by
  simp only [Stages.val_main_v2]
  rw [← h.e_main_arg2]
  rfl

set_option maxRecDepth 8192 in
set_option maxHeartbeats 4000000 in
theorem step0_main_v3 (h : Inv0 a0 a1 a2 a3 W) :
    after ops0 W (Proc.devRef .tc main_v3) = Stages.val_main_v3 (F := F) a3 := by
  simp only [Stages.val_main_v3]
  rw [← h.e_main_arg3]
  rfl

set_option maxRecDepth 8192 in
set_option maxHeartbeats 4000000 in
theorem step0_main_v7 (h : Inv0 a0 a1 a2 a3 W) :
    after ops0 W (Proc.devRef .tc main_v7) = Stages.val_main_v7 (F := F) a0 := by
  simp only [Stages.val_main_v0, Stages.val_main_call0_v0, Stages.val_main_call0_v1, Stages.val_main_v4, Stages.val_main_v5, Stages.val_main_cst, Stages.val_main_v6, Stages.val_main_v7]
  rw [← h.e_main_arg0]
  rfl

set_option maxRecDepth 8192 in
set_option maxHeartbeats 4000000 in
theorem step0_main_v11 (h : Inv0 a0 a1 a2 a3 W) :
    after ops0 W (Proc.devRef .tc main_v11) = Stages.val_main_v11 (F := F) a0 := by
  simp only [Stages.val_main_v0, Stages.val_main_call1_v0, Stages.val_main_call1_v1, Stages.val_main_v8, Stages.val_main_v9, Stages.val_main_cst_0, Stages.val_main_v10, Stages.val_main_v11]
  rw [← h.e_main_arg0]
  rfl

set_option maxRecDepth 8192 in
set_option maxHeartbeats 4000000 in
theorem step0_main_v15 (h : Inv0 a0 a1 a2 a3 W) :
    after ops0 W (Proc.devRef .tc main_v15) = Stages.val_main_v15 (F := F) a1 := by
  simp only [Stages.val_main_v1, Stages.val_main_call2_v0, Stages.val_main_call2_v1, Stages.val_main_v12, Stages.val_main_v13, Stages.val_main_cst_1, Stages.val_main_v14, Stages.val_main_v15]
  rw [← h.e_main_arg1]
  rfl

set_option maxRecDepth 8192 in
set_option maxHeartbeats 4000000 in
theorem step0_main_v19 (h : Inv0 a0 a1 a2 a3 W) :
    after ops0 W (Proc.devRef .tc main_v19) = Stages.val_main_v19 (F := F) a1 := by
  simp only [Stages.val_main_v1, Stages.val_main_call3_v0, Stages.val_main_call3_v1, Stages.val_main_v16, Stages.val_main_v17, Stages.val_main_cst_2, Stages.val_main_v18, Stages.val_main_v19]
  rw [← h.e_main_arg1]
  rfl

set_option maxRecDepth 8192 in
set_option maxHeartbeats 4000000 in
theorem step0_main_v26 (h : Inv0 a0 a1 a2 a3 W) :
    after ops0 W (Proc.devRef .tc main_v26) = Stages.val_main_v26 (F := F) a0 a1 := by
  simp only [Stages.val_main_v0, Stages.val_main_v1, Stages.val_main_call0_v0, Stages.val_main_call0_v1, Stages.val_main_v4, Stages.val_main_v5, Stages.val_main_cst, Stages.val_main_v6, Stages.val_main_v7, Stages.val_main_call1_v0, Stages.val_main_call1_v1, Stages.val_main_v8, Stages.val_main_v9, Stages.val_main_cst_0, Stages.val_main_v10, Stages.val_main_v11, Stages.val_main_call2_v0, Stages.val_main_call2_v1, Stages.val_main_v12, Stages.val_main_v13, Stages.val_main_cst_1, Stages.val_main_v14, Stages.val_main_v15, Stages.val_main_call3_v0, Stages.val_main_call3_v1, Stages.val_main_v16, Stages.val_main_v17, Stages.val_main_cst_2, Stages.val_main_v18, Stages.val_main_v19, Stages.val_main_v20, Stages.val_main_cst_3, Stages.val_main_v21, Stages.val_main_v22, Stages.val_main_v23, Stages.val_main_cst_4, Stages.val_main_v24, Stages.val_main_v25, Stages.val_main_v26]
  rw [← h.e_main_arg1, ← h.e_main_arg0]
  rfl

set_option maxRecDepth 8192 in
set_option maxHeartbeats 4000000 in
theorem step0_main_v29 (h : Inv0 a0 a1 a2 a3 W) :
    after ops0 W (Proc.devRef .tc main_v29) = Stages.val_main_v29 (F := F) a0 a1 := by
  simp only [Stages.val_main_v0, Stages.val_main_v1, Stages.val_main_call0_v0, Stages.val_main_call0_v1, Stages.val_main_v4, Stages.val_main_v5, Stages.val_main_cst, Stages.val_main_v6, Stages.val_main_v7, Stages.val_main_call1_v0, Stages.val_main_call1_v1, Stages.val_main_v8, Stages.val_main_v9, Stages.val_main_cst_0, Stages.val_main_v10, Stages.val_main_v11, Stages.val_main_call2_v0, Stages.val_main_call2_v1, Stages.val_main_v12, Stages.val_main_v13, Stages.val_main_cst_1, Stages.val_main_v14, Stages.val_main_v15, Stages.val_main_call3_v0, Stages.val_main_call3_v1, Stages.val_main_v16, Stages.val_main_v17, Stages.val_main_cst_2, Stages.val_main_v18, Stages.val_main_v19, Stages.val_main_v20, Stages.val_main_cst_3, Stages.val_main_v21, Stages.val_main_v22, Stages.val_main_v23, Stages.val_main_cst_4, Stages.val_main_v24, Stages.val_main_v25, Stages.val_main_v26, Stages.val_main_v27, Stages.val_main_cst_5, Stages.val_main_v28, Stages.val_main_cst_6, Stages.val_main_v29]
  rw [← h.e_main_arg1, ← h.e_main_arg0]
  rfl

set_option maxRecDepth 8192 in
set_option maxHeartbeats 4000000 in
theorem step0_main_v34 (h : Inv0 a0 a1 a2 a3 W) :
    after ops0 W (Proc.devRef .tc main_v34) = Stages.val_main_v34 (F := F) a0 := by
  simp only [Stages.val_main_v30, Stages.val_main_v31, Stages.val_main_v32, Stages.val_main_cst_7, Stages.val_main_v33, Stages.val_main_v34]
  rw [← h.e_main_arg0]
  rfl

set_option maxRecDepth 8192 in
set_option maxHeartbeats 4000000 in
theorem step0_main_v39 (h : Inv0 a0 a1 a2 a3 W) :
    after ops0 W (Proc.devRef .tc main_v39) = Stages.val_main_v39 (F := F) a2 := by
  simp only [Stages.val_main_v2, Stages.val_main_call4_v0, Stages.val_main_call4_v1, Stages.val_main_v35, Stages.val_main_call5_v0, Stages.val_main_call5_v1, Stages.val_main_v36, Stages.val_main_v37, Stages.val_main_cst_8, Stages.val_main_v38, Stages.val_main_v39]
  rw [← h.e_main_arg2]
  rfl

set_option maxRecDepth 8192 in
set_option maxHeartbeats 4000000 in
theorem step0_main_v41 (h : Inv0 a0 a1 a2 a3 W) :
    after ops0 W (Proc.devRef .tc main_v41) = Stages.val_main_v41 (F := F) a0 := by
  simp only [Stages.val_main_v0, Stages.val_main_call0_v0, Stages.val_main_call0_v1, Stages.val_main_v4, Stages.val_main_v5, Stages.val_main_cst, Stages.val_main_v6, Stages.val_main_v7, Stages.val_main_cst_9, Stages.val_main_v40, Stages.val_main_v41]
  rw [← h.e_main_arg0]
  rfl

set_option maxRecDepth 8192 in
set_option maxHeartbeats 4000000 in
theorem step0_main_v43 (h : Inv0 a0 a1 a2 a3 W) :
    after ops0 W (Proc.devRef .tc main_v43) = Stages.val_main_v43 (F := F) a0 := by
  simp only [Stages.val_main_v0, Stages.val_main_cst_10, Stages.val_main_v42, Stages.val_main_v43]
  rw [← h.e_main_arg0]
  rfl

set_option maxRecDepth 8192 in
set_option maxHeartbeats 4000000 in
theorem step0_main_v46 (h : Inv0 a0 a1 a2 a3 W) :
    after ops0 W (Proc.devRef .tc main_v46) = Stages.val_main_v46 (F := F) a0 := by
  simp only [Stages.val_main_v0, Stages.val_main_call6_v0, Stages.val_main_call6_v1, Stages.val_main_v44, Stages.val_main_cst_11, Stages.val_main_v45, Stages.val_main_v46]
  rw [← h.e_main_arg0]
  rfl

theorem step0 (h : Inv0 a0 a1 a2 a3 W) : Inv1 a0 a1 a2 a3 (after ops0 W) where
  e_main_arg0 := (ops0_keep W main_arg0 (by decide)).trans h.e_main_arg0
  e_main_arg1 := (ops0_keep W main_arg1 (by decide)).trans h.e_main_arg1
  e_main_arg2 := (ops0_keep W main_arg2 (by decide)).trans h.e_main_arg2
  e_main_arg3 := (ops0_keep W main_arg3 (by decide)).trans h.e_main_arg3
  e_main_v0 := step0_main_v0 h
  e_main_v1 := step0_main_v1 h
  e_main_v2 := step0_main_v2 h
  e_main_v3 := step0_main_v3 h
  e_main_v7 := step0_main_v7 h
  e_main_v11 := step0_main_v11 h
  e_main_v15 := step0_main_v15 h
  e_main_v19 := step0_main_v19 h
  e_main_v26 := step0_main_v26 h
  e_main_v29 := step0_main_v29 h
  e_main_v34 := step0_main_v34 h
  e_main_v39 := step0_main_v39 h
  e_main_v41 := step0_main_v41 h
  e_main_v43 := step0_main_v43 h
  e_main_v46 := step0_main_v46 h

end Step

end Cert.ReferenceIdeal.Hand

end
-- ==== Proof.RefRunStep1.lean ====
import proofs.«403124_j5119601017346_4_alg».proof.Proof.RefRunOps1
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops1_W : List (Ref sig .tc) := [main_v47, main_call7_v0, main_call7_v1, main_v48, main_cst_12, main_v49, main_v50, main_call8_v0, main_call8_v1, main_v51, main_cst_13, main_v52, main_v53, main_v54, main_v55, main_cst_14, main_v56, main_v57, main_call10_v0, main_call10_v1, main_v58, main_cst_15, main_v59, main_v60, main_call11_v0, main_call11_v1, main_v61, main_cst_16, main_v62, main_v63, main_v64, main_cst_17, main_v65, main_v66, main_call12_v0, main_call12_v1, main_v67, main_cst_18, main_v68, main_v69, main_v70, main_v71, main_cst_19, main_v72, main_v73, main_cst_20, main_v74, main_v75, main_call14_v0, main_call14_v1, main_v76, main_cst_21, main_v77, main_v78, main_v79, main_call15_v0, main_call15_v1, main_v80, main_cst_22, main_v81, main_v82, main_call16_v0, main_call16_v1, main_v83, main_cst_23, main_v84, main_v85, main_v86, main_v87, main_cst_24, main_v88, main_v89, main_call18_v0, main_call18_v1, main_v90, main_cst_25, main_v91, main_v92]

set_option maxRecDepth 8192 in
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops1_keep (W : Valuation τ sig (Elt F)) (r : Ref sig .tc) (h : r ∉ ops1_W) :
    after ops1 W (Proc.devRef .tc r) = W (Proc.devRef .tc r) :=
  after_of_writes_sub ops1 W ops1_writes h

section Step

variable {a0 a1 a2 a3 : (⟨S4x21x256x512, .f32⟩ : BufTy).Contents (Elt F)} {W : Valuation τ sig (Elt F)}

set_option maxRecDepth 8192 in
set_option maxHeartbeats 4000000 in
theorem step1_main_v55 (h : Inv1 a0 a1 a2 a3 W) :
    after ops1 W (Proc.devRef .tc main_v55) = Stages.val_main_v55 (F := F) a0 := by
  simp only [Stages.val_main_v47, Stages.val_main_call7_v0, Stages.val_main_call7_v1, Stages.val_main_v48, Stages.val_main_cst_12, Stages.val_main_v49, Stages.val_main_v50, Stages.val_main_call8_v0, Stages.val_main_call8_v1, Stages.val_main_v51, Stages.val_main_cst_13, Stages.val_main_v52, Stages.val_main_v53, Stages.val_main_v54, Stages.val_main_v55]
  rw [← h.e_main_v0, ← h.e_main_v46, ← h.e_main_v43, ← h.e_main_v41]
  rfl

set_option maxRecDepth 8192 in
set_option maxHeartbeats 4000000 in
theorem step1_main_v71 (h : Inv1 a0 a1 a2 a3 W) :
    after ops1 W (Proc.devRef .tc main_v71) = Stages.val_main_v71 (F := F) a0 := by
  simp only [Stages.val_main_cst_14, Stages.val_main_v56, Stages.val_main_v57, Stages.val_main_call10_v0, Stages.val_main_call10_v1, Stages.val_main_v58, Stages.val_main_cst_15, Stages.val_main_v59, Stages.val_main_v60, Stages.val_main_call11_v0, Stages.val_main_call11_v1, Stages.val_main_v61, Stages.val_main_cst_16, Stages.val_main_v62, Stages.val_main_v63, Stages.val_main_v64, Stages.val_main_cst_17, Stages.val_main_v65, Stages.val_main_v66, Stages.val_main_call12_v0, Stages.val_main_call12_v1, Stages.val_main_v67, Stages.val_main_cst_18, Stages.val_main_v68, Stages.val_main_v69, Stages.val_main_v70, Stages.val_main_v71]
  rw [← h.e_main_v0, ← h.e_main_v11]
  rfl

set_option maxRecDepth 8192 in
set_option maxHeartbeats 4000000 in
theorem step1_main_v87 (h : Inv1 a0 a1 a2 a3 W) :
    after ops1 W (Proc.devRef .tc main_v87) = Stages.val_main_v87 (F := F) a0 a1 := by
  simp only [Stages.val_main_cst_19, Stages.val_main_v72, Stages.val_main_v73, Stages.val_main_cst_20, Stages.val_main_v74, Stages.val_main_v75, Stages.val_main_call14_v0, Stages.val_main_call14_v1, Stages.val_main_v76, Stages.val_main_cst_21, Stages.val_main_v77, Stages.val_main_v78, Stages.val_main_v79, Stages.val_main_call15_v0, Stages.val_main_call15_v1, Stages.val_main_v80, Stages.val_main_cst_22, Stages.val_main_v81, Stages.val_main_v82, Stages.val_main_call16_v0, Stages.val_main_call16_v1, Stages.val_main_v83, Stages.val_main_cst_23, Stages.val_main_v84, Stages.val_main_v85, Stages.val_main_v86, Stages.val_main_v87]
  rw [← h.e_main_v0, ← h.e_main_v15]
  rfl

set_option maxRecDepth 8192 in
set_option maxHeartbeats 4000000 in
theorem step1_main_v89 (h : Inv1 a0 a1 a2 a3 W) :
    after ops1 W (Proc.devRef .tc main_v89) = Stages.val_main_v89 (F := F) a1 := by
  simp only [Stages.val_main_cst_24, Stages.val_main_v88, Stages.val_main_v89]
  rw [← h.e_main_v19]
  rfl

set_option maxRecDepth 8192 in
set_option maxHeartbeats 4000000 in
theorem step1_main_v92 (h : Inv1 a0 a1 a2 a3 W) :
    after ops1 W (Proc.devRef .tc main_v92) = Stages.val_main_v92 (F := F) a0 := by
  simp only [Stages.val_main_call18_v0, Stages.val_main_call18_v1, Stages.val_main_v90, Stages.val_main_cst_25, Stages.val_main_v91, Stages.val_main_v92]
  rw [← h.e_main_v0]
  rfl

theorem step1 (h : Inv1 a0 a1 a2 a3 W) : Inv2 a0 a1 a2 a3 (after ops1 W) where
  e_main_arg0 := (ops1_keep W main_arg0 (by decide)).trans h.e_main_arg0
  e_main_arg1 := (ops1_keep W main_arg1 (by decide)).trans h.e_main_arg1
  e_main_arg2 := (ops1_keep W main_arg2 (by decide)).trans h.e_main_arg2
  e_main_arg3 := (ops1_keep W main_arg3 (by decide)).trans h.e_main_arg3
  e_main_v0 := (ops1_keep W main_v0 (by decide)).trans h.e_main_v0
  e_main_v1 := (ops1_keep W main_v1 (by decide)).trans h.e_main_v1
  e_main_v2 := (ops1_keep W main_v2 (by decide)).trans h.e_main_v2
  e_main_v3 := (ops1_keep W main_v3 (by decide)).trans h.e_main_v3
  e_main_v7 := (ops1_keep W main_v7 (by decide)).trans h.e_main_v7
  e_main_v11 := (ops1_keep W main_v11 (by decide)).trans h.e_main_v11
  e_main_v15 := (ops1_keep W main_v15 (by decide)).trans h.e_main_v15
  e_main_v19 := (ops1_keep W main_v19 (by decide)).trans h.e_main_v19
  e_main_v26 := (ops1_keep W main_v26 (by decide)).trans h.e_main_v26
  e_main_v29 := (ops1_keep W main_v29 (by decide)).trans h.e_main_v29
  e_main_v34 := (ops1_keep W main_v34 (by decide)).trans h.e_main_v34
  e_main_v39 := (ops1_keep W main_v39 (by decide)).trans h.e_main_v39
  e_main_v55 := step1_main_v55 h
  e_main_v71 := step1_main_v71 h
  e_main_v87 := step1_main_v87 h
  e_main_v89 := step1_main_v89 h
  e_main_v92 := step1_main_v92 h

end Step

end Cert.ReferenceIdeal.Hand

end
-- ==== Proof.RefRunStep2.lean ====
import proofs.«403124_j5119601017346_4_alg».proof.Proof.RefRunOps2
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops2_W : List (Ref sig .tc) := [main_call19_v0, main_call19_v1, main_v93, main_cst_26, main_v94, main_v95, main_v96, main_cst_27, main_v97, main_v98, main_call20_v0, main_call20_v1, main_v99, main_cst_28, main_v100, main_v101, main_v102, main_v103, main_v104, main_v105, main_v106, main_cst_29, main_v107, main_v108, main_v109, main_v110, main_v111, main_cst_30, main_v112, main_v113, main_v114, main_v115, main_v116, main_call22_v0, main_call22_v1, main_v117, main_cst_31, main_v118, main_v119, main_v120, main_call23_v0, main_call23_v1, main_v121, main_v122, main_cst_32, main_v123, main_v124, main_call24_v0, main_call24_v1, main_v125, main_cst_33, main_v126, main_v127, main_v128, main_call25_v0, main_call25_v1, main_v129, main_v130, main_cst_34, main_v131, main_v132, main_v133, main_cst_35, main_v134, main_v135, main_v136, main_v137, main_v138, main_v139, main_cst_36, main_v140, main_cst_37]

set_option maxRecDepth 8192 in
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops2_keep (W : Valuation τ sig (Elt F)) (r : Ref sig .tc) (h : r ∉ ops2_W) :
    after ops2 W (Proc.devRef .tc r) = W (Proc.devRef .tc r) :=
  after_of_writes_sub ops2 W ops2_writes h

section Step

variable {a0 a1 a2 a3 : (⟨S4x21x256x512, .f32⟩ : BufTy).Contents (Elt F)} {W : Valuation τ sig (Elt F)}

set_option maxRecDepth 8192 in
set_option maxHeartbeats 4000000 in
theorem step2_main_v140 (h : Inv2 a0 a1 a2 a3 W) :
    after ops2 W (Proc.devRef .tc main_v140) = Stages.val_main_v140 (F := F) a0 a1 a2 := by
  simp only [Stages.val_main_call19_v0, Stages.val_main_call19_v1, Stages.val_main_v93, Stages.val_main_cst_26, Stages.val_main_v94, Stages.val_main_v95, Stages.val_main_v96, Stages.val_main_cst_27, Stages.val_main_v97, Stages.val_main_v98, Stages.val_main_call20_v0, Stages.val_main_call20_v1, Stages.val_main_v99, Stages.val_main_cst_28, Stages.val_main_v100, Stages.val_main_v101, Stages.val_main_v102, Stages.val_main_v103, Stages.val_main_v104, Stages.val_main_v105, Stages.val_main_v106, Stages.val_main_cst_29, Stages.val_main_v107, Stages.val_main_v108, Stages.val_main_v109, Stages.val_main_v110, Stages.val_main_v111, Stages.val_main_cst_30, Stages.val_main_v112, Stages.val_main_v113, Stages.val_main_v114, Stages.val_main_v115, Stages.val_main_v116, Stages.val_main_call22_v0, Stages.val_main_call22_v1, Stages.val_main_v117, Stages.val_main_cst_31, Stages.val_main_v118, Stages.val_main_v119, Stages.val_main_v120, Stages.val_main_call23_v0, Stages.val_main_call23_v1, Stages.val_main_v121, Stages.val_main_v122, Stages.val_main_cst_32, Stages.val_main_v123, Stages.val_main_v124, Stages.val_main_call24_v0, Stages.val_main_call24_v1, Stages.val_main_v125, Stages.val_main_cst_33, Stages.val_main_v126, Stages.val_main_v127, Stages.val_main_v128, Stages.val_main_call25_v0, Stages.val_main_call25_v1, Stages.val_main_v129, Stages.val_main_v130, Stages.val_main_cst_34, Stages.val_main_v131, Stages.val_main_v132, Stages.val_main_v133, Stages.val_main_cst_35, Stages.val_main_v134, Stages.val_main_v135, Stages.val_main_v136, Stages.val_main_v137, Stages.val_main_v138, Stages.val_main_v139, Stages.val_main_cst_36, Stages.val_main_v140]
  rw [← h.e_main_v26, ← h.e_main_v0, ← h.e_main_v39, ← h.e_main_v92, ← h.e_main_v89, ← h.e_main_v19, ← h.e_main_v87, ← h.e_main_v15, ← h.e_main_v71, ← h.e_main_v11, ← h.e_main_v55, ← h.e_main_v7, ← h.e_main_v34]
  rfl

set_option maxRecDepth 8192 in
set_option maxHeartbeats 4000000 in
theorem step2_main_cst_37 (h : Inv2 a0 a1 a2 a3 W) :
    after ops2 W (Proc.devRef .tc main_cst_37) = Stages.val_main_cst_37 (F := F) := by
  simp only [Stages.val_main_cst_37]
  rfl

theorem step2 (h : Inv2 a0 a1 a2 a3 W) : Inv3 a0 a1 a2 a3 (after ops2 W) where
  e_main_arg0 := (ops2_keep W main_arg0 (by decide)).trans h.e_main_arg0
  e_main_arg1 := (ops2_keep W main_arg1 (by decide)).trans h.e_main_arg1
  e_main_arg2 := (ops2_keep W main_arg2 (by decide)).trans h.e_main_arg2
  e_main_arg3 := (ops2_keep W main_arg3 (by decide)).trans h.e_main_arg3
  e_main_v1 := (ops2_keep W main_v1 (by decide)).trans h.e_main_v1
  e_main_v2 := (ops2_keep W main_v2 (by decide)).trans h.e_main_v2
  e_main_v3 := (ops2_keep W main_v3 (by decide)).trans h.e_main_v3
  e_main_v7 := (ops2_keep W main_v7 (by decide)).trans h.e_main_v7
  e_main_v11 := (ops2_keep W main_v11 (by decide)).trans h.e_main_v11
  e_main_v15 := (ops2_keep W main_v15 (by decide)).trans h.e_main_v15
  e_main_v19 := (ops2_keep W main_v19 (by decide)).trans h.e_main_v19
  e_main_v26 := (ops2_keep W main_v26 (by decide)).trans h.e_main_v26
  e_main_v29 := (ops2_keep W main_v29 (by decide)).trans h.e_main_v29
  e_main_v140 := step2_main_v140 h
  e_main_cst_37 := step2_main_cst_37 h

end Step

end Cert.ReferenceIdeal.Hand

end
-- ==== Proof.RefRunStep3.lean ====
import proofs.«403124_j5119601017346_4_alg».proof.Proof.RefRunOps3
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops3_W : List (Ref sig .tc) := [main_v141, main_v142, main_v143, main_v144, main_cst_38, main_v145, main_v146, main_call26_v0, main_call26_v1, main_v147, main_call27_v0, main_call27_v1, main_v148, main_v149, main_cst_39, main_v150, main_v151, main_cst_40, main_v152, main_v153, main_cst_41, main_v154, main_v155, main_call28_v0, main_call28_v1, main_v156, main_cst_42, main_v157, main_v158, main_v159, main_call29_v0, main_call29_v1, main_v160, main_cst_43, main_v161, main_v162, main_call30_v0, main_call30_v1, main_v163, main_cst_44, main_v164, main_v165, main_v166, main_v167, main_cst_45, main_v168, main_v169, main_call32_v0, main_call32_v1, main_v170, main_cst_46, main_v171, main_v172, main_call33_v0, main_call33_v1, main_v173, main_cst_47, main_v174, main_v175, main_v176, main_cst_48, main_v177, main_v178, main_call34_v0, main_call34_v1, main_v179, main_cst_49, main_v180, main_v181, main_v182, main_v183, main_cst_50, main_v184, main_v185, main_cst_51, main_v186]

set_option maxRecDepth 8192 in
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops3_keep (W : Valuation τ sig (Elt F)) (r : Ref sig .tc) (h : r ∉ ops3_W) :
    after ops3 W (Proc.devRef .tc r) = W (Proc.devRef .tc r) :=
  after_of_writes_sub ops3 W ops3_writes h

section Step

variable {a0 a1 a2 a3 : (⟨S4x21x256x512, .f32⟩ : BufTy).Contents (Elt F)} {W : Valuation τ sig (Elt F)}

set_option maxRecDepth 8192 in
set_option maxHeartbeats 4000000 in
theorem step3_main_v141 (h : Inv3 a0 a1 a2 a3 W) :
    after ops3 W (Proc.devRef .tc main_v141) = Stages.val_main_v141 (F := F) a0 a1 a2 := by
  simp only [Stages.val_main_v141]
  rw [← h.e_main_cst_37, ← h.e_main_v140]
  rfl

set_option maxRecDepth 8192 in
set_option maxHeartbeats 4000000 in
theorem step3_main_v146 (h : Inv3 a0 a1 a2 a3 W) :
    after ops3 W (Proc.devRef .tc main_v146) = Stages.val_main_v146 (F := F) a1 := by
  simp only [Stages.val_main_v142, Stages.val_main_v143, Stages.val_main_v144, Stages.val_main_cst_38, Stages.val_main_v145, Stages.val_main_v146]
  rw [← h.e_main_arg1]
  rfl

set_option maxRecDepth 8192 in
set_option maxHeartbeats 4000000 in
theorem step3_main_v151 (h : Inv3 a0 a1 a2 a3 W) :
    after ops3 W (Proc.devRef .tc main_v151) = Stages.val_main_v151 (F := F) a2 := by
  simp only [Stages.val_main_call26_v0, Stages.val_main_call26_v1, Stages.val_main_v147, Stages.val_main_call27_v0, Stages.val_main_call27_v1, Stages.val_main_v148, Stages.val_main_v149, Stages.val_main_cst_39, Stages.val_main_v150, Stages.val_main_v151]
  rw [← h.e_main_v2]
  rfl

set_option maxRecDepth 8192 in
set_option maxHeartbeats 4000000 in
theorem step3_main_v167 (h : Inv3 a0 a1 a2 a3 W) :
    after ops3 W (Proc.devRef .tc main_v167) = Stages.val_main_v167 (F := F) a0 a1 := by
  simp only [Stages.val_main_cst_40, Stages.val_main_v152, Stages.val_main_v153, Stages.val_main_cst_41, Stages.val_main_v154, Stages.val_main_v155, Stages.val_main_call28_v0, Stages.val_main_call28_v1, Stages.val_main_v156, Stages.val_main_cst_42, Stages.val_main_v157, Stages.val_main_v158, Stages.val_main_v159, Stages.val_main_call29_v0, Stages.val_main_call29_v1, Stages.val_main_v160, Stages.val_main_cst_43, Stages.val_main_v161, Stages.val_main_v162, Stages.val_main_call30_v0, Stages.val_main_call30_v1, Stages.val_main_v163, Stages.val_main_cst_44, Stages.val_main_v164, Stages.val_main_v165, Stages.val_main_v166, Stages.val_main_v167]
  rw [← h.e_main_v1, ← h.e_main_v7]
  rfl

set_option maxRecDepth 8192 in
set_option maxHeartbeats 4000000 in
theorem step3_main_v183 (h : Inv3 a0 a1 a2 a3 W) :
    after ops3 W (Proc.devRef .tc main_v183) = Stages.val_main_v183 (F := F) a0 a1 := by
  simp only [Stages.val_main_cst_45, Stages.val_main_v168, Stages.val_main_v169, Stages.val_main_call32_v0, Stages.val_main_call32_v1, Stages.val_main_v170, Stages.val_main_cst_46, Stages.val_main_v171, Stages.val_main_v172, Stages.val_main_call33_v0, Stages.val_main_call33_v1, Stages.val_main_v173, Stages.val_main_cst_47, Stages.val_main_v174, Stages.val_main_v175, Stages.val_main_v176, Stages.val_main_cst_48, Stages.val_main_v177, Stages.val_main_v178, Stages.val_main_call34_v0, Stages.val_main_call34_v1, Stages.val_main_v179, Stages.val_main_cst_49, Stages.val_main_v180, Stages.val_main_v181, Stages.val_main_v182, Stages.val_main_v183]
  rw [← h.e_main_v1, ← h.e_main_v11]
  rfl

set_option maxRecDepth 8192 in
set_option maxHeartbeats 4000000 in
theorem step3_main_v185 (h : Inv3 a0 a1 a2 a3 W) :
    after ops3 W (Proc.devRef .tc main_v185) = Stages.val_main_v185 (F := F) a1 := by
  simp only [Stages.val_main_cst_50, Stages.val_main_v184, Stages.val_main_v185]
  rw [← h.e_main_v15]
  rfl

set_option maxRecDepth 8192 in
set_option maxHeartbeats 4000000 in
theorem step3_main_v186 (h : Inv3 a0 a1 a2 a3 W) :
    after ops3 W (Proc.devRef .tc main_v186) = Stages.val_main_v186 (F := F) := by
  simp only [Stages.val_main_cst_51, Stages.val_main_v186]
  rfl

theorem step3 (h : Inv3 a0 a1 a2 a3 W) : Inv4 a0 a1 a2 a3 (after ops3 W) where
  e_main_arg0 := (ops3_keep W main_arg0 (by decide)).trans h.e_main_arg0
  e_main_arg1 := (ops3_keep W main_arg1 (by decide)).trans h.e_main_arg1
  e_main_arg2 := (ops3_keep W main_arg2 (by decide)).trans h.e_main_arg2
  e_main_arg3 := (ops3_keep W main_arg3 (by decide)).trans h.e_main_arg3
  e_main_v1 := (ops3_keep W main_v1 (by decide)).trans h.e_main_v1
  e_main_v3 := (ops3_keep W main_v3 (by decide)).trans h.e_main_v3
  e_main_v7 := (ops3_keep W main_v7 (by decide)).trans h.e_main_v7
  e_main_v11 := (ops3_keep W main_v11 (by decide)).trans h.e_main_v11
  e_main_v15 := (ops3_keep W main_v15 (by decide)).trans h.e_main_v15
  e_main_v19 := (ops3_keep W main_v19 (by decide)).trans h.e_main_v19
  e_main_v26 := (ops3_keep W main_v26 (by decide)).trans h.e_main_v26
  e_main_v29 := (ops3_keep W main_v29 (by decide)).trans h.e_main_v29
  e_main_v141 := step3_main_v141 h
  e_main_v146 := step3_main_v146 h
  e_main_v151 := step3_main_v151 h
  e_main_v167 := step3_main_v167 h
  e_main_v183 := step3_main_v183 h
  e_main_v185 := step3_main_v185 h
  e_main_v186 := step3_main_v186 h

end Step

end Cert.ReferenceIdeal.Hand

end
-- ==== Proof.RefRunStep4.lean ====
import proofs.«403124_j5119601017346_4_alg».proof.Proof.RefRunOps4
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops4_W : List (Ref sig .tc) := [main_v187, main_call36_v0, main_call36_v1, main_v188, main_cst_52, main_v189, main_v190, main_v191, main_call37_v0, main_call37_v1, main_v192, main_cst_53, main_v193, main_v194, main_call38_v0, main_call38_v1, main_v195, main_cst_54, main_v196, main_v197, main_v198, main_v199, main_cst_55, main_v200, main_v201, main_call40_v0, main_call40_v1, main_v202, main_cst_56, main_v203, main_v204, main_call41_v0, main_call41_v1, main_v205, main_cst_57, main_v206, main_v207, main_v208, main_cst_58, main_v209, main_v210, main_call42_v0, main_call42_v1, main_v211, main_cst_59, main_v212, main_v213, main_v214, main_v215, main_v216, main_v217, main_v218, main_cst_60, main_v219, main_v220, main_v221, main_v222, main_v223, main_cst_61, main_v224, main_v225, main_v226, main_v227, main_v228, main_call44_v0, main_call44_v1, main_v229, main_cst_62, main_v230, main_v231, main_v232, main_call45_v0, main_call45_v1, main_v233, main_v234, main_cst_63]

set_option maxRecDepth 8192 in
theorem ops4_writes : (ops4 : List (HloOp τ sig (Elt F))).Forall fun op =>
    op.writes ⊆ (ops4_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops4_keep (W : Valuation τ sig (Elt F)) (r : Ref sig .tc) (h : r ∉ ops4_W) :
    after ops4 W (Proc.devRef .tc r) = W (Proc.devRef .tc r) :=
  after_of_writes_sub ops4 W ops4_writes h

section Step

variable {a0 a1 a2 a3 : (⟨S4x21x256x512, .f32⟩ : BufTy).Contents (Elt F)} {W : Valuation τ sig (Elt F)}

set_option maxRecDepth 8192 in
set_option maxHeartbeats 4000000 in
theorem step4_main_v228 (h : Inv4 a0 a1 a2 a3 W) :
    after ops4 W (Proc.devRef .tc main_v228) = Stages.val_main_v228 (F := F) a0 a1 a2 := by
  simp only [Stages.val_main_v187, Stages.val_main_call36_v0, Stages.val_main_call36_v1, Stages.val_main_v188, Stages.val_main_cst_52, Stages.val_main_v189, Stages.val_main_v190, Stages.val_main_v191, Stages.val_main_call37_v0, Stages.val_main_call37_v1, Stages.val_main_v192, Stages.val_main_cst_53, Stages.val_main_v193, Stages.val_main_v194, Stages.val_main_call38_v0, Stages.val_main_call38_v1, Stages.val_main_v195, Stages.val_main_cst_54, Stages.val_main_v196, Stages.val_main_v197, Stages.val_main_v198, Stages.val_main_v199, Stages.val_main_cst_55, Stages.val_main_v200, Stages.val_main_v201, Stages.val_main_call40_v0, Stages.val_main_call40_v1, Stages.val_main_v202, Stages.val_main_cst_56, Stages.val_main_v203, Stages.val_main_v204, Stages.val_main_call41_v0, Stages.val_main_call41_v1, Stages.val_main_v205, Stages.val_main_cst_57, Stages.val_main_v206, Stages.val_main_v207, Stages.val_main_v208, Stages.val_main_cst_58, Stages.val_main_v209, Stages.val_main_v210, Stages.val_main_call42_v0, Stages.val_main_call42_v1, Stages.val_main_v211, Stages.val_main_cst_59, Stages.val_main_v212, Stages.val_main_v213, Stages.val_main_v214, Stages.val_main_v215, Stages.val_main_v216, Stages.val_main_v217, Stages.val_main_v218, Stages.val_main_cst_60, Stages.val_main_v219, Stages.val_main_v220, Stages.val_main_v221, Stages.val_main_v222, Stages.val_main_v223, Stages.val_main_cst_61, Stages.val_main_v224, Stages.val_main_v225, Stages.val_main_v226, Stages.val_main_v227, Stages.val_main_v228]
  rw [← h.e_main_v151, ← h.e_main_v1, ← h.e_main_v19, ← h.e_main_v186, ← h.e_main_v185, ← h.e_main_v15, ← h.e_main_v183, ← h.e_main_v11, ← h.e_main_v167, ← h.e_main_v7, ← h.e_main_v146]
  rfl

set_option maxRecDepth 8192 in
set_option maxHeartbeats 4000000 in
theorem step4_main_v234 (h : Inv4 a0 a1 a2 a3 W) :
    after ops4 W (Proc.devRef .tc main_v234) = Stages.val_main_v234 (F := F) a1 := by
  simp only [Stages.val_main_call44_v0, Stages.val_main_call44_v1, Stages.val_main_v229, Stages.val_main_cst_62, Stages.val_main_v230, Stages.val_main_v231, Stages.val_main_v232, Stages.val_main_call45_v0, Stages.val_main_call45_v1, Stages.val_main_v233, Stages.val_main_v234]
  rw [← h.e_main_v1]
  rfl

set_option maxRecDepth 8192 in
set_option maxHeartbeats 4000000 in
theorem step4_main_cst_63 (h : Inv4 a0 a1 a2 a3 W) :
    after ops4 W (Proc.devRef .tc main_cst_63) = Stages.val_main_cst_63 (F := F) := by
  simp only [Stages.val_main_cst_63]
  rfl

theorem step4 (h : Inv4 a0 a1 a2 a3 W) : Inv5 a0 a1 a2 a3 (after ops4 W) where
  e_main_arg0 := (ops4_keep W main_arg0 (by decide)).trans h.e_main_arg0
  e_main_arg1 := (ops4_keep W main_arg1 (by decide)).trans h.e_main_arg1
  e_main_arg2 := (ops4_keep W main_arg2 (by decide)).trans h.e_main_arg2
  e_main_arg3 := (ops4_keep W main_arg3 (by decide)).trans h.e_main_arg3
  e_main_v1 := (ops4_keep W main_v1 (by decide)).trans h.e_main_v1
  e_main_v3 := (ops4_keep W main_v3 (by decide)).trans h.e_main_v3
  e_main_v7 := (ops4_keep W main_v7 (by decide)).trans h.e_main_v7
  e_main_v11 := (ops4_keep W main_v11 (by decide)).trans h.e_main_v11
  e_main_v15 := (ops4_keep W main_v15 (by decide)).trans h.e_main_v15
  e_main_v19 := (ops4_keep W main_v19 (by decide)).trans h.e_main_v19
  e_main_v26 := (ops4_keep W main_v26 (by decide)).trans h.e_main_v26
  e_main_v29 := (ops4_keep W main_v29 (by decide)).trans h.e_main_v29
  e_main_v141 := (ops4_keep W main_v141 (by decide)).trans h.e_main_v141
  e_main_v228 := step4_main_v228 h
  e_main_v234 := step4_main_v234 h
  e_main_cst_63 := step4_main_cst_63 h

end Step

end Cert.ReferenceIdeal.Hand

end
-- ==== Proof.RefRunStep5.lean ====
import proofs.«403124_j5119601017346_4_alg».proof.Proof.RefRunOps5
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops5_W : List (Ref sig .tc) := [main_v235, main_v236, main_call46_v0, main_call46_v1, main_v237, main_cst_64, main_v238, main_v239, main_v240, main_call47_v0, main_call47_v1, main_v241, main_v242, main_cst_65, main_v243, main_v244, main_v245, main_cst_66, main_v246, main_v247, main_v248, main_v249, main_v250, main_v251, main_cst_67, main_v252, main_cst_68, main_v253, main_v254, main_v255, main_v256, main_cst_69, main_v257, main_v258, main_cst_70, main_v259, main_v260, main_cst_71, main_v261, main_v262, main_call48_v0, main_call48_v1, main_v263, main_cst_72, main_v264, main_v265, main_v266, main_call49_v0, main_call49_v1, main_v267, main_cst_73, main_v268, main_v269, main_call50_v0, main_call50_v1, main_v270, main_cst_74, main_v271, main_v272, main_v273, main_v274, main_cst_75, main_v275, main_v276, main_call52_v0, main_call52_v1, main_v277, main_cst_76, main_v278, main_v279, main_call53_v0, main_call53_v1, main_v280, main_cst_77]

set_option maxRecDepth 8192 in
theorem ops5_writes : (ops5 : List (HloOp τ sig (Elt F))).Forall fun op =>
    op.writes ⊆ (ops5_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops5_keep (W : Valuation τ sig (Elt F)) (r : Ref sig .tc) (h : r ∉ ops5_W) :
    after ops5 W (Proc.devRef .tc r) = W (Proc.devRef .tc r) :=
  after_of_writes_sub ops5 W ops5_writes h

section Step

variable {a0 a1 a2 a3 : (⟨S4x21x256x512, .f32⟩ : BufTy).Contents (Elt F)} {W : Valuation τ sig (Elt F)}

set_option maxRecDepth 8192 in
set_option maxHeartbeats 4000000 in
theorem step5_main_v253 (h : Inv5 a0 a1 a2 a3 W) :
    after ops5 W (Proc.devRef .tc main_v253) = Stages.val_main_v253 (F := F) a0 a1 a2 := by
  simp only [Stages.val_main_v235, Stages.val_main_v236, Stages.val_main_call46_v0, Stages.val_main_call46_v1, Stages.val_main_v237, Stages.val_main_cst_64, Stages.val_main_v238, Stages.val_main_v239, Stages.val_main_v240, Stages.val_main_call47_v0, Stages.val_main_call47_v1, Stages.val_main_v241, Stages.val_main_v242, Stages.val_main_cst_65, Stages.val_main_v243, Stages.val_main_v244, Stages.val_main_v245, Stages.val_main_cst_66, Stages.val_main_v246, Stages.val_main_v247, Stages.val_main_v248, Stages.val_main_v249, Stages.val_main_v250, Stages.val_main_v251, Stages.val_main_cst_67, Stages.val_main_v252, Stages.val_main_cst_68, Stages.val_main_v253]
  rw [← h.e_main_v26, ← h.e_main_v1, ← h.e_main_cst_63, ← h.e_main_v234, ← h.e_main_v228]
  rfl

set_option maxRecDepth 8192 in
set_option maxHeartbeats 4000000 in
theorem step5_main_v258 (h : Inv5 a0 a1 a2 a3 W) :
    after ops5 W (Proc.devRef .tc main_v258) = Stages.val_main_v258 (F := F) a3 := by
  simp only [Stages.val_main_v254, Stages.val_main_v255, Stages.val_main_v256, Stages.val_main_cst_69, Stages.val_main_v257, Stages.val_main_v258]
  rw [← h.e_main_arg3]
  rfl

set_option maxRecDepth 8192 in
set_option maxHeartbeats 4000000 in
theorem step5_main_v274 (h : Inv5 a0 a1 a2 a3 W) :
    after ops5 W (Proc.devRef .tc main_v274) = Stages.val_main_v274 (F := F) a0 a3 := by
  simp only [Stages.val_main_cst_70, Stages.val_main_v259, Stages.val_main_v260, Stages.val_main_cst_71, Stages.val_main_v261, Stages.val_main_v262, Stages.val_main_call48_v0, Stages.val_main_call48_v1, Stages.val_main_v263, Stages.val_main_cst_72, Stages.val_main_v264, Stages.val_main_v265, Stages.val_main_v266, Stages.val_main_call49_v0, Stages.val_main_call49_v1, Stages.val_main_v267, Stages.val_main_cst_73, Stages.val_main_v268, Stages.val_main_v269, Stages.val_main_call50_v0, Stages.val_main_call50_v1, Stages.val_main_v270, Stages.val_main_cst_74, Stages.val_main_v271, Stages.val_main_v272, Stages.val_main_v273, Stages.val_main_v274]
  rw [← h.e_main_v3, ← h.e_main_v7]
  rfl

set_option maxRecDepth 8192 in
set_option maxHeartbeats 4000000 in
theorem step5_main_v276 (h : Inv5 a0 a1 a2 a3 W) :
    after ops5 W (Proc.devRef .tc main_v276) = Stages.val_main_v276 (F := F) a0 := by
  simp only [Stages.val_main_cst_75, Stages.val_main_v275, Stages.val_main_v276]
  rw [← h.e_main_v11]
  rfl

set_option maxRecDepth 8192 in
set_option maxHeartbeats 4000000 in
theorem step5_main_v279 (h : Inv5 a0 a1 a2 a3 W) :
    after ops5 W (Proc.devRef .tc main_v279) = Stages.val_main_v279 (F := F) a3 := by
  simp only [Stages.val_main_call52_v0, Stages.val_main_call52_v1, Stages.val_main_v277, Stages.val_main_cst_76, Stages.val_main_v278, Stages.val_main_v279]
  rw [← h.e_main_v3]
  rfl

set_option maxRecDepth 8192 in
set_option maxHeartbeats 4000000 in
theorem step5_main_v280 (h : Inv5 a0 a1 a2 a3 W) :
    after ops5 W (Proc.devRef .tc main_v280) = Stages.val_main_v280 (F := F) a3 := by
  simp only [Stages.val_main_call53_v0, Stages.val_main_call53_v1, Stages.val_main_v280]
  rw [← h.e_main_v3]
  rfl

set_option maxRecDepth 8192 in
set_option maxHeartbeats 4000000 in
theorem step5_main_cst_77 (h : Inv5 a0 a1 a2 a3 W) :
    after ops5 W (Proc.devRef .tc main_cst_77) = Stages.val_main_cst_77 (F := F) := by
  simp only [Stages.val_main_cst_77]
  rfl

theorem step5 (h : Inv5 a0 a1 a2 a3 W) : Inv6 a0 a1 a2 a3 (after ops5 W) where
  e_main_arg0 := (ops5_keep W main_arg0 (by decide)).trans h.e_main_arg0
  e_main_arg1 := (ops5_keep W main_arg1 (by decide)).trans h.e_main_arg1
  e_main_arg2 := (ops5_keep W main_arg2 (by decide)).trans h.e_main_arg2
  e_main_arg3 := (ops5_keep W main_arg3 (by decide)).trans h.e_main_arg3
  e_main_v3 := (ops5_keep W main_v3 (by decide)).trans h.e_main_v3
  e_main_v7 := (ops5_keep W main_v7 (by decide)).trans h.e_main_v7
  e_main_v11 := (ops5_keep W main_v11 (by decide)).trans h.e_main_v11
  e_main_v15 := (ops5_keep W main_v15 (by decide)).trans h.e_main_v15
  e_main_v19 := (ops5_keep W main_v19 (by decide)).trans h.e_main_v19
  e_main_v26 := (ops5_keep W main_v26 (by decide)).trans h.e_main_v26
  e_main_v29 := (ops5_keep W main_v29 (by decide)).trans h.e_main_v29
  e_main_v141 := (ops5_keep W main_v141 (by decide)).trans h.e_main_v141
  e_main_v253 := step5_main_v253 h
  e_main_v258 := step5_main_v258 h
  e_main_v274 := step5_main_v274 h
  e_main_v276 := step5_main_v276 h
  e_main_v279 := step5_main_v279 h
  e_main_v280 := step5_main_v280 h
  e_main_cst_77 := step5_main_cst_77 h

end Step

end Cert.ReferenceIdeal.Hand

end
-- ==== Proof.RefRunStep6.lean ====
import proofs.«403124_j5119601017346_4_alg».proof.Proof.RefRunOps6
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops6_W : List (Ref sig .tc) := [main_v281, main_v282, main_v283, main_cst_78, main_v284, main_v285, main_call54_v0, main_call54_v1, main_v286, main_cst_79, main_v287, main_v288, main_v289, main_v290, main_cst_80, main_v291, main_v292, main_cst_81, main_v293, main_v294, main_call56_v0, main_call56_v1, main_v295, main_cst_82, main_v296, main_v297, main_v298, main_call57_v0, main_call57_v1, main_v299, main_cst_83, main_v300, main_v301, main_call58_v0, main_call58_v1, main_v302, main_cst_84, main_v303, main_v304, main_v305, main_v306, main_cst_85, main_v307, main_v308, main_call60_v0, main_call60_v1, main_v309, main_cst_86, main_v310, main_v311, main_call61_v0, main_call61_v1, main_v312, main_cst_87, main_v313, main_v314, main_v315, main_cst_88, main_v316, main_v317, main_call62_v0, main_call62_v1, main_v318, main_cst_89, main_v319, main_v320, main_v321, main_v322, main_v323, main_v324, main_v325, main_cst_90, main_v326, main_v327]

set_option maxRecDepth 8192 in
theorem ops6_writes : (ops6 : List (HloOp τ sig (Elt F))).Forall fun op =>
    op.writes ⊆ (ops6_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops6_keep (W : Valuation τ sig (Elt F)) (r : Ref sig .tc) (h : r ∉ ops6_W) :
    after ops6 W (Proc.devRef .tc r) = W (Proc.devRef .tc r) :=
  after_of_writes_sub ops6 W ops6_writes h

section Step

variable {a0 a1 a2 a3 : (⟨S4x21x256x512, .f32⟩ : BufTy).Contents (Elt F)} {W : Valuation τ sig (Elt F)}

set_option maxRecDepth 8192 in
set_option maxHeartbeats 4000000 in
theorem step6_main_v306 (h : Inv6 a0 a1 a2 a3 W) :
    after ops6 W (Proc.devRef .tc main_v306) = Stages.val_main_v306 (F := F) a1 a3 := by
  simp only [Stages.val_main_cst_80, Stages.val_main_v291, Stages.val_main_v292, Stages.val_main_cst_81, Stages.val_main_v293, Stages.val_main_v294, Stages.val_main_call56_v0, Stages.val_main_call56_v1, Stages.val_main_v295, Stages.val_main_cst_82, Stages.val_main_v296, Stages.val_main_v297, Stages.val_main_v298, Stages.val_main_call57_v0, Stages.val_main_call57_v1, Stages.val_main_v299, Stages.val_main_cst_83, Stages.val_main_v300, Stages.val_main_v301, Stages.val_main_call58_v0, Stages.val_main_call58_v1, Stages.val_main_v302, Stages.val_main_cst_84, Stages.val_main_v303, Stages.val_main_v304, Stages.val_main_v305, Stages.val_main_v306]
  rw [← h.e_main_v3, ← h.e_main_v15]
  rfl

set_option maxRecDepth 8192 in
set_option maxHeartbeats 4000000 in
theorem step6_main_v322 (h : Inv6 a0 a1 a2 a3 W) :
    after ops6 W (Proc.devRef .tc main_v322) = Stages.val_main_v322 (F := F) a1 a3 := by
  simp only [Stages.val_main_cst_85, Stages.val_main_v307, Stages.val_main_v308, Stages.val_main_call60_v0, Stages.val_main_call60_v1, Stages.val_main_v309, Stages.val_main_cst_86, Stages.val_main_v310, Stages.val_main_v311, Stages.val_main_call61_v0, Stages.val_main_call61_v1, Stages.val_main_v312, Stages.val_main_cst_87, Stages.val_main_v313, Stages.val_main_v314, Stages.val_main_v315, Stages.val_main_cst_88, Stages.val_main_v316, Stages.val_main_v317, Stages.val_main_call62_v0, Stages.val_main_call62_v1, Stages.val_main_v318, Stages.val_main_cst_89, Stages.val_main_v319, Stages.val_main_v320, Stages.val_main_v321, Stages.val_main_v322]
  rw [← h.e_main_v3, ← h.e_main_v19]
  rfl

set_option maxRecDepth 8192 in
set_option maxHeartbeats 4000000 in
theorem step6_main_v327 (h : Inv6 a0 a1 a2 a3 W) :
    after ops6 W (Proc.devRef .tc main_v327) = Stages.val_main_v327 (F := F) a0 a3 := by
  simp only [Stages.val_main_v281, Stages.val_main_v282, Stages.val_main_v283, Stages.val_main_cst_78, Stages.val_main_v284, Stages.val_main_v285, Stages.val_main_call54_v0, Stages.val_main_call54_v1, Stages.val_main_v286, Stages.val_main_cst_79, Stages.val_main_v287, Stages.val_main_v288, Stages.val_main_v289, Stages.val_main_v290, Stages.val_main_v323, Stages.val_main_v324, Stages.val_main_v325, Stages.val_main_cst_90, Stages.val_main_v326, Stages.val_main_v327]
  rw [← h.e_main_v3, ← h.e_main_v280, ← h.e_main_cst_77, ← h.e_main_v279, ← h.e_main_v276, ← h.e_main_v11, ← h.e_main_v274, ← h.e_main_v7]
  rfl

theorem step6 (h : Inv6 a0 a1 a2 a3 W) : Inv7 a0 a1 a2 a3 (after ops6 W) where
  e_main_arg0 := (ops6_keep W main_arg0 (by decide)).trans h.e_main_arg0
  e_main_arg1 := (ops6_keep W main_arg1 (by decide)).trans h.e_main_arg1
  e_main_arg2 := (ops6_keep W main_arg2 (by decide)).trans h.e_main_arg2
  e_main_arg3 := (ops6_keep W main_arg3 (by decide)).trans h.e_main_arg3
  e_main_v3 := (ops6_keep W main_v3 (by decide)).trans h.e_main_v3
  e_main_v15 := (ops6_keep W main_v15 (by decide)).trans h.e_main_v15
  e_main_v19 := (ops6_keep W main_v19 (by decide)).trans h.e_main_v19
  e_main_v26 := (ops6_keep W main_v26 (by decide)).trans h.e_main_v26
  e_main_v29 := (ops6_keep W main_v29 (by decide)).trans h.e_main_v29
  e_main_v141 := (ops6_keep W main_v141 (by decide)).trans h.e_main_v141
  e_main_v253 := (ops6_keep W main_v253 (by decide)).trans h.e_main_v253
  e_main_v258 := (ops6_keep W main_v258 (by decide)).trans h.e_main_v258
  e_main_v306 := step6_main_v306 h
  e_main_v322 := step6_main_v322 h
  e_main_v327 := step6_main_v327 h

end Step

end Cert.ReferenceIdeal.Hand

end
-- ==== Proof.RefRunStep7.lean ====
import proofs.«403124_j5119601017346_4_alg».proof.Proof.RefRunOps7
import proofs.«403124_j5119601017346_4_alg».proof.Proof.RefRunInv

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops7_W : List (Ref sig .tc) := [main_v328, main_v329, main_v330, main_cst_91, main_v331, main_v332, main_v333, main_v334, main_call64_v0, main_call64_v1, main_v335, main_cst_92, main_v336, main_v337, main_v338, main_call65_v0, main_call65_v1, main_v339, main_v340, main_cst_93, main_v341, main_v342, main_call66_v0, main_call66_v1, main_v343, main_cst_94, main_v344, main_v345, main_v346, main_call67_v0, main_call67_v1, main_v347, main_v348, main_cst_95, main_v349, main_v350, main_v351, main_cst_96, main_v352, main_v353, main_v354, main_v355, main_v356, main_v357, main_cst_97, main_v358, main_cst_98, main_v359, main_v360, main_v361, main_v362]

set_option maxRecDepth 8192 in
theorem ops7_writes : (ops7 : List (HloOp τ sig (Elt F))).Forall fun op =>
    op.writes ⊆ (ops7_W.map (Proc.devRef (τ := τ) .tc)).toFinset := by
  simp only [List.Forall, nullary_writes, unary_writes, binary_writes, ternary_writes, Finset.singleton_subset_iff, List.mem_toFinset]
  and_intros <;> exact List.mem_map_of_mem (by decide)

theorem ops7_keep (W : Valuation τ sig (Elt F)) (r : Ref sig .tc) (h : r ∉ ops7_W) :
    after ops7 W (Proc.devRef .tc r) = W (Proc.devRef .tc r) :=
  after_of_writes_sub ops7 W ops7_writes h

section Step

variable {a0 a1 a2 a3 : (⟨S4x21x256x512, .f32⟩ : BufTy).Contents (Elt F)} {W : Valuation τ sig (Elt F)}

set_option maxRecDepth 8192 in
set_option maxHeartbeats 4000000 in
theorem step7_main_v359 (h : Inv7 a0 a1 a2 a3 W) :
    after ops7 W (Proc.devRef .tc main_v359) = Stages.val_main_v359 (F := F) a0 a1 a3 := by
  simp only [Stages.val_main_v328, Stages.val_main_v329, Stages.val_main_v330, Stages.val_main_cst_91, Stages.val_main_v331, Stages.val_main_v332, Stages.val_main_v333, Stages.val_main_v334, Stages.val_main_call64_v0, Stages.val_main_call64_v1, Stages.val_main_v335, Stages.val_main_cst_92, Stages.val_main_v336, Stages.val_main_v337, Stages.val_main_v338, Stages.val_main_call65_v0, Stages.val_main_call65_v1, Stages.val_main_v339, Stages.val_main_v340, Stages.val_main_cst_93, Stages.val_main_v341, Stages.val_main_v342, Stages.val_main_call66_v0, Stages.val_main_call66_v1, Stages.val_main_v343, Stages.val_main_cst_94, Stages.val_main_v344, Stages.val_main_v345, Stages.val_main_v346, Stages.val_main_call67_v0, Stages.val_main_call67_v1, Stages.val_main_v347, Stages.val_main_v348, Stages.val_main_cst_95, Stages.val_main_v349, Stages.val_main_v350, Stages.val_main_v351, Stages.val_main_cst_96, Stages.val_main_v352, Stages.val_main_v353, Stages.val_main_v354, Stages.val_main_v355, Stages.val_main_v356, Stages.val_main_v357, Stages.val_main_cst_97, Stages.val_main_v358, Stages.val_main_cst_98, Stages.val_main_v359]
  rw [← h.e_main_v26, ← h.e_main_v3, ← h.e_main_v322, ← h.e_main_v19, ← h.e_main_v306, ← h.e_main_v15, ← h.e_main_v327, ← h.e_main_v258]
  rfl

set_option maxRecDepth 8192 in
set_option maxHeartbeats 4000000 in
theorem step7_main_v362 (h : Inv7 a0 a1 a2 a3 W) :
    after ops7 W (Proc.devRef .tc main_v362) = Stages.val_main_v362 (F := F) a0 a1 a2 a3 := by
  simp only [Stages.val_main_v328, Stages.val_main_v329, Stages.val_main_v330, Stages.val_main_cst_91, Stages.val_main_v331, Stages.val_main_v332, Stages.val_main_v333, Stages.val_main_v334, Stages.val_main_call64_v0, Stages.val_main_call64_v1, Stages.val_main_v335, Stages.val_main_cst_92, Stages.val_main_v336, Stages.val_main_v337, Stages.val_main_v338, Stages.val_main_call65_v0, Stages.val_main_call65_v1, Stages.val_main_v339, Stages.val_main_v340, Stages.val_main_cst_93, Stages.val_main_v341, Stages.val_main_v342, Stages.val_main_call66_v0, Stages.val_main_call66_v1, Stages.val_main_v343, Stages.val_main_cst_94, Stages.val_main_v344, Stages.val_main_v345, Stages.val_main_v346, Stages.val_main_call67_v0, Stages.val_main_call67_v1, Stages.val_main_v347, Stages.val_main_v348, Stages.val_main_cst_95, Stages.val_main_v349, Stages.val_main_v350, Stages.val_main_v351, Stages.val_main_cst_96, Stages.val_main_v352, Stages.val_main_v353, Stages.val_main_v354, Stages.val_main_v355, Stages.val_main_v356, Stages.val_main_v357, Stages.val_main_cst_97, Stages.val_main_v358, Stages.val_main_cst_98, Stages.val_main_v359, Stages.val_main_v360, Stages.val_main_v361, Stages.val_main_v362]
  rw [← h.e_main_v26, ← h.e_main_v3, ← h.e_main_v322, ← h.e_main_v19, ← h.e_main_v306, ← h.e_main_v15, ← h.e_main_v327, ← h.e_main_v258, ← h.e_main_v253, ← h.e_main_v141, ← h.e_main_v29]
  rfl

theorem step7 (h : Inv7 a0 a1 a2 a3 W) : Inv8 a0 a1 a2 a3 (after ops7 W) where
  e_main_arg0 := (ops7_keep W main_arg0 (by decide)).trans h.e_main_arg0
  e_main_arg1 := (ops7_keep W main_arg1 (by decide)).trans h.e_main_arg1
  e_main_arg2 := (ops7_keep W main_arg2 (by decide)).trans h.e_main_arg2
  e_main_arg3 := (ops7_keep W main_arg3 (by decide)).trans h.e_main_arg3
  e_main_v29 := (ops7_keep W main_v29 (by decide)).trans h.e_main_v29
  e_main_v141 := (ops7_keep W main_v141 (by decide)).trans h.e_main_v141
  e_main_v253 := (ops7_keep W main_v253 (by decide)).trans h.e_main_v253
  e_main_v359 := step7_main_v359 h
  e_main_v362 := step7_main_v362 h

end Step

end Cert.ReferenceIdeal.Hand

end
-- ==== Proof.RefRun.lean ====
import proofs.«403124_j5119601017346_4_alg».proof.Proof.RefRunStep0
import proofs.«403124_j5119601017346_4_alg».proof.Proof.RefRunStep1
import proofs.«403124_j5119601017346_4_alg».proof.Proof.RefRunStep2
import proofs.«403124_j5119601017346_4_alg».proof.Proof.RefRunStep3
import proofs.«403124_j5119601017346_4_alg».proof.Proof.RefRunStep4
import proofs.«403124_j5119601017346_4_alg».proof.Proof.RefRunStep5
import proofs.«403124_j5119601017346_4_alg».proof.Proof.RefRunStep6
import proofs.«403124_j5119601017346_4_alg».proof.Proof.RefRunStep7
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops0 ++ (ops1 ++ (ops2 ++ (ops3 ++ (ops4 ++ (ops5 ++ (ops6 ++ (ops7)))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

theorem ops_fresh : ∀ op ∈ (ops : List (HloOp τ sig (Elt F))), op.fresh = ∅ := fun op h => by
  simp only [ops, List.mem_append] at h
  rcases h with h | h | h | h | h | h | h | h
  exacts [ops0_fresh op h, ops1_fresh op h, ops2_fresh op h, ops3_fresh op h, ops4_fresh op h, ops5_fresh op h, ops6_fresh op h, ops7_fresh op h]

theorem after_ops (V : Valuation τ sig (Elt F)) :
    after ops V = after ops7 (after ops6 (after ops5 (after ops4 (after ops3 (after ops2 (after ops1 (after ops0 (V)))))))) := by
  simp only [ops, StableHlo.after_append]

theorem inv0 (m : (ℓ : Loc nD τ sig) → Buf (Elt F) ℓ) (c : Dev nD) :
    Inv0 (F := F) (m ((c.tc : Thread nD τ).loc main_arg0)) (m ((c.tc : Thread nD τ).loc main_arg1)) (m ((c.tc : Thread nD τ).loc main_arg2)) (m ((c.tc : Thread nD τ).loc main_arg3)) (launchContents m c) where
  e_main_arg0 := rfl
  e_main_arg1 := rfl
  e_main_arg2 := rfl
  e_main_arg3 := rfl

theorem inv8 (m : (ℓ : Loc nD τ sig) → Buf (Elt F) ℓ) (c : Dev nD) :
    Inv8 (F := F) (m ((c.tc : Thread nD τ).loc main_arg0)) (m ((c.tc : Thread nD τ).loc main_arg1)) (m ((c.tc : Thread nD τ).loc main_arg2)) (m ((c.tc : Thread nD τ).loc main_arg3)) (after ops (launchContents m c)) := by
  rw [after_ops]
  exact step7 (step6 (step5 (step4 (step3 (step2 (step1 (step0 (inv0 m c))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v362) = Stages.val_main_v362 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = Stages.val_main_v29 (F := F) (m ((c.tc : Thread nD τ).loc main_arg0)) (m ((c.tc : Thread nD τ).loc main_arg1))
      ∧ r.2.mem ((c.tc : Thread nD τ).loc main_v141) = Stages.val_main_v141 (F := F) (m ((c.tc : Thread nD τ).loc main_arg0)) (m ((c.tc : Thread nD τ).loc main_arg1)) (m ((c.tc : Thread nD τ).loc main_arg2))
      ∧ r.2.mem ((c.tc : Thread nD τ).loc main_v253) = Stages.val_main_v253 (F := F) (m ((c.tc : Thread nD τ).loc main_arg0)) (m ((c.tc : Thread nD τ).loc main_arg1)) (m ((c.tc : Thread nD τ).loc main_arg2))
      ∧ r.2.mem ((c.tc : Thread nD τ).loc main_v359) = Stages.val_main_v359 (F := F) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v362).trans (inv8 m c).e_main_v362,
       (h c main_v29).trans (inv8 m c).e_main_v29,
       (h c main_v141).trans (inv8 m c).e_main_v141,
       (h c main_v253).trans (inv8 m c).e_main_v253,
       (h c main_v359).trans (inv8 m c).e_main_v359,
       (h c main_arg0).trans (inv8 m c).e_main_arg0,
       (h c main_arg1).trans (inv8 m c).e_main_arg1,
       (h c main_arg2).trans (inv8 m c).e_main_arg2,
       (h c main_arg3).trans (inv8 m c).e_main_arg3⟩)
    (run_seq scopedRefs_eq scopedSems_eq defs main (fun _ => ops) main_eq (fun _ => ops_sub) m ρ (fun _ => ops_fresh))

end Cert.ReferenceIdeal.Hand

end
-- ==== Proof.lean ====
import proofs.«403124_j5119601017346_4_alg».proof.Defs
import proofs.«403124_j5119601017346_4_alg».proof.Proof.Gen.Kernel
import proofs.«403124_j5119601017346_4_alg».proof.Proof.Gen.Kernel.Skeleton
import proofs.«403124_j5119601017346_4_alg».proof.Proof.Gen.Kernel.Launch
import proofs.«403124_j5119601017346_4_alg».proof.Proof.Gen.Kernel.Points
import proofs.«403124_j5119601017346_4_alg».proof.Proof.Gen.KernelIdeal
import proofs.«403124_j5119601017346_4_alg».proof.Proof.Gen.KernelIdeal.Skeleton
import proofs.«403124_j5119601017346_4_alg».proof.Proof.Gen.KernelIdeal.Launch
import proofs.«403124_j5119601017346_4_alg».proof.Proof.Gen.KernelIdeal.Points
import proofs.«403124_j5119601017346_4_alg».proof.Proof.Gen.ReferenceIdeal
import proofs.«403124_j5119601017346_4_alg».proof.Proof.Gen.Pre_finite_inputs
import proofs.«403124_j5119601017346_4_alg».proof.Proof.KILaunch
import proofs.«403124_j5119601017346_4_alg».proof.Proof.KIValue
import proofs.«403124_j5119601017346_4_alg».proof.Proof.RefRun
import Idealize.ShloMosaic.Adequacy
import Idealize.ShloMosaic.Init

noncomputable section

namespace Cert.Proof

open Idealize.ShloMosaic Idealize.ShloMosaic.TcCoe Idealize.SL.Sem

/-- The two prints of the kernel have one table of bodies: label by label the same text. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

/-- The printed kernel is the idealized print's text, so the latter's run, read at Bits, is the former's. -/
theorem frame_k : Cert.frame_Kernel := fun m g _ =>
  (θ_run (Cert.Kernel.defs (F := Bits)) _ _).mono (fun _ (h : Cert.KernelIdeal.Hand.QC m _) c => (h c).2.2.2.2.2)
    (show θ_run (Cert.Kernel.defs (F := Bits)) (onTc (τ := Cert.Kernel.τ) (Cert.Kernel.main (F := Bits))) ⟨m, fun _ => 0, g⟩
        (Cert.KernelIdeal.Hand.QC m) from defs_eq ▸ Cert.KernelIdeal.Hand.run_main (F := Bits) m g)

theorem frame_ki : Cert.frame_KernelIdeal := fun m g _ =>
  (θ_run (Cert.KernelIdeal.defs (F := Ideal)) _ _).mono (fun _ h c => (h c).2.2.2.2.2)
    (Cert.KernelIdeal.Hand.run_main (F := Ideal) m g)

theorem frame_ri : Cert.frame_ReferenceIdeal := fun m g _ =>
  (θ_run (Cert.ReferenceIdeal.defs (F := Ideal)) _ _).mono (fun _ h c => (h c).2.2.2.2.2)
    (Cert.ReferenceIdeal.Hand.run (F := Ideal) m g)

theorem preserves : Cert.preserves_Kernel_KernelIdeal := trivial

theorem algebraic : Cert.algebraic_KernelIdeal_ReferenceIdeal := by
  intro m g m' g' _ hagree
  refine ⟨fun c => Cert.ReferenceIdeal.Stages.val_main_v362 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Stages.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Stages.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Stages.val_main_v253 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Stages.val_main_v359 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  ·
    refine (θ_run (Cert.KernelIdeal.defs (F := Ideal)) _ _).mono (fun _ h c => ?_) (Cert.KernelIdeal.Hand.run_main (F := Ideal) m g)
    obtain ⟨r0, r1, r2, r3, r4⟩ := Cert.KernelIdeal.Hand.results m c
    exact ⟨(h c).1.trans r0, (h c).2.1.trans r1, (h c).2.2.1.trans r2, (h c).2.2.2.1.trans r3,
      (h c).2.2.2.2.1.trans r4, (h c).2.2.2.2.2⟩
  ·
    refine (θ_run (Cert.ReferenceIdeal.defs (F := Ideal)) _ _).mono (fun _ h c => ?_) (Cert.ReferenceIdeal.Hand.run (F := Ideal) m' g')
    obtain ⟨e0, e1, e2, e3⟩ := hagree c
    refine ⟨(h c).1.trans ?_, (h c).2.1.trans ?_, (h c).2.2.1.trans ?_, (h c).2.2.2.1.trans ?_,
      (h c).2.2.2.2.1.trans ?_, (h c).2.2.2.2.2⟩
    · rw [e0, e1, e2, e3]
    · rw [e0, e1]
    · rw [e0, e1, e2]
    · rw [e0, e1, e2]
    · rw [e0, e1, e3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
